-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S8192 : Shape := ⟨1, ![8192]⟩
abbrev S512x256 : Shape := ⟨2, ![512, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S256 .f32) (main_arg8 : FVec F S256x40 .f32) (main_arg9 : FVec F S40 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x40 .f32 := Host.absf main_arg8
  let main_cst_14 : FVec F S_ .f32 := constant S_ .f32 0x7F800000#32
  let main_v40 : FVec F S256x40 .f32 := broadcastInDim S256x40 ![] bcast_S_S256x40 main_cst_14
  let main_v41 : IVec S256x40 1 := cmpf .olt main_v39 main_v40
  let main_c_15 : IVec S_ 1 := constantI S_ 1 1#1
  let main_v42 : IVec S_ 1 := (fun x v => Host.reduce IntOp.andi x v reducesTo_S256x40_S_d0_1 h_S_) main_v41 main_c_15
  let main_v43 : IVec S_ 1 := andi main_v38 main_v42
  let main_v44 : FVec F S40 .f32 := Host.absf main_arg9
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg4 : FVec F S512x256 .f32) (main_arg5 : FVec F S256 .f32) (main_arg6 : FVec F S256x256 .f32) (main_arg7 : FVec F S256 .f32) (main_arg8 : FVec F S256x40 .f32) (main_arg9 : FVec F S40 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x512 .f32) (main_arg1 : FVec F S8192x8192 .f32) (main_arg2 : FVec F S8192x8192 .f32) (main_arg3 : FVec F S8192 .f32) (main_arg4 : FVec F S512x256 .f32) (main_arg5 : FVec F S256 .f32) (main_arg6 : FVec F S256x256 .f32) (main_arg7 : FVec F S256 .f32) (main_arg8 : FVec F S256x40 .f32) (main_arg9 : FVec F S40 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_arg6 main_arg7 main_arg8 main_arg9 main_v13 main_v16
-- ==== Kernel.lean ====
abbrev S8192x512 : Shape := ⟨2, ![8192, 512]⟩
abbrev S8192x8192 : Shape := ⟨2, ![8192, 8192]⟩
abbrev S8192 : Shape := ⟨1, ![8192]⟩
abbrev S512x256 : Shape := ⟨2, ![512, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S1x8192 : Shape := ⟨2, ![1, 8192]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S_ : Shape := ⟨0, ![]⟩
abbrev S8192x1 : Shape := ⟨2, ![8192, 1]⟩
abbrev S8192x2 : Shape := ⟨2, ![8192, 2]⟩
abbrev S8192x256 : Shape := ⟨2, ![8192, 256]⟩
abbrev S1x256 : Shape := ⟨2, ![1, 256]⟩
abbrev S2048x256 : Shape := ⟨2, ![2048, 256]⟩
abbrev S1024x256 : Shape := ⟨2, ![1024, 256]⟩
abbrev S8192x40 : Shape := ⟨2, ![8192, 40]⟩
abbrev S8192x128 : Shape := ⟨2, ![8192, 128]⟩
abbrev S128 : Shape := ⟨1, ![128]⟩
abbrev S1x128 : Shape := ⟨2, ![1, 128]⟩
abbrev S2048x128 : Shape := ⟨2, ![2048, 128]⟩
abbrev S1024x128 : Shape := ⟨2, ![1024, 128]⟩

abbrev nBuf : Space → Nat
  | .hbm => 84
  | .vmem => 33
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S8192, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x40, .f32⟩
  | .hbm, ⟨9, _⟩ => ⟨S40, .f32⟩
  | .hbm, ⟨10, _⟩ => ⟨S8192x8192, .bf16⟩
  | .hbm, ⟨11, _⟩ => ⟨S8192x8192, .bf16⟩
  | .hbm, ⟨12, _⟩ => ⟨S1x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S1x8192, .f32⟩
  | .hbm, ⟨27, _⟩ => ⟨S8192x8192, .f32⟩
  | .hbm, ⟨28, _⟩ => ⟨S8192x8192, .f32⟩
  | .hbm, ⟨29, _⟩ => ⟨S8192, .f32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S8192x1, .i32⟩
  | .hbm, ⟨47, _⟩ => ⟨S8192x2, .i32⟩
  | .hbm, ⟨48, _⟩ => ⟨S8192x8192, .f32⟩
  | .hbm, ⟨49, _⟩ => ⟨S8192x8192, .bf16⟩
  | .hbm, ⟨50, _⟩ => ⟨S8192x256, .f32⟩
  | .hbm, ⟨51, _⟩ => ⟨S8192x256, .bf16⟩
  | .hbm, ⟨52, _⟩ => ⟨S1x256, .f32⟩
  | .hbm, ⟨53, _⟩ => ⟨S8192x256, .f32⟩
  | .hbm, ⟨54, _⟩ => ⟨S8192x256, .f32⟩
  | .hbm, ⟨55, _⟩ => ⟨S8192x256, .bf16⟩
  | .hbm, ⟨56, _⟩ => ⟨S1x256, .f32⟩
  | .hbm, ⟨57, _⟩ => ⟨S8192x256, .f32⟩
  | .hbm, ⟨58, _⟩ => ⟨S8192x40, .f32⟩
  | .hbm, ⟨59, _⟩ => ⟨S_, .i32⟩
  | .hbm, ⟨60, _⟩ => ⟨S_, .f32⟩
  | .hbm, ⟨61, _⟩ => ⟨S8192x128, .f32⟩
  | .hbm, ⟨62, _⟩ => ⟨S_, .i32⟩
  | .hbm, ⟨63, _⟩ => ⟨S_, .f32⟩
  | .hbm, ⟨64, _⟩ => ⟨S128, .f32⟩
  | .hbm, ⟨65, _⟩ => ⟨S1x128, .f32⟩
  | .hbm, ⟨66, _⟩ => ⟨S8192x128, .bf16⟩
  | .hbm, ⟨67, _⟩ => ⟨S8192x128, .f32⟩
  | .hbm, ⟨68, _⟩ => ⟨S8192x40, .f32⟩
  | .hbm, ⟨69, _⟩ => ⟨S_, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S8192x1, .f32⟩
  | .hbm, ⟨75, _⟩ => ⟨S8192x40, .f32⟩
  | .hbm, ⟨76, _⟩ => ⟨S8192x40, .f32⟩
  | .hbm, ⟨77, _⟩ => ⟨S8192x40, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S8192x1, .f32⟩
  | .hbm, ⟨82, _⟩ => ⟨S8192x40, .f32⟩
  | .hbm, ⟨83, _⟩ => ⟨S8192x40, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | .local _ .vmem, ⟨10, _⟩ => ⟨S1024x2048, .bf16⟩
  | .local _ .vmem, ⟨11, _⟩ => ⟨S2048x256, .bf16⟩
  | .local _ .vmem, ⟨12, _⟩ => ⟨S2048x256, .bf16⟩
  | .local _ .vmem, ⟨13, _⟩ => ⟨S1x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x2048, .bf16⟩
  | .local _ .vmem, ⟨18, _⟩ => ⟨S1024x2048, .bf16⟩
  | .local _ .vmem, ⟨19, _⟩ => ⟨S2048x256, .bf16⟩
  | .local _ .vmem, ⟨20, _⟩ => ⟨S2048x256, .bf16⟩
  | .local _ .vmem, ⟨21, _⟩ => ⟨S1x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x2048, .bf16⟩
  | .local _ .vmem, ⟨26, _⟩ => ⟨S1024x2048, .bf16⟩
  | .local _ .vmem, ⟨27, _⟩ => ⟨S2048x128, .bf16⟩
  | .local _ .vmem, ⟨28, _⟩ => ⟨S2048x128, .bf16⟩
  | .local _ .vmem, ⟨29, _⟩ => ⟨S1x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_5 : Ref sig .tc := ⟨.hbm, 59, rfl⟩
abbrev main_call0_v0 : Ref sig .tc := ⟨.hbm, 60, rfl⟩
abbrev main_v42 : Ref sig .tc := ⟨.hbm, 61, rfl⟩
abbrev main_c_6 : Ref sig .tc := ⟨.hbm, 62, rfl⟩
abbrev main_call1_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call2_cst : Ref sig .tc := ⟨.hbm, 69, rfl⟩
abbrev main_call2_v0 : Ref sig .tc := ⟨.hbm, 70, rfl⟩
abbrev main_call2_cst_0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_cst_1 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_v48 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem3_1 : DmaSem sig := 28

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 1, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 1, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![8, 1, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true, false]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  bitsLt_bf16_f32 : FTy.bits .bf16 < FTy.bits .f32
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  concatenates_S8192x1_S8192x1_S8192x2_d1 : Shape.Concatenates [S8192x1, S8192x1] S8192x2 1
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  pads_S8192x40_S8192x128_000_0880 : S8192x40.Pads (![0, 0] : Fin 2 → Nat) ![0, 88] ![0, 0] S8192x128
  pads_S40_S128_0880 : S40.Pads (![0] : Fin 1 → Nat) ![88] ![0] S128
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S8192x128_S8192x40_0_0 : S8192x128.Slices ![0, 0] S8192x40
  reducesTo_S8192x40_S8192_d1 : S8192x40.ReducesTo [1] S8192
  bcast_S8192x1_S8192x40_0_1 : S8192x1.BroadcastsInDim S8192x40 (![0, 1] : Fin 2 → Fin S8192x40.rank)
  dot_S1024x2048_S2048x1024_S1024x1024_1_0_0_1_n_n_wf : DotDims.WF S1024x2048 S2048x1024 S1024x1024 [1] [0] [0] [1] [] []
  scatter_S8192x8192_S8192x2_S8192_n_01_01_1_wf : ScatterDims.WF S8192x8192 S8192x2 S8192 [] [0, 1] [0, 1] 1
  dot_S8192x512_S512x256_S8192x256_1_0_0_1_n_n_wf : DotDims.WF S8192x512 S512x256 S8192x256 [1] [0] [0] [1] [] []
  dot_S1024x2048_S2048x256_S1024x256_1_0_0_1_n_n_wf : DotDims.WF S1024x2048 S2048x256 S1024x256 [1] [0] [0] [1] [] []
  dot_S8192x256_S256x256_S8192x256_1_0_0_1_n_n_wf : DotDims.WF S8192x256 S256x256 S8192x256 [1] [0] [0] [1] [] []
  dot_S8192x256_S256x40_S8192x40_1_0_0_1_n_n_wf : DotDims.WF S8192x256 S256x40 S8192x40 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .bf16 = 32 ∨ (Rect.block (s := S8192x8192) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x8192.size a
  hwx0_1 : ∀ i : grid0.Coords, EltTy.bits .bf16 = 32 ∨ (Rect.block (s := S8192x8192) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .bf16 = 32 ∨ (Rect.block (s := S8192x8192) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .bf16 = 32 ∨ (Rect.block (s := S8192x256) S2048x256.size (cc1_transform_1 i) (hinb1_1 i)).WholeWords (EltTy.packing .bf16)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .bf16 = 32 ∨ (Rect.block (s := S8192x8192) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S8192x256.size a
  hwx2_1 : ∀ i : grid2.Coords, EltTy.bits .bf16 = 32 ∨ (Rect.block (s := S8192x256) S2048x256.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S8192x256.size a
  hwx2_3 : ∀ i : grid2.Coords, EltTy.bits .f32 = 32 ∨ (Rect.block (s := S8192x256) S1024x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .bf16 = 32 ∨ (Rect.block (s := S8192x8192) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S8192x128.size a
  hwx3_1 : ∀ i : grid3.Coords, EltTy.bits .bf16 = 32 ∨ (Rect.block (s := S8192x128) S2048x128.size (cc3_transform_1 i) (hinb3_1 i)).WholeWords (EltTy.packing .bf16)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S8192x128.size a
  hwx3_3 : ∀ i : grid3.Coords, EltTy.bits .f32 = 32 ∨ (Rect.block (s := S8192x128) S1024x128.size (cc3_transform_3 i) (hinb3_3 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x40_S8192x40_1_0_0_1_n_n : DotDims S8192x256 S256x40 S8192x40 where
  lhsContracting := [1]
  rhsContracting := [0]
  lhsNonContracting := [0]
  rhsNonContracting := [1]
  lhsBatch := []
  rhsBatch := []
  wf := dot_S8192x256_S256x40_S8192x40_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v32) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x256.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v32) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x256.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1024x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v32) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x128.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1024x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S8192 : Shape := ⟨1, ![8192]⟩
abbrev S512x256 : Shape := ⟨2, ![512, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S1x8192 : Shape := ⟨2, ![1, 8192]⟩
abbrev S_ : Shape := ⟨0, ![]⟩
abbrev S8192x1 : Shape := ⟨2, ![8192, 1]⟩
abbrev S8192x256 : Shape := ⟨2, ![8192, 256]⟩
abbrev S1x256 : Shape := ⟨2, ![1, 256]⟩
abbrev S8192x40 : Shape := ⟨2, ![8192, 40]⟩
abbrev S1x40 : Shape := ⟨2, ![1, 40]⟩

abbrev nBuf : Space → Nat
  | .hbm => 73
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S8192, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x40, .f32⟩
  | .hbm, ⟨9, _⟩ => ⟨S40, .f32⟩
  | .hbm, ⟨10, _⟩ => ⟨S8192x8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S8192x256, .f32⟩
  | .hbm, ⟨38, _⟩ => ⟨S8192x256, .f32⟩
  | .hbm, ⟨39, _⟩ => ⟨S1x256, .f32⟩
  | .hbm, ⟨40, _⟩ => ⟨S8192x256, .f32⟩
  | .hbm, ⟨41, _⟩ => ⟨S8192x256, .f32⟩
  | .hbm, ⟨42, _⟩ => ⟨S_, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S1x256, .f32⟩
  | .hbm, ⟨48, _⟩ => ⟨S8192x256, .f32⟩
  | .hbm, ⟨49, _⟩ => ⟨S8192x256, .f32⟩
  | .hbm, ⟨50, _⟩ => ⟨S_, .f32⟩
  | .hbm, ⟨51, _⟩ => ⟨S8192x256, .f32⟩
  | .hbm, ⟨52, _⟩ => ⟨S8192x256, .f32⟩
  | .hbm, ⟨53, _⟩ => ⟨S8192x40, .f32⟩
  | .hbm, ⟨54, _⟩ => ⟨S8192x40, .f32⟩
  | .hbm, ⟨55, _⟩ => ⟨S1x40, .f32⟩
  | .hbm, ⟨56, _⟩ => ⟨S8192x40, .f32⟩
  | .hbm, ⟨57, _⟩ => ⟨S8192x40, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S8192x1, .f32⟩
  | .hbm, ⟨64, _⟩ => ⟨S8192x40, .f32⟩
  | .hbm, ⟨65, _⟩ => ⟨S8192x40, .f32⟩
  | .hbm, ⟨66, _⟩ => ⟨S8192x40, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1, .f32⟩
  | .hbm, ⟨71, _⟩ => ⟨S8192x40, .f32⟩
  | .hbm, ⟨72, _⟩ => ⟨S8192x40, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call1_cst : Ref sig .tc := ⟨.hbm, 42, rfl⟩
abbrev main_call1_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call2_cst : Ref sig .tc := ⟨.hbm, 50, rfl⟩
abbrev main_call2_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call3_cst : Ref sig .tc := ⟨.hbm, 58, rfl⟩
abbrev main_call3_v0 : Ref sig .tc := ⟨.hbm, 59, rfl⟩
abbrev main_call3_cst_0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_v6 : Ref sig .tc := ⟨.hbm, 66, rfl⟩
abbrev main_call3_cst_1 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_v39 : Ref sig .tc := ⟨.hbm, 72, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S40_S1x40_1 : S40.BroadcastsInDim S1x40 (![1] : Fin 1 → Fin S1x40.rank)
  bcast_S1x40_S8192x40_0_1 : S1x40.BroadcastsInDim S8192x40 (![0, 1] : Fin 2 → Fin S8192x40.rank)
  reducesTo_S8192x40_S8192_d1 : S8192x40.ReducesTo [1] S8192
  bcast_S8192x1_S8192x40_0_1 : S8192x1.BroadcastsInDim S8192x40 (![0, 1] : Fin 2 → Fin S8192x40.rank)
  dot_S8192x8192_S8192x8192_S8192x8192_1_0_0_1_n_n_wf : DotDims.WF S8192x8192 S8192x8192 S8192x8192 [1] [0] [0] [1] [] []
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []
  dot_S8192x256_S256x40_S8192x40_1_0_0_1_n_n_wf : DotDims.WF S8192x256 S256x40 S8192x40 [1] [0] [0] [1] [] []
  dot_S8192x8192_S8192x40_S8192x40_1_0_0_1_n_n_wf : DotDims.WF S8192x8192 S8192x40 S8192x40 [1] [0] [0] [1] [] []

variable [Facts₀]

def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x40_S8192x40_1_0_0_1_n_n : DotDims S8192x256 S256x40 S8192x40 where
  lhsContracting := [1]
  rhsContracting := [0]
  lhsNonContracting := [0]
  rhsNonContracting := [1]
  lhsBatch := []
  rhsBatch := []
  wf := dot_S8192x256_S256x40_S8192x40_1_0_0_1_n_n_wf
def dot_S8192x8192_S8192x40_S8192x40_1_0_0_1_n_n : DotDims S8192x8192 S8192x40 S8192x40 where
  lhsContracting := [1]
  rhsContracting := [0]
  lhsNonContracting := [0]
  rhsNonContracting := [1]
  lhsBatch := []
  rhsBatch := []
  wf := dot_S8192x8192_S8192x40_S8192x40_1_0_0_1_n_n_wf

class Facts : Prop extends Facts₀ where

variable [Facts]
-- ==== Proof.KRegion0Runs.lean ====
import proofs.«136604_j21827023798522_1_alg».proof.Proof.Gen.Kernel.Launch
import proofs.«136604_j21827023798522_1_alg».proof.Proof.Gen.Kernel.Skeleton
import proofs.«136604_j21827023798522_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Rg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_in_of0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in_of1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in_of2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev condF (i : grid0.Coords) : Prop := (Scalar.cmpi .ne (Scalar.extui (Scalar.cmpi .eq (BitVec.ofNat 32 (i 2).val) 0#32)) 0#32) = 1#1
theorem hcondF : ∀ t : Fin cfg0.N, condF (grid0.coords t) ↔ t.val % 4 = 0 :=
  (by decide +kernel : ∀ t : Fin grid0.N, _)

abbrev condL (i : grid0.Coords) : Prop := k0_cond2 i = 1#1
theorem hcondL : ∀ t : Fin cfg0.N, condL (grid0.coords t) ↔ t.val % 4 = 3 :=
  (by decide +kernel : ∀ t : Fin grid0.N, _)

theorem idle3_of : ∀ t : Fin cfg0.N, ¬condL (grid0.coords t) → cfg0.idle 3 (grid0.coords t) = true := by decide +kernel
theorem noFlush3_of : ∀ t : Fin cfg0.N, ¬condL (grid0.coords t) → (cfg0.win 3).flush t = false := by decide +kernel
theorem live3_of : ∀ t : Fin cfg0.N, condL (grid0.coords t) → cfg0.idle 3 (grid0.coords t) = false := by decide +kernel
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)

abbrev scM : Memref sig .tc .vmem S1024x1024 .f32 := Memref.whole cc0_scratch0
abbrev VS : View sig .tc .vmem S1024x1024 .f32 := (scM).view
abbrev VO : View sig .tc .vmem S1024x1024 .f32 := (Memref.whole cc0_stg3_0 : Memref sig .tc .vmem S1024x1024 .f32).view

variable (c : Dev nD) (i : grid0.Coords) (arg3 : Memref sig .tc .vmem S1024x2048 .bf16) (harg3 : arg3.IsWhole)
  (arg4 : Memref sig .tc .vmem S2048x1024 .bf16) (harg4 : arg4.IsWhole) (arg5 : Memref sig .tc .vmem S1x1024 .f32) (harg5 : arg5.IsWhole)
  (arg6 : Memref sig .tc .vmem S1024x1024 .f32) (harg6 : arg6.IsWhole) (arg7 : Memref sig .tc .vmem S1024x1024 .f32) (harg7 : arg7.IsWhole)

-- First depth tile: the accumulator restarts at zero and takes the product of the two operand tiles.
set_option maxHeartbeats 4000000 in
noncomputable def runA (hF : condF i) (hL : ¬condL i) (x0 : Vec F S1024x2048 .bf16) (x1 : Vec F S2048x1024 .bf16) :
    { LS : List (View.Piece (Elt F) S1024x1024 .f32) //
      ∀ (x2 : Vec F S1x1024 .f32) (x3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg3 harg3 arg4 harg4 arg5 harg5 arg6 harg6 arg7 harg7) K } := by
  refine ⟨?_, fun x2 x3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

-- Middle depth tiles: the product of the two operand tiles is added to the accumulator.
set_option maxHeartbeats 4000000 in
noncomputable def runB (hF : ¬condF i) (hL : ¬condL i) (x0 : Vec F S1024x2048 .bf16) (x1 : Vec F S2048x1024 .bf16) (xs : Vec F S1024x1024 .f32) :
    { LS : List (View.Piece (Elt F) S1024x1024 .f32) //
      ∀ (x2 : Vec F S1x1024 .f32) (x3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg3 harg3 arg4 harg4 arg5 harg5 arg6 harg6 arg7 harg7) K } := by
  refine ⟨?_, fun x2 x3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

-- Last depth tile: the product is added to the accumulator, and the output tile is made from it and the bias row.
set_option maxHeartbeats 4000000 in
noncomputable def runC (hF : ¬condF i) (hL : condL i) (x0 : Vec F S1024x2048 .bf16) (x1 : Vec F S2048x1024 .bf16) (x2 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Rg0

end
-- ==== Proof.KRegion0Data.lean ====
import proofs.«136604_j21827023798522_1_alg».proof.Proof.KRegion0Runs

set_option maxRecDepth 16384

noncomputable section

namespace Cert.Kernel.Rg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces

variable (c : Dev nD) (i : grid0.Coords) (arg3 : Memref sig .tc .vmem S1024x2048 .bf16) (harg3 : arg3.IsWhole)
  (arg4 : Memref sig .tc .vmem S2048x1024 .bf16) (harg4 : arg4.IsWhole) (arg5 : Memref sig .tc .vmem S1x1024 .f32) (harg5 : arg5.IsWhole)
  (arg6 : Memref sig .tc .vmem S1024x1024 .f32) (harg6 : arg6.IsWhole) (arg7 : Memref sig .tc .vmem S1024x1024 .f32) (harg7 : arg7.IsWhole)

theorem scoverA (hF : condF i) (hL : ¬condL i) (x0 : Vec F S1024x2048 .bf16) (x1 : Vec F S2048x1024 .bf16) (y : S1024x1024.Idx) :
    ∃ pc ∈ (runA c i arg3 harg3 arg4 harg4 arg5 harg5 arg6 harg6 arg7 harg7 hF hL x0 x1).1, y ∈ pc.1.set :=
  View.cover_of_tiledL _ S1024x1024.size (by sl_kernel_rfl) y

def accA (hF : condF i) (hL : ¬condL i) (x0 : Vec F S1024x2048 .bf16) (x1 : Vec F S2048x1024 .bf16) : Vec F S1024x1024 .f32 :=
  VS.read (Elt F) (VS.writes (Elt F) VS.junk (runA c i arg3 harg3 arg4 harg4 arg5 harg5 arg6 harg6 arg7 harg7 hF hL x0 x1).1)

theorem scoverB (hF : ¬condF i) (hL : ¬condL i) (x0 : Vec F S1024x2048 .bf16) (x1 : Vec F S2048x1024 .bf16) (xs : Vec F S1024x1024 .f32) (y : S1024x1024.Idx) :
    ∃ pc ∈ (runB c i arg3 harg3 arg4 harg4 arg5 harg5 arg6 harg6 arg7 harg7 hF hL x0 x1 xs).1, y ∈ pc.1.set :=
  View.cover_of_tiledL _ S1024x1024.size (by sl_kernel_rfl) y

def accB (hF : ¬condF i) (hL : ¬condL i) (x0 : Vec F S1024x2048 .bf16) (x1 : Vec F S2048x1024 .bf16) (xs : Vec F S1024x1024 .f32) : Vec F S1024x1024 .f32 :=
  VS.read (Elt F) (VS.writes (Elt F) VS.junk (runB c i arg3 harg3 arg4 harg4 arg5 harg5 arg6 harg6 arg7 harg7 hF hL x0 x1 xs).1)

variable (hF : ¬condF i) (hL : condL i) (x0 : Vec F S1024x2048 .bf16) (x1 : Vec F S2048x1024 .bf16) (x2 : Vec F S1x1024 .f32) (xs : Vec F S1024x1024 .f32)

theorem coverC (y : S1024x1024.Idx) : ∃ pc ∈ (runC c i arg3 harg3 arg4 harg4 arg5 harg5 arg6 harg6 arg7 harg7 hF hL x0 x1 x2 xs).1, y ∈ pc.1.set :=
  View.cover_of_tiledL _ S1024x1024.size (by sl_kernel_rfl) y

def outC : Vec F S1024x1024 .f32 :=
  VO.read (Elt F) (VO.writes (Elt F) VO.junk (runC c i arg3 harg3 arg4 harg4 arg5 harg5 arg6 harg6 arg7 harg7 hF hL x0 x1 x2 xs).1)

theorem scoverC (y : S1024x1024.Idx) : ∃ pc ∈ (runC c i arg3 harg3 arg4 harg4 arg5 harg5 arg6 harg6 arg7 harg7 hF hL x0 x1 x2 xs).2.1, y ∈ pc.1.set :=
  View.cover_of_tiledL _ S1024x1024.size (by sl_kernel_rfl) y

def accC : Vec F S1024x1024 .f32 :=
  VS.read (Elt F) (VS.writes (Elt F) VS.junk (runC c i arg3 harg3 arg4 harg4 arg5 harg5 arg6 harg6 arg7 harg7 hF hL x0 x1 x2 xs).2.1)

end Pieces

def restO : Vec F S1024x1024 .f32 := VO.read (Elt F) VO.junk

section Point

variable (c : Dev nD) (t : Fin cfg0.N)

def aA (h0 : t.val % 4 = 0) : Vec F S1024x1024 .f32 :=
  accA c (grid0.coords t) (ms0 t) (hs0 t) (ms1 t) (hs1 t) (ms2 t) (hs2 t) (ms3 t) (hs3 t) scM (Memref.isWhole_whole _) ((hcondF t).mpr h0) (fun h => absurd ((hcondL t).mp h) (by omega)) (iblk V c 0 t) (iblk V c 1 t)

def aB (h0 : ¬t.val % 4 = 0) (h1 : ¬t.val % 4 = 3) (xs : Vec F S1024x1024 .f32) : Vec F S1024x1024 .f32 :=
  accB c (grid0.coords t) (ms0 t) (hs0 t) (ms1 t) (hs1 t) (ms2 t) (hs2 t) (ms3 t) (hs3 t) scM (Memref.isWhole_whole _) (fun h => h0 ((hcondF t).mp h)) (fun h => h1 ((hcondL t).mp h)) (iblk V c 0 t) (iblk V c 1 t) xs

def oC (h0 : ¬t.val % 4 = 0) (h1 : t.val % 4 = 3) (xs : Vec F S1024x1024 .f32) : Vec F S1024x1024 .f32 :=
  outC c (grid0.coords t) (ms0 t) (hs0 t) (ms1 t) (hs1 t) (ms2 t) (hs2 t) (ms3 t) (hs3 t) scM (Memref.isWhole_whole _) (fun h => h0 ((hcondF t).mp h)) ((hcondL t).mpr h1) (iblk V c 0 t) (iblk V c 1 t) (iblk V c 2 t) xs

def aC (h0 : ¬t.val % 4 = 0) (h1 : t.val % 4 = 3) (xs : Vec F S1024x1024 .f32) : Vec F S1024x1024 .f32 :=
  accC c (grid0.coords t) (ms0 t) (hs0 t) (ms1 t) (hs1 t) (ms2 t) (hs2 t) (ms3 t) (hs3 t) scM (Memref.isWhole_whole _) (fun h => h0 ((hcondF t).mp h)) ((hcondL t).mpr h1) (iblk V c 0 t) (iblk V c 1 t) (iblk V c 2 t) xs

end Point

-- The output tile and the accumulator after each point: depth 0 restarts the sum, later depths add to what the point before left.
def outsAt (c : Dev nD) : (n : ℕ) → n < cfg0.N → Vec F S1024x1024 .f32 × Vec F S1024x1024 .f32
  | 0, hn => (restO, aA V c ⟨0, hn⟩ (Nat.zero_mod _))
  | n + 1, hn =>
    if h0 : (n + 1) % 4 = 0 then (restO, aA V c ⟨n + 1, hn⟩ h0)
    else if h1 : (n + 1) % 4 = 3 then
      (oC V c ⟨n + 1, hn⟩ h0 h1 (outsAt c n (Nat.lt_of_succ_lt hn)).2, aC V c ⟨n + 1, hn⟩ h0 h1 (outsAt c n (Nat.lt_of_succ_lt hn)).2)
    else (restO, aB V c ⟨n + 1, hn⟩ h0 h1 (outsAt c n (Nat.lt_of_succ_lt hn)).2)

theorem outsAt_A (c : Dev nD) (t : Fin cfg0.N) (h0 : t.val % 4 = 0) : outsAt V c t.val t.isLt = (restO, aA V c t h0) := by
  obtain ⟨n, hn⟩ := t
  cases n with
  | zero => exact rfl
  | succ n => exact (dif_pos h0).trans rfl

theorem outsAt_B (c : Dev nD) (t : Fin cfg0.N) (h0 : ¬t.val % 4 = 0) (h1 : ¬t.val % 4 = 3) :
    outsAt V c t.val t.isLt = (restO, aB V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt_C (c : Dev nD) (t : Fin cfg0.N) (h0 : ¬t.val % 4 = 0) (h1 : t.val % 4 = 3) :
    outsAt V c t.val t.isLt = (oC V c t h0 h1 (outsAt V c (t.val - 1) (Nat.lt_of_le_of_lt (Nat.sub_le _ _) t.isLt)).2,
      aC V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

abbrev Rest (c : Dev nD) : sProp 𝕄 :=
  iprop(Pipeline.scopedRestBut (Ix := Unit) (Name := ℕ) (U := UR sig nD τ) (Lvl := ℕ) (Val := Elt F) spec0 c [cc0_scratch0] ∗ (∃ r, prngReg c r))

def PhiS (c : Dev nD) : (n : ℕ) → n ≤ cfg0.N → sProp 𝕄
  | 0, _ => iprop((∃ d, owns (c : Thread nD τ) scM fullShare d) ∗ Rest (F := F) c)
  | n + 1, hn => iprop(owns (c : Thread nD τ) scM fullShare ((outsAt V c n hn).2) ∗ Rest (F := F) c)

theorem PhiS_zero (c : Dev nD) (n : ℕ) (h : n ≤ cfg0.N) (hz : n = 0) :
    PhiS V c n h = iprop((∃ d, owns (c : Thread nD τ) scM fullShare d) ∗ Rest (F := F) c) := by
  subst hz; rfl

theorem PhiS_succ (c : Dev nD) (n : ℕ) (hn : n < cfg0.N) :
    PhiS V c (n + 1) hn = iprop(owns (c : Thread nD τ) scM fullShare ((outsAt V c n hn).2) ∗ Rest (F := F) c) := rfl

theorem PhiS_pos (c : Dev nD) (n : ℕ) (h : n ≤ cfg0.N) (hz : n ≠ 0) :
    PhiS V c n h = iprop(owns (c : Thread nD τ) scM fullShare ((outsAt V c (n - 1) (by omega)).2) ∗ Rest (F := F) c) := by
  cases n with
  | zero => exact absurd rfl hz
  | succ n => rfl

-- Whatever the accumulator holds, it holds something: enough where the sum restarts.
theorem PhiS_forget (c : Dev nD) (n : ℕ) (h : n ≤ cfg0.N) :
    PhiS V c n h ⊢ iprop((∃ d, owns (c : Thread nD τ) scM fullShare d) ∗ Rest (F := F) c) := by
  cases n with
  | zero => exact .rfl
  | succ n =>
    rw [PhiS_succ]
    iintro ⟨HS, HR⟩
    isplitl [HS]; · iexists _; iexact HS
    iexact HR

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]

theorem before_0 (c : Dev nD) (t : Fin cfg0.N) (d) : (dat V c).before 0 t d = iblk V c 0 t :=
  before_in_of0 V (dat V c) (A_eq V c 0) (after_0 V c) t d
theorem before_1 (c : Dev nD) (t : Fin cfg0.N) (d) : (dat V c).before 1 t d = iblk V c 1 t :=
  before_in_of1 V (dat V c) (A_eq V c 1) (after_1 V c) t d
theorem before_2 (c : Dev nD) (t : Fin cfg0.N) (d) : (dat V c).before 2 t d = iblk V c 2 t :=
  before_in_of2 V (dat V c) (A_eq V c 2) (after_2 V c) t d

end Cert.Kernel.Rg0

end
-- ==== Proof.KRegion0Body.lean ====
import proofs.«136604_j21827023798522_1_alg».proof.Proof.KRegion0Data

set_option maxRecDepth 16384

noncomputable section

namespace Cert.Kernel.Rg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_0 (c : Dev nD) (t : Fin cfg0.N) :
    (dat V c).leavesExact 0 t = owns (c : Thread nD τ) (ms0 t) fullShare (iblk V c 0 t) := by
  unfold Dat.leavesExact; rw [live0 t, after_0]
theorem leaves_1 (c : Dev nD) (t : Fin cfg0.N) :
    (dat V c).leavesExact 1 t = owns (c : Thread nD τ) (ms1 t) fullShare (iblk V c 1 t) := by
  unfold Dat.leavesExact; rw [live1 t, after_1]
theorem leaves_2 (c : Dev nD) (t : Fin cfg0.N) :
    (dat V c).leavesExact 2 t = owns (c : Thread nD τ) (ms2 t) fullShare (iblk V c 2 t) := by
  unfold Dat.leavesExact; rw [live2 t, after_2]

-- At every point the body leaves what `outsAt` says, by the point's depth tile.
set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 256 := lt_of_lt_of_eq t.isLt (show cfg0.N = 256 from N_0)
  by_cases h0 : t.val % 4 = 0
  · have h1 : ¬t.val % 4 = 3 := by omega
    rw [Dat.leavesExact_idle (dat V c) 3 t (idle3_of t (fun h => h1 ((hcondL t).mp h))) (noFlush3_of t (fun h => h1 ((hcondL t).mp h)))]
    rw [outsAt_A V c t h0]
    unfold aA accA; (try dsimp only)
    rw [PhiS_castSucc V c t]
    iintro ⟨HP, Ho, ⟨%d0, H0⟩, ⟨%d1, H1⟩, ⟨%d2, H2⟩, ⟨%d3, H3⟩⟩
    ihave HP' := (PhiS_forget V c _ _) $$ HP
    icases HP' with ⟨HS, HR⟩
    iapply ((runA c (grid0.coords t) _ _ _ _ _ _ _ _ _ _ ((hcondF t).mpr h0) (fun h => absurd ((hcondL t).mp h) (by omega)) (iblk V c 0 t) (iblk V c 1 t)).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS HR]
    · isplitl [HS]
      · unfold owns; iexists _; isplitr
        swap; · iexact HS
        ipureintro; exact View.read_writes_of_cover _ _ _ _ _ (scoverA c _ _ _ _ _ _ _ _ _ _ _ _ _ _ _)
      iexact HR
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 4 = 3
    · rw [show (dat V c).leavesExact 3 t = owns (c : Thread nD τ) (ms3 t) fullShare ((dat V c).after 3 t) from by
        unfold Dat.leavesExact; rw [live3_of t ((hcondL t).mpr h1)], after_3]
      rw [outsAt_C V c t h0 h1]
      unfold oC aC outC accC; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((runC c (grid0.coords t) _ _ _ _ _ _ _ _ _ _ (fun h => h0 ((hcondF t).mp h)) ((hcondL t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR]
      · isplitl [HS]
        · unfold owns; iexists _; isplitr
          swap; · iexact HS
          ipureintro; exact View.read_writes_of_cover _ _ _ _ _ (scoverC c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _ _)
    · rw [Dat.leavesExact_idle (dat V c) 3 t (idle3_of t (fun h => h1 ((hcondL t).mp h))) (noFlush3_of t (fun h => h1 ((hcondL t).mp h)))]
      rw [outsAt_B V c t h0 h1]
      unfold aB accB; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((runB c (grid0.coords t) _ _ _ _ _ _ _ _ _ _ (fun h => h0 ((hcondF t).mp h)) (fun h => h1 ((hcondL t).mp h)) (iblk V c 0 t) (iblk V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR]
      · isplitl [HS]
        · unfold owns; iexists _; isplitr
          swap; · iexact HS
          ipureintro; exact View.read_writes_of_cover _ _ _ _ _ (scoverB c _ _ _ _ _ _ _ _ _ _ _ _ _ _ _ _)
        iexact HR
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W0, bigSep_W0]
  exact sound_body V c t

theorem phi_in (c : Dev nD) :
    iprop((∃ r, prngReg c r) ∗ Pipeline.scopedRest (Ix := Unit) (Name := ℕ) (U := UR sig nD τ) (Lvl := ℕ) (Val := Elt F) spec0 c) ⊢ (dat V c).Φ 0 := by
  rw [show (dat V c).Φ 0 = PhiS V c 0 (Nat.zero_le _) from rfl, PhiS_zero V c 0 _ rfl, scopedRest0_split]
  simp only [scM, owns_whole]
  iintro ⟨Hp, HS, HR⟩
  isplitl [HS]; · iexact HS
  isplitl [HR]; · iexact HR
  iexact Hp

theorem phi_out (c : Dev nD) :
    (dat V c).Φ (Fin.last cfg0.N) ⊢ iprop((∃ r, prngReg c r) ∗ Pipeline.scopedRest (Ix := Unit) (Name := ℕ) (U := UR sig nD τ) (Lvl := ℕ) (Val := Elt F) spec0 c) := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 256 := N_0; omega), scopedRest0_split]
  simp only [scM, owns_whole]
  iintro ⟨HS, HR, Hp⟩
  isplitl [Hp]; · iexact Hp
  isplitl [HS]; · iexists _; iexact HS
  iexact HR

end Cert.Kernel.Rg0

end
-- ==== Proof.KRegion1Runs.lean ====
import proofs.«136604_j21827023798522_1_alg».proof.Proof.Gen.Kernel.Launch
import proofs.«136604_j21827023798522_1_alg».proof.Proof.Gen.Kernel.Skeleton
import proofs.«136604_j21827023798522_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Rg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in_of0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in_of1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in_of2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev condF (i : grid1.Coords) : Prop := (Scalar.cmpi .ne (Scalar.extui (Scalar.cmpi .eq (BitVec.ofNat 32 (i 2).val) 0#32)) 0#32) = 1#1
theorem hcondF : ∀ t : Fin cfg1.N, condF (grid1.coords t) ↔ t.val % 4 = 0 :=
  (by decide +kernel : ∀ t : Fin grid1.N, _)

abbrev condL (i : grid1.Coords) : Prop := k1_cond2 i = 1#1
theorem hcondL : ∀ t : Fin cfg1.N, condL (grid1.coords t) ↔ t.val % 4 = 3 :=
  (by decide +kernel : ∀ t : Fin grid1.N, _)

theorem idle3_of : ∀ t : Fin cfg1.N, ¬condL (grid1.coords t) → cfg1.idle 3 (grid1.coords t) = true := by decide +kernel
theorem noFlush3_of : ∀ t : Fin cfg1.N, ¬condL (grid1.coords t) → (cfg1.win 3).flush t = false := by decide +kernel
theorem live3_of : ∀ t : Fin cfg1.N, condL (grid1.coords t) → cfg1.idle 3 (grid1.coords t) = false := by decide +kernel
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel

abbrev ms0 (t : Fin cfg1.N) : Memref sig .tc .vmem S1024x2048 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x256 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x256 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x256 .f32 := win1_3.stage (cfg1.slots t 3)
abbrev hs3 (t : Fin cfg1.N) : (ms3 t).IsWhole := hstage1_3 ((cfg1.slots t 3).cast nbuf1_3)

abbrev scM : Memref sig .tc .vmem S1024x256 .f32 := Memref.whole cc1_scratch0
abbrev VS : View sig .tc .vmem S1024x256 .f32 := (scM).view
abbrev VO : View sig .tc .vmem S1024x256 .f32 := (Memref.whole cc1_stg3_0 : Memref sig .tc .vmem S1024x256 .f32).view

variable (c : Dev nD) (i : grid1.Coords) (arg3 : Memref sig .tc .vmem S1024x2048 .bf16) (harg3 : arg3.IsWhole)
  (arg4 : Memref sig .tc .vmem S2048x256 .bf16) (harg4 : arg4.IsWhole) (arg5 : Memref sig .tc .vmem S1x256 .f32) (harg5 : arg5.IsWhole)
  (arg6 : Memref sig .tc .vmem S1024x256 .f32) (harg6 : arg6.IsWhole) (arg7 : Memref sig .tc .vmem S1024x256 .f32) (harg7 : arg7.IsWhole)

-- First depth tile: the accumulator restarts at zero and takes the product of the two operand tiles.
set_option maxHeartbeats 4000000 in
noncomputable def runA (hF : condF i) (hL : ¬condL i) (x0 : Vec F S1024x2048 .bf16) (x1 : Vec F S2048x256 .bf16) :
    { LS : List (View.Piece (Elt F) S1024x256 .f32) //
      ∀ (x2 : Vec F S1x256 .f32) (x3 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg3 harg3 arg4 harg4 arg5 harg5 arg6 harg6 arg7 harg7) K } := by
  refine ⟨?_, fun x2 x3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

-- Middle depth tiles: the product of the two operand tiles is added to the accumulator.
set_option maxHeartbeats 4000000 in
noncomputable def runB (hF : ¬condF i) (hL : ¬condL i) (x0 : Vec F S1024x2048 .bf16) (x1 : Vec F S2048x256 .bf16) (xs : Vec F S1024x256 .f32) :
    { LS : List (View.Piece (Elt F) S1024x256 .f32) //
      ∀ (x2 : Vec F S1x256 .f32) (x3 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg3 harg3 arg4 harg4 arg5 harg5 arg6 harg6 arg7 harg7) K } := by
  refine ⟨?_, fun x2 x3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

-- Last depth tile: the product is added to the accumulator, and the output tile is made from it and the bias row.
set_option maxHeartbeats 4000000 in
noncomputable def runC (hF : ¬condF i) (hL : condL i) (x0 : Vec F S1024x2048 .bf16) (x1 : Vec F S2048x256 .bf16) (x2 : Vec F S1x256 .f32) (xs : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg3 harg3 arg4 harg4 arg5 harg5 arg6 harg6 arg7 harg7) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Rg1

end
-- ==== Proof.KRegion1Data.lean ====
import proofs.«136604_j21827023798522_1_alg».proof.Proof.KRegion1Runs

set_option maxRecDepth 16384

noncomputable section

namespace Cert.Kernel.Rg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces

variable (c : Dev nD) (i : grid1.Coords) (arg3 : Memref sig .tc .vmem S1024x2048 .bf16) (harg3 : arg3.IsWhole)
  (arg4 : Memref sig .tc .vmem S2048x256 .bf16) (harg4 : arg4.IsWhole) (arg5 : Memref sig .tc .vmem S1x256 .f32) (harg5 : arg5.IsWhole)
  (arg6 : Memref sig .tc .vmem S1024x256 .f32) (harg6 : arg6.IsWhole) (arg7 : Memref sig .tc .vmem S1024x256 .f32) (harg7 : arg7.IsWhole)

theorem scoverA (hF : condF i) (hL : ¬condL i) (x0 : Vec F S1024x2048 .bf16) (x1 : Vec F S2048x256 .bf16) (y : S1024x256.Idx) :
    ∃ pc ∈ (runA c i arg3 harg3 arg4 harg4 arg5 harg5 arg6 harg6 arg7 harg7 hF hL x0 x1).1, y ∈ pc.1.set :=
  View.cover_of_tiledL _ S1024x256.size (by sl_kernel_rfl) y

def accA (hF : condF i) (hL : ¬condL i) (x0 : Vec F S1024x2048 .bf16) (x1 : Vec F S2048x256 .bf16) : Vec F S1024x256 .f32 :=
  VS.read (Elt F) (VS.writes (Elt F) VS.junk (runA c i arg3 harg3 arg4 harg4 arg5 harg5 arg6 harg6 arg7 harg7 hF hL x0 x1).1)

theorem scoverB (hF : ¬condF i) (hL : ¬condL i) (x0 : Vec F S1024x2048 .bf16) (x1 : Vec F S2048x256 .bf16) (xs : Vec F S1024x256 .f32) (y : S1024x256.Idx) :
    ∃ pc ∈ (runB c i arg3 harg3 arg4 harg4 arg5 harg5 arg6 harg6 arg7 harg7 hF hL x0 x1 xs).1, y ∈ pc.1.set :=
  View.cover_of_tiledL _ S1024x256.size (by sl_kernel_rfl) y

def accB (hF : ¬condF i) (hL : ¬condL i) (x0 : Vec F S1024x2048 .bf16) (x1 : Vec F S2048x256 .bf16) (xs : Vec F S1024x256 .f32) : Vec F S1024x256 .f32 :=
  VS.read (Elt F) (VS.writes (Elt F) VS.junk (runB c i arg3 harg3 arg4 harg4 arg5 harg5 arg6 harg6 arg7 harg7 hF hL x0 x1 xs).1)

variable (hF : ¬condF i) (hL : condL i) (x0 : Vec F S1024x2048 .bf16) (x1 : Vec F S2048x256 .bf16) (x2 : Vec F S1x256 .f32) (xs : Vec F S1024x256 .f32)

theorem coverC (y : S1024x256.Idx) : ∃ pc ∈ (runC c i arg3 harg3 arg4 harg4 arg5 harg5 arg6 harg6 arg7 harg7 hF hL x0 x1 x2 xs).1, y ∈ pc.1.set :=
  View.cover_of_tiledL _ S1024x256.size (by sl_kernel_rfl) y

def outC : Vec F S1024x256 .f32 :=
  VO.read (Elt F) (VO.writes (Elt F) VO.junk (runC c i arg3 harg3 arg4 harg4 arg5 harg5 arg6 harg6 arg7 harg7 hF hL x0 x1 x2 xs).1)

theorem scoverC (y : S1024x256.Idx) : ∃ pc ∈ (runC c i arg3 harg3 arg4 harg4 arg5 harg5 arg6 harg6 arg7 harg7 hF hL x0 x1 x2 xs).2.1, y ∈ pc.1.set :=
  View.cover_of_tiledL _ S1024x256.size (by sl_kernel_rfl) y

def accC : Vec F S1024x256 .f32 :=
  VS.read (Elt F) (VS.writes (Elt F) VS.junk (runC c i arg3 harg3 arg4 harg4 arg5 harg5 arg6 harg6 arg7 harg7 hF hL x0 x1 x2 xs).2.1)

end Pieces

def restO : Vec F S1024x256 .f32 := VO.read (Elt F) VO.junk

section Point

variable (c : Dev nD) (t : Fin cfg1.N)

def aA (h0 : t.val % 4 = 0) : Vec F S1024x256 .f32 :=
  accA c (grid1.coords t) (ms0 t) (hs0 t) (ms1 t) (hs1 t) (ms2 t) (hs2 t) (ms3 t) (hs3 t) scM (Memref.isWhole_whole _) ((hcondF t).mpr h0) (fun h => absurd ((hcondL t).mp h) (by omega)) (iblk V c 0 t) (iblk V c 1 t)

def aB (h0 : ¬t.val % 4 = 0) (h1 : ¬t.val % 4 = 3) (xs : Vec F S1024x256 .f32) : Vec F S1024x256 .f32 :=
  accB c (grid1.coords t) (ms0 t) (hs0 t) (ms1 t) (hs1 t) (ms2 t) (hs2 t) (ms3 t) (hs3 t) scM (Memref.isWhole_whole _) (fun h => h0 ((hcondF t).mp h)) (fun h => h1 ((hcondL t).mp h)) (iblk V c 0 t) (iblk V c 1 t) xs

def oC (h0 : ¬t.val % 4 = 0) (h1 : t.val % 4 = 3) (xs : Vec F S1024x256 .f32) : Vec F S1024x256 .f32 :=
  outC c (grid1.coords t) (ms0 t) (hs0 t) (ms1 t) (hs1 t) (ms2 t) (hs2 t) (ms3 t) (hs3 t) scM (Memref.isWhole_whole _) (fun h => h0 ((hcondF t).mp h)) ((hcondL t).mpr h1) (iblk V c 0 t) (iblk V c 1 t) (iblk V c 2 t) xs

def aC (h0 : ¬t.val % 4 = 0) (h1 : t.val % 4 = 3) (xs : Vec F S1024x256 .f32) : Vec F S1024x256 .f32 :=
  accC c (grid1.coords t) (ms0 t) (hs0 t) (ms1 t) (hs1 t) (ms2 t) (hs2 t) (ms3 t) (hs3 t) scM (Memref.isWhole_whole _) (fun h => h0 ((hcondF t).mp h)) ((hcondL t).mpr h1) (iblk V c 0 t) (iblk V c 1 t) (iblk V c 2 t) xs

end Point

-- The output tile and the accumulator after each point: depth 0 restarts the sum, later depths add to what the point before left.
def outsAt (c : Dev nD) : (n : ℕ) → n < cfg1.N → Vec F S1024x256 .f32 × Vec F S1024x256 .f32
  | 0, hn => (restO, aA V c ⟨0, hn⟩ (Nat.zero_mod _))
  | n + 1, hn =>
    if h0 : (n + 1) % 4 = 0 then (restO, aA V c ⟨n + 1, hn⟩ h0)
    else if h1 : (n + 1) % 4 = 3 then
      (oC V c ⟨n + 1, hn⟩ h0 h1 (outsAt c n (Nat.lt_of_succ_lt hn)).2, aC V c ⟨n + 1, hn⟩ h0 h1 (outsAt c n (Nat.lt_of_succ_lt hn)).2)
    else (restO, aB V c ⟨n + 1, hn⟩ h0 h1 (outsAt c n (Nat.lt_of_succ_lt hn)).2)

theorem outsAt_A (c : Dev nD) (t : Fin cfg1.N) (h0 : t.val % 4 = 0) : outsAt V c t.val t.isLt = (restO, aA V c t h0) := by
  obtain ⟨n, hn⟩ := t
  cases n with
  | zero => exact rfl
  | succ n => exact (dif_pos h0).trans rfl

theorem outsAt_B (c : Dev nD) (t : Fin cfg1.N) (h0 : ¬t.val % 4 = 0) (h1 : ¬t.val % 4 = 3) :
    outsAt V c t.val t.isLt = (restO, aB V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt_C (c : Dev nD) (t : Fin cfg1.N) (h0 : ¬t.val % 4 = 0) (h1 : t.val % 4 = 3) :
    outsAt V c t.val t.isLt = (oC V c t h0 h1 (outsAt V c (t.val - 1) (Nat.lt_of_le_of_lt (Nat.sub_le _ _) t.isLt)).2,
      aC V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

abbrev Rest (c : Dev nD) : sProp 𝕄 :=
  iprop(Pipeline.scopedRestBut (Ix := Unit) (Name := ℕ) (U := UR sig nD τ) (Lvl := ℕ) (Val := Elt F) spec1 c [cc1_scratch0] ∗ (∃ r, prngReg c r))

def PhiS (c : Dev nD) : (n : ℕ) → n ≤ cfg1.N → sProp 𝕄
  | 0, _ => iprop((∃ d, owns (c : Thread nD τ) scM fullShare d) ∗ Rest (F := F) c)
  | n + 1, hn => iprop(owns (c : Thread nD τ) scM fullShare ((outsAt V c n hn).2) ∗ Rest (F := F) c)

theorem PhiS_zero (c : Dev nD) (n : ℕ) (h : n ≤ cfg1.N) (hz : n = 0) :
    PhiS V c n h = iprop((∃ d, owns (c : Thread nD τ) scM fullShare d) ∗ Rest (F := F) c) := by
  subst hz; rfl

theorem PhiS_succ (c : Dev nD) (n : ℕ) (hn : n < cfg1.N) :
    PhiS V c (n + 1) hn = iprop(owns (c : Thread nD τ) scM fullShare ((outsAt V c n hn).2) ∗ Rest (F := F) c) := rfl

theorem PhiS_pos (c : Dev nD) (n : ℕ) (h : n ≤ cfg1.N) (hz : n ≠ 0) :
    PhiS V c n h = iprop(owns (c : Thread nD τ) scM fullShare ((outsAt V c (n - 1) (by omega)).2) ∗ Rest (F := F) c) := by
  cases n with
  | zero => exact absurd rfl hz
  | succ n => rfl

-- Whatever the accumulator holds, it holds something: enough where the sum restarts.
theorem PhiS_forget (c : Dev nD) (n : ℕ) (h : n ≤ cfg1.N) :
    PhiS V c n h ⊢ iprop((∃ d, owns (c : Thread nD τ) scM fullShare d) ∗ Rest (F := F) c) := by
  cases n with
  | zero => exact .rfl
  | succ n =>
    rw [PhiS_succ]
    iintro ⟨HS, HR⟩
    isplitl [HS]; · iexists _; iexact HS
    iexact HR

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

theorem before_0 (c : Dev nD) (t : Fin cfg1.N) (d) : (dat V c).before 0 t d = iblk V c 0 t :=
  before_in_of0 V (dat V c) (A_eq V c 0) (after_0 V c) t d
theorem before_1 (c : Dev nD) (t : Fin cfg1.N) (d) : (dat V c).before 1 t d = iblk V c 1 t :=
  before_in_of1 V (dat V c) (A_eq V c 1) (after_1 V c) t d
theorem before_2 (c : Dev nD) (t : Fin cfg1.N) (d) : (dat V c).before 2 t d = iblk V c 2 t :=
  before_in_of2 V (dat V c) (A_eq V c 2) (after_2 V c) t d

end Cert.Kernel.Rg1

end
-- ==== Proof.KRegion1Body.lean ====
import proofs.«136604_j21827023798522_1_alg».proof.Proof.KRegion1Data

set_option maxRecDepth 16384

noncomputable section

namespace Cert.Kernel.Rg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_0 (c : Dev nD) (t : Fin cfg1.N) :
    (dat V c).leavesExact 0 t = owns (c : Thread nD τ) (ms0 t) fullShare (iblk V c 0 t) := by
  unfold Dat.leavesExact; rw [live0 t, after_0]
theorem leaves_1 (c : Dev nD) (t : Fin cfg1.N) :
    (dat V c).leavesExact 1 t = owns (c : Thread nD τ) (ms1 t) fullShare (iblk V c 1 t) := by
  unfold Dat.leavesExact; rw [live1 t, after_1]
theorem leaves_2 (c : Dev nD) (t : Fin cfg1.N) :
    (dat V c).leavesExact 2 t = owns (c : Thread nD τ) (ms2 t) fullShare (iblk V c 2 t) := by
  unfold Dat.leavesExact; rw [live2 t, after_2]

-- At every point the body leaves what `outsAt` says, by the point's depth tile.
set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 32 := lt_of_lt_of_eq t.isLt (show cfg1.N = 32 from N_1)
  by_cases h0 : t.val % 4 = 0
  · have h1 : ¬t.val % 4 = 3 := by omega
    rw [Dat.leavesExact_idle (dat V c) 3 t (idle3_of t (fun h => h1 ((hcondL t).mp h))) (noFlush3_of t (fun h => h1 ((hcondL t).mp h)))]
    rw [outsAt_A V c t h0]
    unfold aA accA; (try dsimp only)
    rw [PhiS_castSucc V c t]
    iintro ⟨HP, Ho, ⟨%d0, H0⟩, ⟨%d1, H1⟩, ⟨%d2, H2⟩, ⟨%d3, H3⟩⟩
    ihave HP' := (PhiS_forget V c _ _) $$ HP
    icases HP' with ⟨HS, HR⟩
    iapply ((runA c (grid1.coords t) _ _ _ _ _ _ _ _ _ _ ((hcondF t).mpr h0) (fun h => absurd ((hcondL t).mp h) (by omega)) (iblk V c 0 t) (iblk V c 1 t)).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS HR]
    · isplitl [HS]
      · unfold owns; iexists _; isplitr
        swap; · iexact HS
        ipureintro; exact View.read_writes_of_cover _ _ _ _ _ (scoverA c _ _ _ _ _ _ _ _ _ _ _ _ _ _ _)
      iexact HR
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 4 = 3
    · rw [show (dat V c).leavesExact 3 t = owns (c : Thread nD τ) (ms3 t) fullShare ((dat V c).after 3 t) from by
        unfold Dat.leavesExact; rw [live3_of t ((hcondL t).mpr h1)], after_3]
      rw [outsAt_C V c t h0 h1]
      unfold oC aC outC accC; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((runC c (grid1.coords t) _ _ _ _ _ _ _ _ _ _ (fun h => h0 ((hcondF t).mp h)) ((hcondL t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR]
      · isplitl [HS]
        · unfold owns; iexists _; isplitr
          swap; · iexact HS
          ipureintro; exact View.read_writes_of_cover _ _ _ _ _ (scoverC c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _ _)
    · rw [Dat.leavesExact_idle (dat V c) 3 t (idle3_of t (fun h => h1 ((hcondL t).mp h))) (noFlush3_of t (fun h => h1 ((hcondL t).mp h)))]
      rw [outsAt_B V c t h0 h1]
      unfold aB accB; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((runB c (grid1.coords t) _ _ _ _ _ _ _ _ _ _ (fun h => h0 ((hcondF t).mp h)) (fun h => h1 ((hcondL t).mp h)) (iblk V c 0 t) (iblk V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR]
      · isplitl [HS]
        · unfold owns; iexists _; isplitr
          swap; · iexact HS
          ipureintro; exact View.read_writes_of_cover _ _ _ _ _ (scoverB c _ _ _ _ _ _ _ _ _ _ _ _ _ _ _ _)
        iexact HR
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W1, bigSep_W1]
  exact sound_body V c t

theorem phi_in (c : Dev nD) :
    iprop((∃ r, prngReg c r) ∗ Pipeline.scopedRest (Ix := Unit) (Name := ℕ) (U := UR sig nD τ) (Lvl := ℕ) (Val := Elt F) spec1 c) ⊢ (dat V c).Φ 0 := by
  rw [show (dat V c).Φ 0 = PhiS V c 0 (Nat.zero_le _) from rfl, PhiS_zero V c 0 _ rfl, scopedRest1_split]
  simp only [scM, owns_whole]
  iintro ⟨Hp, HS, HR⟩
  isplitl [HS]; · iexact HS
  isplitl [HR]; · iexact HR
  iexact Hp

theorem phi_out (c : Dev nD) :
    (dat V c).Φ (Fin.last cfg1.N) ⊢ iprop((∃ r, prngReg c r) ∗ Pipeline.scopedRest (Ix := Unit) (Name := ℕ) (U := UR sig nD τ) (Lvl := ℕ) (Val := Elt F) spec1 c) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), scopedRest1_split]
  simp only [scM, owns_whole]
  iintro ⟨HS, HR, Hp⟩
  isplitl [Hp]; · iexact Hp
  isplitl [HS]; · iexists _; iexact HS
  iexact HR

end Cert.Kernel.Rg1

end
-- ==== Proof.KRegion2Runs.lean ====
import proofs.«136604_j21827023798522_1_alg».proof.Proof.Gen.Kernel.Launch
import proofs.«136604_j21827023798522_1_alg».proof.Proof.Gen.Kernel.Skeleton
import proofs.«136604_j21827023798522_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Rg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_in_of0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in_of1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in_of2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev condF (i : grid2.Coords) : Prop := (Scalar.cmpi .ne (Scalar.extui (Scalar.cmpi .eq (BitVec.ofNat 32 (i 2).val) 0#32)) 0#32) = 1#1
theorem hcondF : ∀ t : Fin cfg2.N, condF (grid2.coords t) ↔ t.val % 4 = 0 :=
  (by decide +kernel : ∀ t : Fin grid2.N, _)

abbrev condL (i : grid2.Coords) : Prop := k2_cond2 i = 1#1
theorem hcondL : ∀ t : Fin cfg2.N, condL (grid2.coords t) ↔ t.val % 4 = 3 :=
  (by decide +kernel : ∀ t : Fin grid2.N, _)

theorem idle3_of : ∀ t : Fin cfg2.N, ¬condL (grid2.coords t) → cfg2.idle 3 (grid2.coords t) = true := by decide +kernel
theorem noFlush3_of : ∀ t : Fin cfg2.N, ¬condL (grid2.coords t) → (cfg2.win 3).flush t = false := by decide +kernel
theorem live3_of : ∀ t : Fin cfg2.N, condL (grid2.coords t) → cfg2.idle 3 (grid2.coords t) = false := by decide +kernel
theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel

abbrev ms0 (t : Fin cfg2.N) : Memref sig .tc .vmem S1024x2048 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S2048x256 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x256 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1024x256 .f32 := win2_3.stage (cfg2.slots t 3)
abbrev hs3 (t : Fin cfg2.N) : (ms3 t).IsWhole := hstage2_3 ((cfg2.slots t 3).cast nbuf2_3)

abbrev scM : Memref sig .tc .vmem S1024x256 .f32 := Memref.whole cc2_scratch0
abbrev VS : View sig .tc .vmem S1024x256 .f32 := (scM).view
abbrev VO : View sig .tc .vmem S1024x256 .f32 := (Memref.whole cc2_stg3_0 : Memref sig .tc .vmem S1024x256 .f32).view

variable (c : Dev nD) (i : grid2.Coords) (arg3 : Memref sig .tc .vmem S1024x2048 .bf16) (harg3 : arg3.IsWhole)
  (arg4 : Memref sig .tc .vmem S2048x256 .bf16) (harg4 : arg4.IsWhole) (arg5 : Memref sig .tc .vmem S1x256 .f32) (harg5 : arg5.IsWhole)
  (arg6 : Memref sig .tc .vmem S1024x256 .f32) (harg6 : arg6.IsWhole) (arg7 : Memref sig .tc .vmem S1024x256 .f32) (harg7 : arg7.IsWhole)

-- First depth tile: the accumulator restarts at zero and takes the product of the two operand tiles.
set_option maxHeartbeats 4000000 in
noncomputable def runA (hF : condF i) (hL : ¬condL i) (x0 : Vec F S1024x2048 .bf16) (x1 : Vec F S2048x256 .bf16) :
    { LS : List (View.Piece (Elt F) S1024x256 .f32) //
      ∀ (x2 : Vec F S1x256 .f32) (x3 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc2_kernel i arg3 harg3 arg4 harg4 arg5 harg5 arg6 harg6 arg7 harg7) K } := by
  refine ⟨?_, fun x2 x3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

-- Middle depth tiles: the product of the two operand tiles is added to the accumulator.
set_option maxHeartbeats 4000000 in
noncomputable def runB (hF : ¬condF i) (hL : ¬condL i) (x0 : Vec F S1024x2048 .bf16) (x1 : Vec F S2048x256 .bf16) (xs : Vec F S1024x256 .f32) :
    { LS : List (View.Piece (Elt F) S1024x256 .f32) //
      ∀ (x2 : Vec F S1x256 .f32) (x3 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc2_kernel i arg3 harg3 arg4 harg4 arg5 harg5 arg6 harg6 arg7 harg7) K } := by
  refine ⟨?_, fun x2 x3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

-- Last depth tile: the product is added to the accumulator, and the output tile is made from it and the bias row.
set_option maxHeartbeats 4000000 in
noncomputable def runC (hF : ¬condF i) (hL : condL i) (x0 : Vec F S1024x2048 .bf16) (x1 : Vec F S2048x256 .bf16) (x2 : Vec F S1x256 .f32) (xs : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc2_kernel i arg3 harg3 arg4 harg4 arg5 harg5 arg6 harg6 arg7 harg7) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Rg2

end
-- ==== Proof.KRegion2Data.lean ====
import proofs.«136604_j21827023798522_1_alg».proof.Proof.KRegion2Runs

set_option maxRecDepth 16384

noncomputable section

namespace Cert.Kernel.Rg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces

variable (c : Dev nD) (i : grid2.Coords) (arg3 : Memref sig .tc .vmem S1024x2048 .bf16) (harg3 : arg3.IsWhole)
  (arg4 : Memref sig .tc .vmem S2048x256 .bf16) (harg4 : arg4.IsWhole) (arg5 : Memref sig .tc .vmem S1x256 .f32) (harg5 : arg5.IsWhole)
  (arg6 : Memref sig .tc .vmem S1024x256 .f32) (harg6 : arg6.IsWhole) (arg7 : Memref sig .tc .vmem S1024x256 .f32) (harg7 : arg7.IsWhole)

theorem scoverA (hF : condF i) (hL : ¬condL i) (x0 : Vec F S1024x2048 .bf16) (x1 : Vec F S2048x256 .bf16) (y : S1024x256.Idx) :
    ∃ pc ∈ (runA c i arg3 harg3 arg4 harg4 arg5 harg5 arg6 harg6 arg7 harg7 hF hL x0 x1).1, y ∈ pc.1.set :=
  View.cover_of_tiledL _ S1024x256.size (by sl_kernel_rfl) y

def accA (hF : condF i) (hL : ¬condL i) (x0 : Vec F S1024x2048 .bf16) (x1 : Vec F S2048x256 .bf16) : Vec F S1024x256 .f32 :=
  VS.read (Elt F) (VS.writes (Elt F) VS.junk (runA c i arg3 harg3 arg4 harg4 arg5 harg5 arg6 harg6 arg7 harg7 hF hL x0 x1).1)

theorem scoverB (hF : ¬condF i) (hL : ¬condL i) (x0 : Vec F S1024x2048 .bf16) (x1 : Vec F S2048x256 .bf16) (xs : Vec F S1024x256 .f32) (y : S1024x256.Idx) :
    ∃ pc ∈ (runB c i arg3 harg3 arg4 harg4 arg5 harg5 arg6 harg6 arg7 harg7 hF hL x0 x1 xs).1, y ∈ pc.1.set :=
  View.cover_of_tiledL _ S1024x256.size (by sl_kernel_rfl) y

def accB (hF : ¬condF i) (hL : ¬condL i) (x0 : Vec F S1024x2048 .bf16) (x1 : Vec F S2048x256 .bf16) (xs : Vec F S1024x256 .f32) : Vec F S1024x256 .f32 :=
  VS.read (Elt F) (VS.writes (Elt F) VS.junk (runB c i arg3 harg3 arg4 harg4 arg5 harg5 arg6 harg6 arg7 harg7 hF hL x0 x1 xs).1)

variable (hF : ¬condF i) (hL : condL i) (x0 : Vec F S1024x2048 .bf16) (x1 : Vec F S2048x256 .bf16) (x2 : Vec F S1x256 .f32) (xs : Vec F S1024x256 .f32)

theorem coverC (y : S1024x256.Idx) : ∃ pc ∈ (runC c i arg3 harg3 arg4 harg4 arg5 harg5 arg6 harg6 arg7 harg7 hF hL x0 x1 x2 xs).1, y ∈ pc.1.set :=
  View.cover_of_tiledL _ S1024x256.size (by sl_kernel_rfl) y

def outC : Vec F S1024x256 .f32 :=
  VO.read (Elt F) (VO.writes (Elt F) VO.junk (runC c i arg3 harg3 arg4 harg4 arg5 harg5 arg6 harg6 arg7 harg7 hF hL x0 x1 x2 xs).1)

theorem scoverC (y : S1024x256.Idx) : ∃ pc ∈ (runC c i arg3 harg3 arg4 harg4 arg5 harg5 arg6 harg6 arg7 harg7 hF hL x0 x1 x2 xs).2.1, y ∈ pc.1.set :=
  View.cover_of_tiledL _ S1024x256.size (by sl_kernel_rfl) y

def accC : Vec F S1024x256 .f32 :=
  VS.read (Elt F) (VS.writes (Elt F) VS.junk (runC c i arg3 harg3 arg4 harg4 arg5 harg5 arg6 harg6 arg7 harg7 hF hL x0 x1 x2 xs).2.1)

end Pieces

def restO : Vec F S1024x256 .f32 := VO.read (Elt F) VO.junk

section Point

variable (c : Dev nD) (t : Fin cfg2.N)

def aA (h0 : t.val % 4 = 0) : Vec F S1024x256 .f32 :=
  accA c (grid2.coords t) (ms0 t) (hs0 t) (ms1 t) (hs1 t) (ms2 t) (hs2 t) (ms3 t) (hs3 t) scM (Memref.isWhole_whole _) ((hcondF t).mpr h0) (fun h => absurd ((hcondL t).mp h) (by omega)) (iblk V c 0 t) (iblk V c 1 t)

def aB (h0 : ¬t.val % 4 = 0) (h1 : ¬t.val % 4 = 3) (xs : Vec F S1024x256 .f32) : Vec F S1024x256 .f32 :=
  accB c (grid2.coords t) (ms0 t) (hs0 t) (ms1 t) (hs1 t) (ms2 t) (hs2 t) (ms3 t) (hs3 t) scM (Memref.isWhole_whole _) (fun h => h0 ((hcondF t).mp h)) (fun h => h1 ((hcondL t).mp h)) (iblk V c 0 t) (iblk V c 1 t) xs

def oC (h0 : ¬t.val % 4 = 0) (h1 : t.val % 4 = 3) (xs : Vec F S1024x256 .f32) : Vec F S1024x256 .f32 :=
  outC c (grid2.coords t) (ms0 t) (hs0 t) (ms1 t) (hs1 t) (ms2 t) (hs2 t) (ms3 t) (hs3 t) scM (Memref.isWhole_whole _) (fun h => h0 ((hcondF t).mp h)) ((hcondL t).mpr h1) (iblk V c 0 t) (iblk V c 1 t) (iblk V c 2 t) xs

def aC (h0 : ¬t.val % 4 = 0) (h1 : t.val % 4 = 3) (xs : Vec F S1024x256 .f32) : Vec F S1024x256 .f32 :=
  accC c (grid2.coords t) (ms0 t) (hs0 t) (ms1 t) (hs1 t) (ms2 t) (hs2 t) (ms3 t) (hs3 t) scM (Memref.isWhole_whole _) (fun h => h0 ((hcondF t).mp h)) ((hcondL t).mpr h1) (iblk V c 0 t) (iblk V c 1 t) (iblk V c 2 t) xs

end Point

-- The output tile and the accumulator after each point: depth 0 restarts the sum, later depths add to what the point before left.
def outsAt (c : Dev nD) : (n : ℕ) → n < cfg2.N → Vec F S1024x256 .f32 × Vec F S1024x256 .f32
  | 0, hn => (restO, aA V c ⟨0, hn⟩ (Nat.zero_mod _))
  | n + 1, hn =>
    if h0 : (n + 1) % 4 = 0 then (restO, aA V c ⟨n + 1, hn⟩ h0)
    else if h1 : (n + 1) % 4 = 3 then
      (oC V c ⟨n + 1, hn⟩ h0 h1 (outsAt c n (Nat.lt_of_succ_lt hn)).2, aC V c ⟨n + 1, hn⟩ h0 h1 (outsAt c n (Nat.lt_of_succ_lt hn)).2)
    else (restO, aB V c ⟨n + 1, hn⟩ h0 h1 (outsAt c n (Nat.lt_of_succ_lt hn)).2)

theorem outsAt_A (c : Dev nD) (t : Fin cfg2.N) (h0 : t.val % 4 = 0) : outsAt V c t.val t.isLt = (restO, aA V c t h0) := by
  obtain ⟨n, hn⟩ := t
  cases n with
  | zero => exact rfl
  | succ n => exact (dif_pos h0).trans rfl

theorem outsAt_B (c : Dev nD) (t : Fin cfg2.N) (h0 : ¬t.val % 4 = 0) (h1 : ¬t.val % 4 = 3) :
    outsAt V c t.val t.isLt = (restO, aB V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt_C (c : Dev nD) (t : Fin cfg2.N) (h0 : ¬t.val % 4 = 0) (h1 : t.val % 4 = 3) :
    outsAt V c t.val t.isLt = (oC V c t h0 h1 (outsAt V c (t.val - 1) (Nat.lt_of_le_of_lt (Nat.sub_le _ _) t.isLt)).2,
      aC V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

abbrev Rest (c : Dev nD) : sProp 𝕄 :=
  iprop(Pipeline.scopedRestBut (Ix := Unit) (Name := ℕ) (U := UR sig nD τ) (Lvl := ℕ) (Val := Elt F) spec2 c [cc2_scratch0] ∗ (∃ r, prngReg c r))

def PhiS (c : Dev nD) : (n : ℕ) → n ≤ cfg2.N → sProp 𝕄
  | 0, _ => iprop((∃ d, owns (c : Thread nD τ) scM fullShare d) ∗ Rest (F := F) c)
  | n + 1, hn => iprop(owns (c : Thread nD τ) scM fullShare ((outsAt V c n hn).2) ∗ Rest (F := F) c)

theorem PhiS_zero (c : Dev nD) (n : ℕ) (h : n ≤ cfg2.N) (hz : n = 0) :
    PhiS V c n h = iprop((∃ d, owns (c : Thread nD τ) scM fullShare d) ∗ Rest (F := F) c) := by
  subst hz; rfl

theorem PhiS_succ (c : Dev nD) (n : ℕ) (hn : n < cfg2.N) :
    PhiS V c (n + 1) hn = iprop(owns (c : Thread nD τ) scM fullShare ((outsAt V c n hn).2) ∗ Rest (F := F) c) := rfl

theorem PhiS_pos (c : Dev nD) (n : ℕ) (h : n ≤ cfg2.N) (hz : n ≠ 0) :
    PhiS V c n h = iprop(owns (c : Thread nD τ) scM fullShare ((outsAt V c (n - 1) (by omega)).2) ∗ Rest (F := F) c) := by
  cases n with
  | zero => exact absurd rfl hz
  | succ n => rfl

-- Whatever the accumulator holds, it holds something: enough where the sum restarts.
theorem PhiS_forget (c : Dev nD) (n : ℕ) (h : n ≤ cfg2.N) :
    PhiS V c n h ⊢ iprop((∃ d, owns (c : Thread nD τ) scM fullShare d) ∗ Rest (F := F) c) := by
  cases n with
  | zero => exact .rfl
  | succ n =>
    rw [PhiS_succ]
    iintro ⟨HS, HR⟩
    isplitl [HS]; · iexists _; iexact HS
    iexact HR

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = (outsAt V c t.val t.isLt).1 := by dsimp only [dat]

theorem before_0 (c : Dev nD) (t : Fin cfg2.N) (d) : (dat V c).before 0 t d = iblk V c 0 t :=
  before_in_of0 V (dat V c) (A_eq V c 0) (after_0 V c) t d
theorem before_1 (c : Dev nD) (t : Fin cfg2.N) (d) : (dat V c).before 1 t d = iblk V c 1 t :=
  before_in_of1 V (dat V c) (A_eq V c 1) (after_1 V c) t d
theorem before_2 (c : Dev nD) (t : Fin cfg2.N) (d) : (dat V c).before 2 t d = iblk V c 2 t :=
  before_in_of2 V (dat V c) (A_eq V c 2) (after_2 V c) t d

end Cert.Kernel.Rg2

end
-- ==== Proof.KRegion2Body.lean ====
import proofs.«136604_j21827023798522_1_alg».proof.Proof.KRegion2Data

set_option maxRecDepth 16384

noncomputable section

namespace Cert.Kernel.Rg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_0 (c : Dev nD) (t : Fin cfg2.N) :
    (dat V c).leavesExact 0 t = owns (c : Thread nD τ) (ms0 t) fullShare (iblk V c 0 t) := by
  unfold Dat.leavesExact; rw [live0 t, after_0]
theorem leaves_1 (c : Dev nD) (t : Fin cfg2.N) :
    (dat V c).leavesExact 1 t = owns (c : Thread nD τ) (ms1 t) fullShare (iblk V c 1 t) := by
  unfold Dat.leavesExact; rw [live1 t, after_1]
theorem leaves_2 (c : Dev nD) (t : Fin cfg2.N) :
    (dat V c).leavesExact 2 t = owns (c : Thread nD τ) (ms2 t) fullShare (iblk V c 2 t) := by
  unfold Dat.leavesExact; rw [live2 t, after_2]

-- At every point the body leaves what `outsAt` says, by the point's depth tile.
set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 32 := lt_of_lt_of_eq t.isLt (show cfg2.N = 32 from N_2)
  by_cases h0 : t.val % 4 = 0
  · have h1 : ¬t.val % 4 = 3 := by omega
    rw [Dat.leavesExact_idle (dat V c) 3 t (idle3_of t (fun h => h1 ((hcondL t).mp h))) (noFlush3_of t (fun h => h1 ((hcondL t).mp h)))]
    rw [outsAt_A V c t h0]
    unfold aA accA; (try dsimp only)
    rw [PhiS_castSucc V c t]
    iintro ⟨HP, Ho, ⟨%d0, H0⟩, ⟨%d1, H1⟩, ⟨%d2, H2⟩, ⟨%d3, H3⟩⟩
    ihave HP' := (PhiS_forget V c _ _) $$ HP
    icases HP' with ⟨HS, HR⟩
    iapply ((runA c (grid2.coords t) _ _ _ _ _ _ _ _ _ _ ((hcondF t).mpr h0) (fun h => absurd ((hcondL t).mp h) (by omega)) (iblk V c 0 t) (iblk V c 1 t)).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS HR]
    · isplitl [HS]
      · unfold owns; iexists _; isplitr
        swap; · iexact HS
        ipureintro; exact View.read_writes_of_cover _ _ _ _ _ (scoverA c _ _ _ _ _ _ _ _ _ _ _ _ _ _ _)
      iexact HR
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 4 = 3
    · rw [show (dat V c).leavesExact 3 t = owns (c : Thread nD τ) (ms3 t) fullShare ((dat V c).after 3 t) from by
        unfold Dat.leavesExact; rw [live3_of t ((hcondL t).mpr h1)], after_3]
      rw [outsAt_C V c t h0 h1]
      unfold oC aC outC accC; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((runC c (grid2.coords t) _ _ _ _ _ _ _ _ _ _ (fun h => h0 ((hcondF t).mp h)) ((hcondL t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR]
      · isplitl [HS]
        · unfold owns; iexists _; isplitr
          swap; · iexact HS
          ipureintro; exact View.read_writes_of_cover _ _ _ _ _ (scoverC c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _ _)
    · rw [Dat.leavesExact_idle (dat V c) 3 t (idle3_of t (fun h => h1 ((hcondL t).mp h))) (noFlush3_of t (fun h => h1 ((hcondL t).mp h)))]
      rw [outsAt_B V c t h0 h1]
      unfold aB accB; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((runB c (grid2.coords t) _ _ _ _ _ _ _ _ _ _ (fun h => h0 ((hcondF t).mp h)) (fun h => h1 ((hcondL t).mp h)) (iblk V c 0 t) (iblk V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR]
      · isplitl [HS]
        · unfold owns; iexists _; isplitr
          swap; · iexact HS
          ipureintro; exact View.read_writes_of_cover _ _ _ _ _ (scoverB c _ _ _ _ _ _ _ _ _ _ _ _ _ _ _ _)
        iexact HR
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W2, bigSep_W2]
  exact sound_body V c t

theorem phi_in (c : Dev nD) :
    iprop((∃ r, prngReg c r) ∗ Pipeline.scopedRest (Ix := Unit) (Name := ℕ) (U := UR sig nD τ) (Lvl := ℕ) (Val := Elt F) spec2 c) ⊢ (dat V c).Φ 0 := by
  rw [show (dat V c).Φ 0 = PhiS V c 0 (Nat.zero_le _) from rfl, PhiS_zero V c 0 _ rfl, scopedRest2_split]
  simp only [scM, owns_whole]
  iintro ⟨Hp, HS, HR⟩
  isplitl [HS]; · iexact HS
  isplitl [HR]; · iexact HR
  iexact Hp

theorem phi_out (c : Dev nD) :
    (dat V c).Φ (Fin.last cfg2.N) ⊢ iprop((∃ r, prngReg c r) ∗ Pipeline.scopedRest (Ix := Unit) (Name := ℕ) (U := UR sig nD τ) (Lvl := ℕ) (Val := Elt F) spec2 c) := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 32 := N_2; omega), scopedRest2_split]
  simp only [scM, owns_whole]
  iintro ⟨HS, HR, Hp⟩
  isplitl [Hp]; · iexact Hp
  isplitl [HS]; · iexists _; iexact HS
  iexact HR

end Cert.Kernel.Rg2

end
-- ==== Proof.KRegion3Runs.lean ====
import proofs.«136604_j21827023798522_1_alg».proof.Proof.Gen.Kernel.Launch
import proofs.«136604_j21827023798522_1_alg».proof.Proof.Gen.Kernel.Skeleton
import proofs.«136604_j21827023798522_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Rg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_in_of0 {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in_of1 {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in_of2 {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev condF (i : grid3.Coords) : Prop := (Scalar.cmpi .ne (Scalar.extui (Scalar.cmpi .eq (BitVec.ofNat 32 (i 2).val) 0#32)) 0#32) = 1#1
theorem hcondF : ∀ t : Fin cfg3.N, condF (grid3.coords t) ↔ t.val % 4 = 0 :=
  (by decide +kernel : ∀ t : Fin grid3.N, _)

abbrev condL (i : grid3.Coords) : Prop := k3_cond2 i = 1#1
theorem hcondL : ∀ t : Fin cfg3.N, condL (grid3.coords t) ↔ t.val % 4 = 3 :=
  (by decide +kernel : ∀ t : Fin grid3.N, _)

theorem idle3_of : ∀ t : Fin cfg3.N, ¬condL (grid3.coords t) → cfg3.idle 3 (grid3.coords t) = true := by decide +kernel
theorem noFlush3_of : ∀ t : Fin cfg3.N, ¬condL (grid3.coords t) → (cfg3.win 3).flush t = false := by decide +kernel
theorem live3_of : ∀ t : Fin cfg3.N, condL (grid3.coords t) → cfg3.idle 3 (grid3.coords t) = false := by decide +kernel
theorem live0 : ∀ t : Fin cfg3.N, cfg3.idle 0 (grid3.coords t) = false := by decide +kernel
theorem live1 : ∀ t : Fin cfg3.N, cfg3.idle 1 (grid3.coords t) = false := by decide +kernel
theorem live2 : ∀ t : Fin cfg3.N, cfg3.idle 2 (grid3.coords t) = false := by decide +kernel

abbrev ms0 (t : Fin cfg3.N) : Memref sig .tc .vmem S1024x2048 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S2048x128 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x128 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1024x128 .f32 := win3_3.stage (cfg3.slots t 3)
abbrev hs3 (t : Fin cfg3.N) : (ms3 t).IsWhole := hstage3_3 ((cfg3.slots t 3).cast nbuf3_3)

abbrev scM : Memref sig .tc .vmem S1024x128 .f32 := Memref.whole cc3_scratch0
abbrev VS : View sig .tc .vmem S1024x128 .f32 := (scM).view
abbrev VO : View sig .tc .vmem S1024x128 .f32 := (Memref.whole cc3_stg3_0 : Memref sig .tc .vmem S1024x128 .f32).view

variable (c : Dev nD) (i : grid3.Coords) (arg3 : Memref sig .tc .vmem S1024x2048 .bf16) (harg3 : arg3.IsWhole)
  (arg4 : Memref sig .tc .vmem S2048x128 .bf16) (harg4 : arg4.IsWhole) (arg5 : Memref sig .tc .vmem S1x128 .f32) (harg5 : arg5.IsWhole)
  (arg6 : Memref sig .tc .vmem S1024x128 .f32) (harg6 : arg6.IsWhole) (arg7 : Memref sig .tc .vmem S1024x128 .f32) (harg7 : arg7.IsWhole)

-- First depth tile: the accumulator restarts at zero and takes the product of the two operand tiles.
set_option maxHeartbeats 4000000 in
noncomputable def runA (hF : condF i) (hL : ¬condL i) (x0 : Vec F S1024x2048 .bf16) (x1 : Vec F S2048x128 .bf16) :
    { LS : List (View.Piece (Elt F) S1024x128 .f32) //
      ∀ (x2 : Vec F S1x128 .f32) (x3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc3_kernel i arg3 harg3 arg4 harg4 arg5 harg5 arg6 harg6 arg7 harg7) K } := by
  refine ⟨?_, fun x2 x3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

-- Middle depth tiles: the product of the two operand tiles is added to the accumulator.
set_option maxHeartbeats 4000000 in
noncomputable def runB (hF : ¬condF i) (hL : ¬condL i) (x0 : Vec F S1024x2048 .bf16) (x1 : Vec F S2048x128 .bf16) (xs : Vec F S1024x128 .f32) :
    { LS : List (View.Piece (Elt F) S1024x128 .f32) //
      ∀ (x2 : Vec F S1x128 .f32) (x3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc3_kernel i arg3 harg3 arg4 harg4 arg5 harg5 arg6 harg6 arg7 harg7) K } := by
  refine ⟨?_, fun x2 x3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

-- Last depth tile: the product is added to the accumulator, and the output tile is made from it and the bias row.
set_option maxHeartbeats 4000000 in
noncomputable def runC (hF : ¬condF i) (hL : condL i) (x0 : Vec F S1024x2048 .bf16) (x1 : Vec F S2048x128 .bf16) (x2 : Vec F S1x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc3_kernel i arg3 harg3 arg4 harg4 arg5 harg5 arg6 harg6 arg7 harg7) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Rg3

end
-- ==== Proof.KRegion3Data.lean ====
import proofs.«136604_j21827023798522_1_alg».proof.Proof.KRegion3Runs

set_option maxRecDepth 16384

noncomputable section

namespace Cert.Kernel.Rg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces

variable (c : Dev nD) (i : grid3.Coords) (arg3 : Memref sig .tc .vmem S1024x2048 .bf16) (harg3 : arg3.IsWhole)
  (arg4 : Memref sig .tc .vmem S2048x128 .bf16) (harg4 : arg4.IsWhole) (arg5 : Memref sig .tc .vmem S1x128 .f32) (harg5 : arg5.IsWhole)
  (arg6 : Memref sig .tc .vmem S1024x128 .f32) (harg6 : arg6.IsWhole) (arg7 : Memref sig .tc .vmem S1024x128 .f32) (harg7 : arg7.IsWhole)

theorem scoverA (hF : condF i) (hL : ¬condL i) (x0 : Vec F S1024x2048 .bf16) (x1 : Vec F S2048x128 .bf16) (y : S1024x128.Idx) :
    ∃ pc ∈ (runA c i arg3 harg3 arg4 harg4 arg5 harg5 arg6 harg6 arg7 harg7 hF hL x0 x1).1, y ∈ pc.1.set :=
  View.cover_of_tiledL _ S1024x128.size (by sl_kernel_rfl) y

def accA (hF : condF i) (hL : ¬condL i) (x0 : Vec F S1024x2048 .bf16) (x1 : Vec F S2048x128 .bf16) : Vec F S1024x128 .f32 :=
  VS.read (Elt F) (VS.writes (Elt F) VS.junk (runA c i arg3 harg3 arg4 harg4 arg5 harg5 arg6 harg6 arg7 harg7 hF hL x0 x1).1)

theorem scoverB (hF : ¬condF i) (hL : ¬condL i) (x0 : Vec F S1024x2048 .bf16) (x1 : Vec F S2048x128 .bf16) (xs : Vec F S1024x128 .f32) (y : S1024x128.Idx) :
    ∃ pc ∈ (runB c i arg3 harg3 arg4 harg4 arg5 harg5 arg6 harg6 arg7 harg7 hF hL x0 x1 xs).1, y ∈ pc.1.set :=
  View.cover_of_tiledL _ S1024x128.size (by sl_kernel_rfl) y

def accB (hF : ¬condF i) (hL : ¬condL i) (x0 : Vec F S1024x2048 .bf16) (x1 : Vec F S2048x128 .bf16) (xs : Vec F S1024x128 .f32) : Vec F S1024x128 .f32 :=
  VS.read (Elt F) (VS.writes (Elt F) VS.junk (runB c i arg3 harg3 arg4 harg4 arg5 harg5 arg6 harg6 arg7 harg7 hF hL x0 x1 xs).1)

variable (hF : ¬condF i) (hL : condL i) (x0 : Vec F S1024x2048 .bf16) (x1 : Vec F S2048x128 .bf16) (x2 : Vec F S1x128 .f32) (xs : Vec F S1024x128 .f32)

theorem coverC (y : S1024x128.Idx) : ∃ pc ∈ (runC c i arg3 harg3 arg4 harg4 arg5 harg5 arg6 harg6 arg7 harg7 hF hL x0 x1 x2 xs).1, y ∈ pc.1.set :=
  View.cover_of_tiledL _ S1024x128.size (by sl_kernel_rfl) y

def outC : Vec F S1024x128 .f32 :=
  VO.read (Elt F) (VO.writes (Elt F) VO.junk (runC c i arg3 harg3 arg4 harg4 arg5 harg5 arg6 harg6 arg7 harg7 hF hL x0 x1 x2 xs).1)

theorem scoverC (y : S1024x128.Idx) : ∃ pc ∈ (runC c i arg3 harg3 arg4 harg4 arg5 harg5 arg6 harg6 arg7 harg7 hF hL x0 x1 x2 xs).2.1, y ∈ pc.1.set :=
  View.cover_of_tiledL _ S1024x128.size (by sl_kernel_rfl) y

def accC : Vec F S1024x128 .f32 :=
  VS.read (Elt F) (VS.writes (Elt F) VS.junk (runC c i arg3 harg3 arg4 harg4 arg5 harg5 arg6 harg6 arg7 harg7 hF hL x0 x1 x2 xs).2.1)

end Pieces

def restO : Vec F S1024x128 .f32 := VO.read (Elt F) VO.junk

section Point

variable (c : Dev nD) (t : Fin cfg3.N)

def aA (h0 : t.val % 4 = 0) : Vec F S1024x128 .f32 :=
  accA c (grid3.coords t) (ms0 t) (hs0 t) (ms1 t) (hs1 t) (ms2 t) (hs2 t) (ms3 t) (hs3 t) scM (Memref.isWhole_whole _) ((hcondF t).mpr h0) (fun h => absurd ((hcondL t).mp h) (by omega)) (iblk V c 0 t) (iblk V c 1 t)

def aB (h0 : ¬t.val % 4 = 0) (h1 : ¬t.val % 4 = 3) (xs : Vec F S1024x128 .f32) : Vec F S1024x128 .f32 :=
  accB c (grid3.coords t) (ms0 t) (hs0 t) (ms1 t) (hs1 t) (ms2 t) (hs2 t) (ms3 t) (hs3 t) scM (Memref.isWhole_whole _) (fun h => h0 ((hcondF t).mp h)) (fun h => h1 ((hcondL t).mp h)) (iblk V c 0 t) (iblk V c 1 t) xs

def oC (h0 : ¬t.val % 4 = 0) (h1 : t.val % 4 = 3) (xs : Vec F S1024x128 .f32) : Vec F S1024x128 .f32 :=
  outC c (grid3.coords t) (ms0 t) (hs0 t) (ms1 t) (hs1 t) (ms2 t) (hs2 t) (ms3 t) (hs3 t) scM (Memref.isWhole_whole _) (fun h => h0 ((hcondF t).mp h)) ((hcondL t).mpr h1) (iblk V c 0 t) (iblk V c 1 t) (iblk V c 2 t) xs

def aC (h0 : ¬t.val % 4 = 0) (h1 : t.val % 4 = 3) (xs : Vec F S1024x128 .f32) : Vec F S1024x128 .f32 :=
  accC c (grid3.coords t) (ms0 t) (hs0 t) (ms1 t) (hs1 t) (ms2 t) (hs2 t) (ms3 t) (hs3 t) scM (Memref.isWhole_whole _) (fun h => h0 ((hcondF t).mp h)) ((hcondL t).mpr h1) (iblk V c 0 t) (iblk V c 1 t) (iblk V c 2 t) xs

end Point

-- The output tile and the accumulator after each point: depth 0 restarts the sum, later depths add to what the point before left.
def outsAt (c : Dev nD) : (n : ℕ) → n < cfg3.N → Vec F S1024x128 .f32 × Vec F S1024x128 .f32
  | 0, hn => (restO, aA V c ⟨0, hn⟩ (Nat.zero_mod _))
  | n + 1, hn =>
    if h0 : (n + 1) % 4 = 0 then (restO, aA V c ⟨n + 1, hn⟩ h0)
    else if h1 : (n + 1) % 4 = 3 then
      (oC V c ⟨n + 1, hn⟩ h0 h1 (outsAt c n (Nat.lt_of_succ_lt hn)).2, aC V c ⟨n + 1, hn⟩ h0 h1 (outsAt c n (Nat.lt_of_succ_lt hn)).2)
    else (restO, aB V c ⟨n + 1, hn⟩ h0 h1 (outsAt c n (Nat.lt_of_succ_lt hn)).2)

theorem outsAt_A (c : Dev nD) (t : Fin cfg3.N) (h0 : t.val % 4 = 0) : outsAt V c t.val t.isLt = (restO, aA V c t h0) := by
  obtain ⟨n, hn⟩ := t
  cases n with
  | zero => exact rfl
  | succ n => exact (dif_pos h0).trans rfl

theorem outsAt_B (c : Dev nD) (t : Fin cfg3.N) (h0 : ¬t.val % 4 = 0) (h1 : ¬t.val % 4 = 3) :
    outsAt V c t.val t.isLt = (restO, aB V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt_C (c : Dev nD) (t : Fin cfg3.N) (h0 : ¬t.val % 4 = 0) (h1 : t.val % 4 = 3) :
    outsAt V c t.val t.isLt = (oC V c t h0 h1 (outsAt V c (t.val - 1) (Nat.lt_of_le_of_lt (Nat.sub_le _ _) t.isLt)).2,
      aC V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

abbrev Rest (c : Dev nD) : sProp 𝕄 :=
  iprop(Pipeline.scopedRestBut (Ix := Unit) (Name := ℕ) (U := UR sig nD τ) (Lvl := ℕ) (Val := Elt F) spec3 c [cc3_scratch0] ∗ (∃ r, prngReg c r))

def PhiS (c : Dev nD) : (n : ℕ) → n ≤ cfg3.N → sProp 𝕄
  | 0, _ => iprop((∃ d, owns (c : Thread nD τ) scM fullShare d) ∗ Rest (F := F) c)
  | n + 1, hn => iprop(owns (c : Thread nD τ) scM fullShare ((outsAt V c n hn).2) ∗ Rest (F := F) c)

theorem PhiS_zero (c : Dev nD) (n : ℕ) (h : n ≤ cfg3.N) (hz : n = 0) :
    PhiS V c n h = iprop((∃ d, owns (c : Thread nD τ) scM fullShare d) ∗ Rest (F := F) c) := by
  subst hz; rfl

theorem PhiS_succ (c : Dev nD) (n : ℕ) (hn : n < cfg3.N) :
    PhiS V c (n + 1) hn = iprop(owns (c : Thread nD τ) scM fullShare ((outsAt V c n hn).2) ∗ Rest (F := F) c) := rfl

theorem PhiS_pos (c : Dev nD) (n : ℕ) (h : n ≤ cfg3.N) (hz : n ≠ 0) :
    PhiS V c n h = iprop(owns (c : Thread nD τ) scM fullShare ((outsAt V c (n - 1) (by omega)).2) ∗ Rest (F := F) c) := by
  cases n with
  | zero => exact absurd rfl hz
  | succ n => rfl

-- Whatever the accumulator holds, it holds something: enough where the sum restarts.
theorem PhiS_forget (c : Dev nD) (n : ℕ) (h : n ≤ cfg3.N) :
    PhiS V c n h ⊢ iprop((∃ d, owns (c : Thread nD τ) scM fullShare d) ∗ Rest (F := F) c) := by
  cases n with
  | zero => exact .rfl
  | succ n =>
    rw [PhiS_succ]
    iintro ⟨HS, HR⟩
    isplitl [HS]; · iexists _; iexact HS
    iexact HR

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = (outsAt V c t.val t.isLt).1 := by dsimp only [dat]

theorem before_0 (c : Dev nD) (t : Fin cfg3.N) (d) : (dat V c).before 0 t d = iblk V c 0 t :=
  before_in_of0 V (dat V c) (A_eq V c 0) (after_0 V c) t d
theorem before_1 (c : Dev nD) (t : Fin cfg3.N) (d) : (dat V c).before 1 t d = iblk V c 1 t :=
  before_in_of1 V (dat V c) (A_eq V c 1) (after_1 V c) t d
theorem before_2 (c : Dev nD) (t : Fin cfg3.N) (d) : (dat V c).before 2 t d = iblk V c 2 t :=
  before_in_of2 V (dat V c) (A_eq V c 2) (after_2 V c) t d

end Cert.Kernel.Rg3

end
-- ==== Proof.KRegion3Body.lean ====
import proofs.«136604_j21827023798522_1_alg».proof.Proof.KRegion3Data

set_option maxRecDepth 16384

noncomputable section

namespace Cert.Kernel.Rg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_0 (c : Dev nD) (t : Fin cfg3.N) :
    (dat V c).leavesExact 0 t = owns (c : Thread nD τ) (ms0 t) fullShare (iblk V c 0 t) := by
  unfold Dat.leavesExact; rw [live0 t, after_0]
theorem leaves_1 (c : Dev nD) (t : Fin cfg3.N) :
    (dat V c).leavesExact 1 t = owns (c : Thread nD τ) (ms1 t) fullShare (iblk V c 1 t) := by
  unfold Dat.leavesExact; rw [live1 t, after_1]
theorem leaves_2 (c : Dev nD) (t : Fin cfg3.N) :
    (dat V c).leavesExact 2 t = owns (c : Thread nD τ) (ms2 t) fullShare (iblk V c 2 t) := by
  unfold Dat.leavesExact; rw [live2 t, after_2]

-- At every point the body leaves what `outsAt` says, by the point's depth tile.
set_option maxHeartbeats 4800000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 32 := lt_of_lt_of_eq t.isLt (show cfg3.N = 32 from N_3)
  by_cases h0 : t.val % 4 = 0
  · have h1 : ¬t.val % 4 = 3 := by omega
    rw [Dat.leavesExact_idle (dat V c) 3 t (idle3_of t (fun h => h1 ((hcondL t).mp h))) (noFlush3_of t (fun h => h1 ((hcondL t).mp h)))]
    rw [outsAt_A V c t h0]
    unfold aA accA; (try dsimp only)
    rw [PhiS_castSucc V c t]
    iintro ⟨HP, Ho, ⟨%d0, H0⟩, ⟨%d1, H1⟩, ⟨%d2, H2⟩, ⟨%d3, H3⟩⟩
    ihave HP' := (PhiS_forget V c _ _) $$ HP
    icases HP' with ⟨HS, HR⟩
    iapply ((runA c (grid3.coords t) _ _ _ _ _ _ _ _ _ _ ((hcondF t).mpr h0) (fun h => absurd ((hcondL t).mp h) (by omega)) (iblk V c 0 t) (iblk V c 1 t)).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS HR]
    · isplitl [HS]
      · unfold owns; iexists _; isplitr
        swap; · iexact HS
        ipureintro; exact View.read_writes_of_cover _ _ _ _ _ (scoverA c _ _ _ _ _ _ _ _ _ _ _ _ _ _ _)
      iexact HR
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 4 = 3
    · rw [show (dat V c).leavesExact 3 t = owns (c : Thread nD τ) (ms3 t) fullShare ((dat V c).after 3 t) from by
        unfold Dat.leavesExact; rw [live3_of t ((hcondL t).mpr h1)], after_3]
      rw [outsAt_C V c t h0 h1]
      unfold oC aC outC accC; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((runC c (grid3.coords t) _ _ _ _ _ _ _ _ _ _ (fun h => h0 ((hcondF t).mp h)) ((hcondL t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR]
      · isplitl [HS]
        · unfold owns; iexists _; isplitr
          swap; · iexact HS
          ipureintro; exact View.read_writes_of_cover _ _ _ _ _ (scoverC c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _ _)
    · rw [Dat.leavesExact_idle (dat V c) 3 t (idle3_of t (fun h => h1 ((hcondL t).mp h))) (noFlush3_of t (fun h => h1 ((hcondL t).mp h)))]
      rw [outsAt_B V c t h0 h1]
      unfold aB accB; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((runB c (grid3.coords t) _ _ _ _ _ _ _ _ _ _ (fun h => h0 ((hcondF t).mp h)) (fun h => h1 ((hcondL t).mp h)) (iblk V c 0 t) (iblk V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR]
      · isplitl [HS]
        · unfold owns; iexists _; isplitr
          swap; · iexact HS
          ipureintro; exact View.read_writes_of_cover _ _ _ _ _ (scoverB c _ _ _ _ _ _ _ _ _ _ _ _ _ _ _ _)
        iexact HR
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W3, bigSep_W3]
  exact sound_body V c t

theorem phi_in (c : Dev nD) :
    iprop((∃ r, prngReg c r) ∗ Pipeline.scopedRest (Ix := Unit) (Name := ℕ) (U := UR sig nD τ) (Lvl := ℕ) (Val := Elt F) spec3 c) ⊢ (dat V c).Φ 0 := by
  rw [show (dat V c).Φ 0 = PhiS V c 0 (Nat.zero_le _) from rfl, PhiS_zero V c 0 _ rfl, scopedRest3_split]
  simp only [scM, owns_whole]
  iintro ⟨Hp, HS, HR⟩
  isplitl [HS]; · iexact HS
  isplitl [HR]; · iexact HR
  iexact Hp

theorem phi_out (c : Dev nD) :
    (dat V c).Φ (Fin.last cfg3.N) ⊢ iprop((∃ r, prngReg c r) ∗ Pipeline.scopedRest (Ix := Unit) (Name := ℕ) (U := UR sig nD τ) (Lvl := ℕ) (Val := Elt F) spec3 c) := by
  rw [show (dat V c).Φ (Fin.last cfg3.N) = PhiS V c (Fin.last cfg3.N).val (Nat.le_of_lt_succ (Fin.last cfg3.N).isLt) from rfl,
    PhiS_pos V c _ _ (by rw [Fin.val_last]; have : cfg3.N = 32 := N_3; omega), scopedRest3_split]
  simp only [scM, owns_whole]
  iintro ⟨HS, HR, Hp⟩
  isplitl [Hp]; · iexact Hp
  isplitl [HS]; · iexists _; iexact HS
  iexact HR

end Cert.Kernel.Rg3

end
-- ==== Proof.KChain.lean ====
import proofs.«136604_j21827023798522_1_alg».proof.Proof.KRegion0Body
import proofs.«136604_j21827023798522_1_alg».proof.Proof.KRegion1Body
import proofs.«136604_j21827023798522_1_alg».proof.Proof.KRegion2Body
import proofs.«136604_j21827023798522_1_alg».proof.Proof.KRegion3Body
import proofs.«136604_j21827023798522_1_alg».proof.Proof.Gen.Kernel.Regions
import Idealize.ShloMosaic.Lib.Pipeline.RegionsLoop

set_option maxRecDepth 16384

noncomputable section

namespace Cert.Kernel.Chain

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev r1 : (c : Dev nD) → (b : Ref sig .tc) → Buf (Elt F) ((c : Thread nD τ).loc b) := fun c b => Gen.V1 m c b

def o0 (c : Dev nD) : Buf (Elt F) ((c : Thread nD τ).loc main_v3) := (Rg0.dat (r1 m) c).arrAt 3 cfg0.N
abbrev B2 (c : Dev nD) : Valuation τ sig (Elt F) := Function.update (Gen.V1 m c) main_v3 (o0 m c)
abbrev B3 (c : Dev nD) : Valuation τ sig (Elt F) := StableHlo.after hostOps1 (B2 m c)
abbrev r3 : (c : Dev nD) → (b : Ref sig .tc) → Buf (Elt F) ((c : Thread nD τ).loc b) := fun c b => B3 m c b

def o1 (c : Dev nD) : Buf (Elt F) ((c : Thread nD τ).loc main_v36) := (Rg1.dat (r3 m) c).arrAt 3 cfg1.N
abbrev B4 (c : Dev nD) : Valuation τ sig (Elt F) := Function.update (B3 m c) main_v36 (o1 m c)
abbrev B5 (c : Dev nD) : Valuation τ sig (Elt F) := StableHlo.after hostOps2 (B4 m c)
abbrev r5 : (c : Dev nD) → (b : Ref sig .tc) → Buf (Elt F) ((c : Thread nD τ).loc b) := fun c b => B5 m c b

def o2 (c : Dev nD) : Buf (Elt F) ((c : Thread nD τ).loc main_v40) := (Rg2.dat (r5 m) c).arrAt 3 cfg2.N
abbrev B6 (c : Dev nD) : Valuation τ sig (Elt F) := Function.update (B5 m c) main_v40 (o2 m c)
abbrev B7 (c : Dev nD) : Valuation τ sig (Elt F) := StableHlo.after hostOps3 (B6 m c)
abbrev B8 (c : Dev nD) : Valuation τ sig (Elt F) := StableHlo.after hostOps3_1 (B7 m c)
abbrev B9 (c : Dev nD) : Valuation τ sig (Elt F) := StableHlo.after hostOps3_2 (B8 m c)
abbrev B10 (c : Dev nD) : Valuation τ sig (Elt F) := StableHlo.after hostOps3_3 (B9 m c)
abbrev B11 (c : Dev nD) : Valuation τ sig (Elt F) := StableHlo.after hostOps3_4 (B10 m c)
abbrev r11 : (c : Dev nD) → (b : Ref sig .tc) → Buf (Elt F) ((c : Thread nD τ).loc b) := fun c b => B11 m c b

def o3 (c : Dev nD) : Buf (Elt F) ((c : Thread nD τ).loc main_v46) := (Rg3.dat (r11 m) c).arrAt 3 cfg3.N
abbrev B12 (c : Dev nD) : Valuation τ sig (Elt F) := Function.update (B11 m c) main_v46 (o3 m c)
abbrev B13 (c : Dev nD) : Valuation τ sig (Elt F) := StableHlo.after hostOps4 (B12 m c)
abbrev B14 (c : Dev nD) : Valuation τ sig (Elt F) := StableHlo.after hostOps4_1 (B13 m c)

def outs : Gen.Outs (F := F) := fun J r c =>
  if J = 2 then B2 m c r else if J = 4 then B4 m c r else if J = 6 then B6 m c r else B12 m c r

theorem outs_2 (c : Dev nD) : outs m 2 main_v3 c = o0 m c := by
  unfold outs
  rw [if_pos rfl]
  exact Function.update_self _ _ _
theorem V2_eq (c : Dev nD) : Gen.V2 m (outs m) c = B2 m c := by
  show Function.update (Gen.V1 m c) main_v3 (outs m 2 main_v3 c) = _
  rw [outs_2]
theorem V3_eq (c : Dev nD) : Gen.V3 m (outs m) c = B3 m c := by
  show StableHlo.after hostOps1 (Gen.V2 m (outs m) c) = _
  rw [V2_eq]
theorem outs_4 (c : Dev nD) : outs m 4 main_v36 c = o1 m c := by
  unfold outs
  rw [if_neg (by decide), if_pos rfl]
  exact Function.update_self _ _ _
theorem V4_eq (c : Dev nD) : Gen.V4 m (outs m) c = B4 m c := by
  show Function.update (Gen.V3 m (outs m) c) main_v36 (outs m 4 main_v36 c) = _
  rw [outs_4, V3_eq]
theorem V5_eq (c : Dev nD) : Gen.V5 m (outs m) c = B5 m c := by
  show StableHlo.after hostOps2 (Gen.V4 m (outs m) c) = _
  rw [V4_eq]
theorem outs_6 (c : Dev nD) : outs m 6 main_v40 c = o2 m c := by
  unfold outs
  rw [if_neg (by decide), if_neg (by decide), if_pos rfl]
  exact Function.update_self _ _ _
theorem V6_eq (c : Dev nD) : Gen.V6 m (outs m) c = B6 m c := by
  show Function.update (Gen.V5 m (outs m) c) main_v40 (outs m 6 main_v40 c) = _
  rw [outs_6, V5_eq]
theorem V11_eq (c : Dev nD) : Gen.V11 m (outs m) c = B11 m c := by
  show StableHlo.after hostOps3_4 (StableHlo.after hostOps3_3 (StableHlo.after hostOps3_2 (StableHlo.after hostOps3_1 (StableHlo.after hostOps3 (Gen.V6 m (outs m) c))))) = _
  rw [V6_eq]
theorem outs_12 (c : Dev nD) : outs m 12 main_v46 c = o3 m c := by
  unfold outs
  rw [if_neg (by decide), if_neg (by decide), if_neg (by decide)]
  exact Function.update_self _ _ _
theorem V12_eq (c : Dev nD) : Gen.V12 m (outs m) c = B12 m c := by
  show Function.update (Gen.V11 m (outs m) c) main_v46 (outs m 12 main_v46 c) = _
  rw [outs_12, V11_eq]
theorem V14_eq (c : Dev nD) : Gen.V14 m (outs m) c = B14 m c := by
  show StableHlo.after hostOps4_1 (StableHlo.after hostOps4 (Gen.V12 m (outs m) c)) = _
  rw [V12_eq]

def pdats : (p : Fin 4) → (c : Dev nD) → Dat τ (Elt F) Unit ℕ (UR sig nD τ) ℕ (cfgs p) c
  | ⟨0, _⟩ => fun c => Rg0.dat (r1 m) c
  | ⟨1, _⟩ => fun c => Rg1.dat (r3 m) c
  | ⟨2, _⟩ => fun c => Rg2.dat (r5 m) c
  | ⟨3, _⟩ => fun c => Rg3.dat (r11 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem upd_ne (W : Valuation τ sig (Elt F)) (o r : Ref sig .tc) (x) (h : r ≠ o) :
    W (Proc.devRef .tc r) = Function.update W (Proc.devRef .tc o) x (Proc.devRef .tc r) :=
  (Function.update_of_ne (StableHlo.devRef_ne_of_ne h) _ _).symm

theorem hF0 (c : Dev nD) (w : Fin cfg0.W) : (pdats m 0 c).arrAt w cfg0.N = B2 m c (Pipeline.arrRef spec0 w) := by
  match w with
  | ⟨0, _⟩ => exact (((pdats m 0 c).arrAt_in 0 rfl _).trans (Rg0.A_eq (r1 m) c 0)).trans (upd_ne _ main_v3 main_v0 _ (by decide))
  | ⟨1, _⟩ => exact (((pdats m 0 c).arrAt_in 1 rfl _).trans (Rg0.A_eq (r1 m) c 1)).trans (upd_ne _ main_v3 main_v1 _ (by decide))
  | ⟨2, _⟩ => exact (((pdats m 0 c).arrAt_in 2 rfl _).trans (Rg0.A_eq (r1 m) c 2)).trans (upd_ne _ main_v3 main_v2 _ (by decide))
  | ⟨3, _⟩ =>
    show o0 m c = Function.update (Gen.V1 m c) (Proc.devRef .tc main_v3 : DevRef τ sig) (o0 m c) (Proc.devRef .tc main_v3)
    exact (Function.update_self (Proc.devRef .tc main_v3 : DevRef τ sig) (o0 m c) (Gen.V1 m c)).symm

theorem hrest0 (c : Dev nD) : ∀ b, b ∉ Finset.univ.image (Pipeline.arrRef spec0) → B2 m c b = r1 m c b :=
  fun b hb => Function.update_of_ne (StableHlo.devRef_ne_of_ne (fun e => hb (Finset.mem_image.mpr ⟨3, Finset.mem_univ _, e.symm⟩))) _ _

theorem hF1 (c : Dev nD) (w : Fin cfg1.W) : (pdats m 1 c).arrAt w cfg1.N = B4 m c (Pipeline.arrRef spec1 w) := by
  match w with
  | ⟨0, _⟩ => exact (((pdats m 1 c).arrAt_in 0 rfl _).trans (Rg1.A_eq (r3 m) c 0)).trans (upd_ne _ main_v36 main_v32 _ (by decide))
  | ⟨1, _⟩ => exact (((pdats m 1 c).arrAt_in 1 rfl _).trans (Rg1.A_eq (r3 m) c 1)).trans (upd_ne _ main_v36 main_v34 _ (by decide))
  | ⟨2, _⟩ => exact (((pdats m 1 c).arrAt_in 2 rfl _).trans (Rg1.A_eq (r3 m) c 2)).trans (upd_ne _ main_v36 main_v35 _ (by decide))
  | ⟨3, _⟩ =>
    show o1 m c = Function.update (B3 m c) (Proc.devRef .tc main_v36 : DevRef τ sig) (o1 m c) (Proc.devRef .tc main_v36)
    exact (Function.update_self (Proc.devRef .tc main_v36 : DevRef τ sig) (o1 m c) (B3 m c)).symm

theorem hrest1 (c : Dev nD) : ∀ b, b ∉ Finset.univ.image (Pipeline.arrRef spec1) → B4 m c b = r3 m c b :=
  fun b hb => Function.update_of_ne (StableHlo.devRef_ne_of_ne (fun e => hb (Finset.mem_image.mpr ⟨3, Finset.mem_univ _, e.symm⟩))) _ _

theorem hF2 (c : Dev nD) (w : Fin cfg2.W) : (pdats m 2 c).arrAt w cfg2.N = B6 m c (Pipeline.arrRef spec2 w) := by
  match w with
  | ⟨0, _⟩ => exact (((pdats m 2 c).arrAt_in 0 rfl _).trans (Rg2.A_eq (r5 m) c 0)).trans (upd_ne _ main_v40 main_v32 _ (by decide))
  | ⟨1, _⟩ => exact (((pdats m 2 c).arrAt_in 1 rfl _).trans (Rg2.A_eq (r5 m) c 1)).trans (upd_ne _ main_v40 main_v38 _ (by decide))
  | ⟨2, _⟩ => exact (((pdats m 2 c).arrAt_in 2 rfl _).trans (Rg2.A_eq (r5 m) c 2)).trans (upd_ne _ main_v40 main_v39 _ (by decide))
  | ⟨3, _⟩ =>
    show o2 m c = Function.update (B5 m c) (Proc.devRef .tc main_v40 : DevRef τ sig) (o2 m c) (Proc.devRef .tc main_v40)
    exact (Function.update_self (Proc.devRef .tc main_v40 : DevRef τ sig) (o2 m c) (B5 m c)).symm

theorem hrest2 (c : Dev nD) : ∀ b, b ∉ Finset.univ.image (Pipeline.arrRef spec2) → B6 m c b = r5 m c b :=
  fun b hb => Function.update_of_ne (StableHlo.devRef_ne_of_ne (fun e => hb (Finset.mem_image.mpr ⟨3, Finset.mem_univ _, e.symm⟩))) _ _

theorem hF3 (c : Dev nD) (w : Fin cfg3.W) : (pdats m 3 c).arrAt w cfg3.N = B12 m c (Pipeline.arrRef spec3 w) := by
  match w with
  | ⟨0, _⟩ => exact (((pdats m 3 c).arrAt_in 0 rfl _).trans (Rg3.A_eq (r11 m) c 0)).trans (upd_ne _ main_v46 main_v32 _ (by decide))
  | ⟨1, _⟩ => exact (((pdats m 3 c).arrAt_in 1 rfl _).trans (Rg3.A_eq (r11 m) c 1)).trans (upd_ne _ main_v46 main_v45 _ (by decide))
  | ⟨2, _⟩ => exact (((pdats m 3 c).arrAt_in 2 rfl _).trans (Rg3.A_eq (r11 m) c 2)).trans (upd_ne _ main_v46 main_v44 _ (by decide))
  | ⟨3, _⟩ =>
    show o3 m c = Function.update (B11 m c) (Proc.devRef .tc main_v46 : DevRef τ sig) (o3 m c) (Proc.devRef .tc main_v46)
    exact (Function.update_self (Proc.devRef .tc main_v46 : DevRef τ sig) (o3 m c) (B11 m c)).symm

theorem hrest3 (c : Dev nD) : ∀ b, b ∉ Finset.univ.image (Pipeline.arrRef spec3) → B12 m c b = r11 m c b :=
  fun b hb => Function.update_of_ne (StableHlo.devRef_ne_of_ne (fun e => hb (Finset.mem_image.mpr ⟨3, Finset.mem_univ _, e.symm⟩))) _ _

-- One region of the program: entered at the valuation `Win`, left at `Wout`, which differs from `Win` at the region's arrays only.
set_option backward.isDefEq.respectTransparency.types false in
def mkReg (p : Fin 4) (launch : Pipeline.LaunchFacts (nD := nD) (τ := τ) cfgs p) (Win Wout : Dev nD → Valuation τ sig (Elt F))
    (hbody : ∀ c, BodyObligation (pdats m p c) (defs₀ (F := F)) 𝒱₀ () Set.univ)
    (hq : ∀ c w, (pdats m p c).q w = fullShare) (howed : ∀ c w, (pdats m p c).owed w = 0)
    (hrec : ∀ c t, (pdats m p c).recorded t = Set.univ)
    (hA : ∀ c w, (pdats m p c).A w = Win c (Pipeline.arrRef (cfgs p).spec w))
    (hin : ∀ c, iprop((∃ r, prngReg c r) ∗ Pipeline.scopedRest (Ix := Unit) (Name := ℕ) (U := UR sig nD τ) (Lvl := ℕ) (Val := Elt F) (cfgs p).spec c) ⊢ (pdats m p c).Φ 0)
    (hout : ∀ c, (pdats m p c).Φ (Fin.last (cfgs p).N) ⊢ iprop((∃ r, prngReg c r) ∗ Pipeline.scopedRest (Ix := Unit) (Name := ℕ) (U := UR sig nD τ) (Lvl := ℕ) (Val := Elt F) (cfgs p).spec c))
    (hF : ∀ c w, (pdats m p c).arrAt w (cfgs p).N = Wout c (Pipeline.arrRef (cfgs p).spec w))
    (hrest : ∀ c (b : Ref sig .tc), b ∉ Finset.univ.image (Pipeline.arrRef (cfgs p).spec) → Wout c b = Win c b) :
    Pipeline.RegionSeg (pcfgs (F := F)) Gen.adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) Gen.adm (pdats m) launch.win launch.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; exact Set.mem_univ _)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H' := (hout c) $$ H
    icases H' with ⟨Hp, Hr⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      launch.win launch.arr_whole c (pdats m) ((pdats m p c).share_full (hq c))
      (fun b => Win c b) (fun b => Wout c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 := mkReg m 0 launch0 (Gen.V1 m) (B2 m) (Rg0.body_obligation (r1 m)) (fun _ _ => rfl) (fun _ _ => rfl)
  (fun _ _ => rfl) (fun _ _ => rfl) (Rg0.phi_in (r1 m)) (Rg0.phi_out (r1 m)) (hF0 m) (hrest0 m)
def reg1 := mkReg m 1 launch1 (B3 m) (B4 m) (Rg1.body_obligation (r3 m)) (fun _ _ => rfl) (fun _ _ => rfl)
  (fun _ _ => rfl) (fun _ _ => rfl) (Rg1.phi_in (r3 m)) (Rg1.phi_out (r3 m)) (hF1 m) (hrest1 m)
def reg2 := mkReg m 2 launch2 (B5 m) (B6 m) (Rg2.body_obligation (r5 m)) (fun _ _ => rfl) (fun _ _ => rfl)
  (fun _ _ => rfl) (fun _ _ => rfl) (Rg2.phi_in (r5 m)) (Rg2.phi_out (r5 m)) (hF2 m) (hrest2 m)
def reg3 := mkReg m 3 launch3 (B11 m) (B12 m) (Rg3.body_obligation (r11 m)) (fun _ _ => rfl) (fun _ _ => rfl)
  (fun _ _ => rfl) (fun _ _ => rfl) (Rg3.phi_in (r11 m)) (Rg3.phi_out (r11 m)) (hF3 m) (hrest3 m)

abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE4 (c : Dev nD) : R (F := F) c ⊢ (iprop(∃ W, owes (c : Thread nD τ) (0 : CellTallies nD τ sig Unit) W) : sProp 𝕄) := by
  iintro ⟨-, H⟩; iexact H

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m emb₁ () 𝒱₀ L lv (fun _ _ => rfl) ρ (outs m) (pdats m) 0 (fun _ => (BI.emp : sProp 𝕄)) u₀ (hu₀ (F := F))
    (fun _ c => R c) (hE0 (F := F) ρ) (hE4 (F := F))
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V11_eq]; exact .rfl) (fun c => by rw [V12_eq]; exact .rfl)

end Cert.Kernel.Chain

end
-- ==== Proof.Region0Runs.lean ====
import proofs.«136604_j21827023798522_1_alg».proof.Proof.Gen.KernelIdeal.Launch
import proofs.«136604_j21827023798522_1_alg».proof.Proof.Gen.KernelIdeal.Skeleton
import proofs.«136604_j21827023798522_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Rg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_in_of0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in_of1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in_of2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev condF (i : grid0.Coords) : Prop := (Scalar.cmpi .ne (Scalar.extui (Scalar.cmpi .eq (BitVec.ofNat 32 (i 2).val) 0#32)) 0#32) = 1#1
theorem hcondF : ∀ t : Fin cfg0.N, condF (grid0.coords t) ↔ t.val % 4 = 0 :=
  (by decide +kernel : ∀ t : Fin grid0.N, _)

abbrev condL (i : grid0.Coords) : Prop := k0_cond2 i = 1#1
theorem hcondL : ∀ t : Fin cfg0.N, condL (grid0.coords t) ↔ t.val % 4 = 3 :=
  (by decide +kernel : ∀ t : Fin grid0.N, _)

theorem idle3_of : ∀ t : Fin cfg0.N, ¬condL (grid0.coords t) → cfg0.idle 3 (grid0.coords t) = true := by decide +kernel
theorem noFlush3_of : ∀ t : Fin cfg0.N, ¬condL (grid0.coords t) → (cfg0.win 3).flush t = false := by decide +kernel
theorem live3_of : ∀ t : Fin cfg0.N, condL (grid0.coords t) → cfg0.idle 3 (grid0.coords t) = false := by decide +kernel
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)

abbrev scM : Memref sig .tc .vmem S1024x1024 .f32 := Memref.whole cc0_scratch0
abbrev VS : View sig .tc .vmem S1024x1024 .f32 := (scM).view
abbrev VO : View sig .tc .vmem S1024x1024 .f32 := (Memref.whole cc0_stg3_0 : Memref sig .tc .vmem S1024x1024 .f32).view

variable (c : Dev nD) (i : grid0.Coords) (arg3 : Memref sig .tc .vmem S1024x2048 .bf16) (harg3 : arg3.IsWhole)
  (arg4 : Memref sig .tc .vmem S2048x1024 .bf16) (harg4 : arg4.IsWhole) (arg5 : Memref sig .tc .vmem S1x1024 .f32) (harg5 : arg5.IsWhole)
  (arg6 : Memref sig .tc .vmem S1024x1024 .f32) (harg6 : arg6.IsWhole) (arg7 : Memref sig .tc .vmem S1024x1024 .f32) (harg7 : arg7.IsWhole)

-- First depth tile: the accumulator restarts at zero and takes the product of the two operand tiles.
set_option maxHeartbeats 4000000 in
noncomputable def runA (hF : condF i) (hL : ¬condL i) (x0 : Vec F S1024x2048 .bf16) (x1 : Vec F S2048x1024 .bf16) :
    { LS : List (View.Piece (Elt F) S1024x1024 .f32) //
      ∀ (x2 : Vec F S1x1024 .f32) (x3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg3 harg3 arg4 harg4 arg5 harg5 arg6 harg6 arg7 harg7) K } := by
  refine ⟨?_, fun x2 x3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

-- Middle depth tiles: the product of the two operand tiles is added to the accumulator.
set_option maxHeartbeats 4000000 in
noncomputable def runB (hF : ¬condF i) (hL : ¬condL i) (x0 : Vec F S1024x2048 .bf16) (x1 : Vec F S2048x1024 .bf16) (xs : Vec F S1024x1024 .f32) :
    { LS : List (View.Piece (Elt F) S1024x1024 .f32) //
      ∀ (x2 : Vec F S1x1024 .f32) (x3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg3 harg3 arg4 harg4 arg5 harg5 arg6 harg6 arg7 harg7) K } := by
  refine ⟨?_, fun x2 x3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

-- Last depth tile: the product is added to the accumulator, and the output tile is made from it and the bias row.
set_option maxHeartbeats 4000000 in
noncomputable def runC (hF : ¬condF i) (hL : condL i) (x0 : Vec F S1024x2048 .bf16) (x1 : Vec F S2048x1024 .bf16) (x2 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Rg0

end
-- ==== Proof.Region0Data.lean ====
import proofs.«136604_j21827023798522_1_alg».proof.Proof.Region0Runs

set_option maxRecDepth 16384

noncomputable section

namespace Cert.KernelIdeal.Rg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces

variable (c : Dev nD) (i : grid0.Coords) (arg3 : Memref sig .tc .vmem S1024x2048 .bf16) (harg3 : arg3.IsWhole)
  (arg4 : Memref sig .tc .vmem S2048x1024 .bf16) (harg4 : arg4.IsWhole) (arg5 : Memref sig .tc .vmem S1x1024 .f32) (harg5 : arg5.IsWhole)
  (arg6 : Memref sig .tc .vmem S1024x1024 .f32) (harg6 : arg6.IsWhole) (arg7 : Memref sig .tc .vmem S1024x1024 .f32) (harg7 : arg7.IsWhole)

theorem scoverA (hF : condF i) (hL : ¬condL i) (x0 : Vec F S1024x2048 .bf16) (x1 : Vec F S2048x1024 .bf16) (y : S1024x1024.Idx) :
    ∃ pc ∈ (runA c i arg3 harg3 arg4 harg4 arg5 harg5 arg6 harg6 arg7 harg7 hF hL x0 x1).1, y ∈ pc.1.set :=
  View.cover_of_tiledL _ S1024x1024.size (by sl_kernel_rfl) y

def accA (hF : condF i) (hL : ¬condL i) (x0 : Vec F S1024x2048 .bf16) (x1 : Vec F S2048x1024 .bf16) : Vec F S1024x1024 .f32 :=
  VS.read (Elt F) (VS.writes (Elt F) VS.junk (runA c i arg3 harg3 arg4 harg4 arg5 harg5 arg6 harg6 arg7 harg7 hF hL x0 x1).1)

theorem scoverB (hF : ¬condF i) (hL : ¬condL i) (x0 : Vec F S1024x2048 .bf16) (x1 : Vec F S2048x1024 .bf16) (xs : Vec F S1024x1024 .f32) (y : S1024x1024.Idx) :
    ∃ pc ∈ (runB c i arg3 harg3 arg4 harg4 arg5 harg5 arg6 harg6 arg7 harg7 hF hL x0 x1 xs).1, y ∈ pc.1.set :=
  View.cover_of_tiledL _ S1024x1024.size (by sl_kernel_rfl) y

def accB (hF : ¬condF i) (hL : ¬condL i) (x0 : Vec F S1024x2048 .bf16) (x1 : Vec F S2048x1024 .bf16) (xs : Vec F S1024x1024 .f32) : Vec F S1024x1024 .f32 :=
  VS.read (Elt F) (VS.writes (Elt F) VS.junk (runB c i arg3 harg3 arg4 harg4 arg5 harg5 arg6 harg6 arg7 harg7 hF hL x0 x1 xs).1)

variable (hF : ¬condF i) (hL : condL i) (x0 : Vec F S1024x2048 .bf16) (x1 : Vec F S2048x1024 .bf16) (x2 : Vec F S1x1024 .f32) (xs : Vec F S1024x1024 .f32)

theorem coverC (y : S1024x1024.Idx) : ∃ pc ∈ (runC c i arg3 harg3 arg4 harg4 arg5 harg5 arg6 harg6 arg7 harg7 hF hL x0 x1 x2 xs).1, y ∈ pc.1.set :=
  View.cover_of_tiledL _ S1024x1024.size (by sl_kernel_rfl) y

def outC : Vec F S1024x1024 .f32 :=
  VO.read (Elt F) (VO.writes (Elt F) VO.junk (runC c i arg3 harg3 arg4 harg4 arg5 harg5 arg6 harg6 arg7 harg7 hF hL x0 x1 x2 xs).1)

theorem scoverC (y : S1024x1024.Idx) : ∃ pc ∈ (runC c i arg3 harg3 arg4 harg4 arg5 harg5 arg6 harg6 arg7 harg7 hF hL x0 x1 x2 xs).2.1, y ∈ pc.1.set :=
  View.cover_of_tiledL _ S1024x1024.size (by sl_kernel_rfl) y

def accC : Vec F S1024x1024 .f32 :=
  VS.read (Elt F) (VS.writes (Elt F) VS.junk (runC c i arg3 harg3 arg4 harg4 arg5 harg5 arg6 harg6 arg7 harg7 hF hL x0 x1 x2 xs).2.1)

end Pieces

def restO : Vec F S1024x1024 .f32 := VO.read (Elt F) VO.junk

section Point

variable (c : Dev nD) (t : Fin cfg0.N)

def aA (h0 : t.val % 4 = 0) : Vec F S1024x1024 .f32 :=
  accA c (grid0.coords t) (ms0 t) (hs0 t) (ms1 t) (hs1 t) (ms2 t) (hs2 t) (ms3 t) (hs3 t) scM (Memref.isWhole_whole _) ((hcondF t).mpr h0) (fun h => absurd ((hcondL t).mp h) (by omega)) (iblk V c 0 t) (iblk V c 1 t)

def aB (h0 : ¬t.val % 4 = 0) (h1 : ¬t.val % 4 = 3) (xs : Vec F S1024x1024 .f32) : Vec F S1024x1024 .f32 :=
  accB c (grid0.coords t) (ms0 t) (hs0 t) (ms1 t) (hs1 t) (ms2 t) (hs2 t) (ms3 t) (hs3 t) scM (Memref.isWhole_whole _) (fun h => h0 ((hcondF t).mp h)) (fun h => h1 ((hcondL t).mp h)) (iblk V c 0 t) (iblk V c 1 t) xs

def oC (h0 : ¬t.val % 4 = 0) (h1 : t.val % 4 = 3) (xs : Vec F S1024x1024 .f32) : Vec F S1024x1024 .f32 :=
  outC c (grid0.coords t) (ms0 t) (hs0 t) (ms1 t) (hs1 t) (ms2 t) (hs2 t) (ms3 t) (hs3 t) scM (Memref.isWhole_whole _) (fun h => h0 ((hcondF t).mp h)) ((hcondL t).mpr h1) (iblk V c 0 t) (iblk V c 1 t) (iblk V c 2 t) xs

def aC (h0 : ¬t.val % 4 = 0) (h1 : t.val % 4 = 3) (xs : Vec F S1024x1024 .f32) : Vec F S1024x1024 .f32 :=
  accC c (grid0.coords t) (ms0 t) (hs0 t) (ms1 t) (hs1 t) (ms2 t) (hs2 t) (ms3 t) (hs3 t) scM (Memref.isWhole_whole _) (fun h => h0 ((hcondF t).mp h)) ((hcondL t).mpr h1) (iblk V c 0 t) (iblk V c 1 t) (iblk V c 2 t) xs

end Point

-- The output tile and the accumulator after each point: depth 0 restarts the sum, later depths add to what the point before left.
def outsAt (c : Dev nD) : (n : ℕ) → n < cfg0.N → Vec F S1024x1024 .f32 × Vec F S1024x1024 .f32
  | 0, hn => (restO, aA V c ⟨0, hn⟩ (Nat.zero_mod _))
  | n + 1, hn =>
    if h0 : (n + 1) % 4 = 0 then (restO, aA V c ⟨n + 1, hn⟩ h0)
    else if h1 : (n + 1) % 4 = 3 then
      (oC V c ⟨n + 1, hn⟩ h0 h1 (outsAt c n (Nat.lt_of_succ_lt hn)).2, aC V c ⟨n + 1, hn⟩ h0 h1 (outsAt c n (Nat.lt_of_succ_lt hn)).2)
    else (restO, aB V c ⟨n + 1, hn⟩ h0 h1 (outsAt c n (Nat.lt_of_succ_lt hn)).2)

theorem outsAt_A (c : Dev nD) (t : Fin cfg0.N) (h0 : t.val % 4 = 0) : outsAt V c t.val t.isLt = (restO, aA V c t h0) := by
  obtain ⟨n, hn⟩ := t
  cases n with
  | zero => exact rfl
  | succ n => exact (dif_pos h0).trans rfl

theorem outsAt_B (c : Dev nD) (t : Fin cfg0.N) (h0 : ¬t.val % 4 = 0) (h1 : ¬t.val % 4 = 3) :
    outsAt V c t.val t.isLt = (restO, aB V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt_C (c : Dev nD) (t : Fin cfg0.N) (h0 : ¬t.val % 4 = 0) (h1 : t.val % 4 = 3) :
    outsAt V c t.val t.isLt = (oC V c t h0 h1 (outsAt V c (t.val - 1) (Nat.lt_of_le_of_lt (Nat.sub_le _ _) t.isLt)).2,
      aC V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

abbrev Rest (c : Dev nD) : sProp 𝕄 :=
  iprop(Pipeline.scopedRestBut (Ix := Unit) (Name := ℕ) (U := UR sig nD τ) (Lvl := ℕ) (Val := Elt F) spec0 c [cc0_scratch0] ∗ (∃ r, prngReg c r))

def PhiS (c : Dev nD) : (n : ℕ) → n ≤ cfg0.N → sProp 𝕄
  | 0, _ => iprop((∃ d, owns (c : Thread nD τ) scM fullShare d) ∗ Rest (F := F) c)
  | n + 1, hn => iprop(owns (c : Thread nD τ) scM fullShare ((outsAt V c n hn).2) ∗ Rest (F := F) c)

theorem PhiS_zero (c : Dev nD) (n : ℕ) (h : n ≤ cfg0.N) (hz : n = 0) :
    PhiS V c n h = iprop((∃ d, owns (c : Thread nD τ) scM fullShare d) ∗ Rest (F := F) c) := by
  subst hz; rfl

theorem PhiS_succ (c : Dev nD) (n : ℕ) (hn : n < cfg0.N) :
    PhiS V c (n + 1) hn = iprop(owns (c : Thread nD τ) scM fullShare ((outsAt V c n hn).2) ∗ Rest (F := F) c) := rfl

theorem PhiS_pos (c : Dev nD) (n : ℕ) (h : n ≤ cfg0.N) (hz : n ≠ 0) :
    PhiS V c n h = iprop(owns (c : Thread nD τ) scM fullShare ((outsAt V c (n - 1) (by omega)).2) ∗ Rest (F := F) c) := by
  cases n with
  | zero => exact absurd rfl hz
  | succ n => rfl

-- Whatever the accumulator holds, it holds something: enough where the sum restarts.
theorem PhiS_forget (c : Dev nD) (n : ℕ) (h : n ≤ cfg0.N) :
    PhiS V c n h ⊢ iprop((∃ d, owns (c : Thread nD τ) scM fullShare d) ∗ Rest (F := F) c) := by
  cases n with
  | zero => exact .rfl
  | succ n =>
    rw [PhiS_succ]
    iintro ⟨HS, HR⟩
    isplitl [HS]; · iexists _; iexact HS
    iexact HR

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]

theorem before_0 (c : Dev nD) (t : Fin cfg0.N) (d) : (dat V c).before 0 t d = iblk V c 0 t :=
  before_in_of0 V (dat V c) (A_eq V c 0) (after_0 V c) t d
theorem before_1 (c : Dev nD) (t : Fin cfg0.N) (d) : (dat V c).before 1 t d = iblk V c 1 t :=
  before_in_of1 V (dat V c) (A_eq V c 1) (after_1 V c) t d
theorem before_2 (c : Dev nD) (t : Fin cfg0.N) (d) : (dat V c).before 2 t d = iblk V c 2 t :=
  before_in_of2 V (dat V c) (A_eq V c 2) (after_2 V c) t d

end Cert.KernelIdeal.Rg0

end
-- ==== Proof.Region0Body.lean ====
import proofs.«136604_j21827023798522_1_alg».proof.Proof.Region0Data

set_option maxRecDepth 16384

noncomputable section

namespace Cert.KernelIdeal.Rg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_0 (c : Dev nD) (t : Fin cfg0.N) :
    (dat V c).leavesExact 0 t = owns (c : Thread nD τ) (ms0 t) fullShare (iblk V c 0 t) := by
  unfold Dat.leavesExact; rw [live0 t, after_0]
theorem leaves_1 (c : Dev nD) (t : Fin cfg0.N) :
    (dat V c).leavesExact 1 t = owns (c : Thread nD τ) (ms1 t) fullShare (iblk V c 1 t) := by
  unfold Dat.leavesExact; rw [live1 t, after_1]
theorem leaves_2 (c : Dev nD) (t : Fin cfg0.N) :
    (dat V c).leavesExact 2 t = owns (c : Thread nD τ) (ms2 t) fullShare (iblk V c 2 t) := by
  unfold Dat.leavesExact; rw [live2 t, after_2]

-- At every point the body leaves what `outsAt` says, by the point's depth tile.
set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 256 := lt_of_lt_of_eq t.isLt (show cfg0.N = 256 from N_0)
  by_cases h0 : t.val % 4 = 0
  · have h1 : ¬t.val % 4 = 3 := by omega
    rw [Dat.leavesExact_idle (dat V c) 3 t (idle3_of t (fun h => h1 ((hcondL t).mp h))) (noFlush3_of t (fun h => h1 ((hcondL t).mp h)))]
    rw [outsAt_A V c t h0]
    unfold aA accA; (try dsimp only)
    rw [PhiS_castSucc V c t]
    iintro ⟨HP, Ho, ⟨%d0, H0⟩, ⟨%d1, H1⟩, ⟨%d2, H2⟩, ⟨%d3, H3⟩⟩
    ihave HP' := (PhiS_forget V c _ _) $$ HP
    icases HP' with ⟨HS, HR⟩
    iapply ((runA c (grid0.coords t) _ _ _ _ _ _ _ _ _ _ ((hcondF t).mpr h0) (fun h => absurd ((hcondL t).mp h) (by omega)) (iblk V c 0 t) (iblk V c 1 t)).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS HR]
    · isplitl [HS]
      · unfold owns; iexists _; isplitr
        swap; · iexact HS
        ipureintro; exact View.read_writes_of_cover _ _ _ _ _ (scoverA c _ _ _ _ _ _ _ _ _ _ _ _ _ _ _)
      iexact HR
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 4 = 3
    · rw [show (dat V c).leavesExact 3 t = owns (c : Thread nD τ) (ms3 t) fullShare ((dat V c).after 3 t) from by
        unfold Dat.leavesExact; rw [live3_of t ((hcondL t).mpr h1)], after_3]
      rw [outsAt_C V c t h0 h1]
      unfold oC aC outC accC; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((runC c (grid0.coords t) _ _ _ _ _ _ _ _ _ _ (fun h => h0 ((hcondF t).mp h)) ((hcondL t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR]
      · isplitl [HS]
        · unfold owns; iexists _; isplitr
          swap; · iexact HS
          ipureintro; exact View.read_writes_of_cover _ _ _ _ _ (scoverC c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _ _)
    · rw [Dat.leavesExact_idle (dat V c) 3 t (idle3_of t (fun h => h1 ((hcondL t).mp h))) (noFlush3_of t (fun h => h1 ((hcondL t).mp h)))]
      rw [outsAt_B V c t h0 h1]
      unfold aB accB; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((runB c (grid0.coords t) _ _ _ _ _ _ _ _ _ _ (fun h => h0 ((hcondF t).mp h)) (fun h => h1 ((hcondL t).mp h)) (iblk V c 0 t) (iblk V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR]
      · isplitl [HS]
        · unfold owns; iexists _; isplitr
          swap; · iexact HS
          ipureintro; exact View.read_writes_of_cover _ _ _ _ _ (scoverB c _ _ _ _ _ _ _ _ _ _ _ _ _ _ _ _)
        iexact HR
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W0, bigSep_W0]
  exact sound_body V c t

theorem phi_in (c : Dev nD) :
    iprop((∃ r, prngReg c r) ∗ Pipeline.scopedRest (Ix := Unit) (Name := ℕ) (U := UR sig nD τ) (Lvl := ℕ) (Val := Elt F) spec0 c) ⊢ (dat V c).Φ 0 := by
  rw [show (dat V c).Φ 0 = PhiS V c 0 (Nat.zero_le _) from rfl, PhiS_zero V c 0 _ rfl, scopedRest0_split]
  simp only [scM, owns_whole]
  iintro ⟨Hp, HS, HR⟩
  isplitl [HS]; · iexact HS
  isplitl [HR]; · iexact HR
  iexact Hp

theorem phi_out (c : Dev nD) :
    (dat V c).Φ (Fin.last cfg0.N) ⊢ iprop((∃ r, prngReg c r) ∗ Pipeline.scopedRest (Ix := Unit) (Name := ℕ) (U := UR sig nD τ) (Lvl := ℕ) (Val := Elt F) spec0 c) := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 256 := N_0; omega), scopedRest0_split]
  simp only [scM, owns_whole]
  iintro ⟨HS, HR, Hp⟩
  isplitl [Hp]; · iexact Hp
  isplitl [HS]; · iexists _; iexact HS
  iexact HR

end Cert.KernelIdeal.Rg0

end
-- ==== Proof.Region1Runs.lean ====
import proofs.«136604_j21827023798522_1_alg».proof.Proof.Gen.KernelIdeal.Launch
import proofs.«136604_j21827023798522_1_alg».proof.Proof.Gen.KernelIdeal.Skeleton
import proofs.«136604_j21827023798522_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Rg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in_of0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in_of1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in_of2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev condF (i : grid1.Coords) : Prop := (Scalar.cmpi .ne (Scalar.extui (Scalar.cmpi .eq (BitVec.ofNat 32 (i 2).val) 0#32)) 0#32) = 1#1
theorem hcondF : ∀ t : Fin cfg1.N, condF (grid1.coords t) ↔ t.val % 4 = 0 :=
  (by decide +kernel : ∀ t : Fin grid1.N, _)

abbrev condL (i : grid1.Coords) : Prop := k1_cond2 i = 1#1
theorem hcondL : ∀ t : Fin cfg1.N, condL (grid1.coords t) ↔ t.val % 4 = 3 :=
  (by decide +kernel : ∀ t : Fin grid1.N, _)

theorem idle3_of : ∀ t : Fin cfg1.N, ¬condL (grid1.coords t) → cfg1.idle 3 (grid1.coords t) = true := by decide +kernel
theorem noFlush3_of : ∀ t : Fin cfg1.N, ¬condL (grid1.coords t) → (cfg1.win 3).flush t = false := by decide +kernel
theorem live3_of : ∀ t : Fin cfg1.N, condL (grid1.coords t) → cfg1.idle 3 (grid1.coords t) = false := by decide +kernel
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel

abbrev ms0 (t : Fin cfg1.N) : Memref sig .tc .vmem S1024x2048 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x256 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x256 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x256 .f32 := win1_3.stage (cfg1.slots t 3)
abbrev hs3 (t : Fin cfg1.N) : (ms3 t).IsWhole := hstage1_3 ((cfg1.slots t 3).cast nbuf1_3)

abbrev scM : Memref sig .tc .vmem S1024x256 .f32 := Memref.whole cc1_scratch0
abbrev VS : View sig .tc .vmem S1024x256 .f32 := (scM).view
abbrev VO : View sig .tc .vmem S1024x256 .f32 := (Memref.whole cc1_stg3_0 : Memref sig .tc .vmem S1024x256 .f32).view

variable (c : Dev nD) (i : grid1.Coords) (arg3 : Memref sig .tc .vmem S1024x2048 .bf16) (harg3 : arg3.IsWhole)
  (arg4 : Memref sig .tc .vmem S2048x256 .bf16) (harg4 : arg4.IsWhole) (arg5 : Memref sig .tc .vmem S1x256 .f32) (harg5 : arg5.IsWhole)
  (arg6 : Memref sig .tc .vmem S1024x256 .f32) (harg6 : arg6.IsWhole) (arg7 : Memref sig .tc .vmem S1024x256 .f32) (harg7 : arg7.IsWhole)

-- First depth tile: the accumulator restarts at zero and takes the product of the two operand tiles.
set_option maxHeartbeats 4000000 in
noncomputable def runA (hF : condF i) (hL : ¬condL i) (x0 : Vec F S1024x2048 .bf16) (x1 : Vec F S2048x256 .bf16) :
    { LS : List (View.Piece (Elt F) S1024x256 .f32) //
      ∀ (x2 : Vec F S1x256 .f32) (x3 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg3 harg3 arg4 harg4 arg5 harg5 arg6 harg6 arg7 harg7) K } := by
  refine ⟨?_, fun x2 x3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

-- Middle depth tiles: the product of the two operand tiles is added to the accumulator.
set_option maxHeartbeats 4000000 in
noncomputable def runB (hF : ¬condF i) (hL : ¬condL i) (x0 : Vec F S1024x2048 .bf16) (x1 : Vec F S2048x256 .bf16) (xs : Vec F S1024x256 .f32) :
    { LS : List (View.Piece (Elt F) S1024x256 .f32) //
      ∀ (x2 : Vec F S1x256 .f32) (x3 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg3 harg3 arg4 harg4 arg5 harg5 arg6 harg6 arg7 harg7) K } := by
  refine ⟨?_, fun x2 x3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

-- Last depth tile: the product is added to the accumulator, and the output tile is made from it and the bias row.
set_option maxHeartbeats 4000000 in
noncomputable def runC (hF : ¬condF i) (hL : condL i) (x0 : Vec F S1024x2048 .bf16) (x1 : Vec F S2048x256 .bf16) (x2 : Vec F S1x256 .f32) (xs : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg3 harg3 arg4 harg4 arg5 harg5 arg6 harg6 arg7 harg7) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Rg1

end
-- ==== Proof.Region1Data.lean ====
import proofs.«136604_j21827023798522_1_alg».proof.Proof.Region1Runs

set_option maxRecDepth 16384

noncomputable section

namespace Cert.KernelIdeal.Rg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces

variable (c : Dev nD) (i : grid1.Coords) (arg3 : Memref sig .tc .vmem S1024x2048 .bf16) (harg3 : arg3.IsWhole)
  (arg4 : Memref sig .tc .vmem S2048x256 .bf16) (harg4 : arg4.IsWhole) (arg5 : Memref sig .tc .vmem S1x256 .f32) (harg5 : arg5.IsWhole)
  (arg6 : Memref sig .tc .vmem S1024x256 .f32) (harg6 : arg6.IsWhole) (arg7 : Memref sig .tc .vmem S1024x256 .f32) (harg7 : arg7.IsWhole)

theorem scoverA (hF : condF i) (hL : ¬condL i) (x0 : Vec F S1024x2048 .bf16) (x1 : Vec F S2048x256 .bf16) (y : S1024x256.Idx) :
    ∃ pc ∈ (runA c i arg3 harg3 arg4 harg4 arg5 harg5 arg6 harg6 arg7 harg7 hF hL x0 x1).1, y ∈ pc.1.set :=
  View.cover_of_tiledL _ S1024x256.size (by sl_kernel_rfl) y

def accA (hF : condF i) (hL : ¬condL i) (x0 : Vec F S1024x2048 .bf16) (x1 : Vec F S2048x256 .bf16) : Vec F S1024x256 .f32 :=
  VS.read (Elt F) (VS.writes (Elt F) VS.junk (runA c i arg3 harg3 arg4 harg4 arg5 harg5 arg6 harg6 arg7 harg7 hF hL x0 x1).1)

theorem scoverB (hF : ¬condF i) (hL : ¬condL i) (x0 : Vec F S1024x2048 .bf16) (x1 : Vec F S2048x256 .bf16) (xs : Vec F S1024x256 .f32) (y : S1024x256.Idx) :
    ∃ pc ∈ (runB c i arg3 harg3 arg4 harg4 arg5 harg5 arg6 harg6 arg7 harg7 hF hL x0 x1 xs).1, y ∈ pc.1.set :=
  View.cover_of_tiledL _ S1024x256.size (by sl_kernel_rfl) y

def accB (hF : ¬condF i) (hL : ¬condL i) (x0 : Vec F S1024x2048 .bf16) (x1 : Vec F S2048x256 .bf16) (xs : Vec F S1024x256 .f32) : Vec F S1024x256 .f32 :=
  VS.read (Elt F) (VS.writes (Elt F) VS.junk (runB c i arg3 harg3 arg4 harg4 arg5 harg5 arg6 harg6 arg7 harg7 hF hL x0 x1 xs).1)

variable (hF : ¬condF i) (hL : condL i) (x0 : Vec F S1024x2048 .bf16) (x1 : Vec F S2048x256 .bf16) (x2 : Vec F S1x256 .f32) (xs : Vec F S1024x256 .f32)

theorem coverC (y : S1024x256.Idx) : ∃ pc ∈ (runC c i arg3 harg3 arg4 harg4 arg5 harg5 arg6 harg6 arg7 harg7 hF hL x0 x1 x2 xs).1, y ∈ pc.1.set :=
  View.cover_of_tiledL _ S1024x256.size (by sl_kernel_rfl) y

def outC : Vec F S1024x256 .f32 :=
  VO.read (Elt F) (VO.writes (Elt F) VO.junk (runC c i arg3 harg3 arg4 harg4 arg5 harg5 arg6 harg6 arg7 harg7 hF hL x0 x1 x2 xs).1)

theorem scoverC (y : S1024x256.Idx) : ∃ pc ∈ (runC c i arg3 harg3 arg4 harg4 arg5 harg5 arg6 harg6 arg7 harg7 hF hL x0 x1 x2 xs).2.1, y ∈ pc.1.set :=
  View.cover_of_tiledL _ S1024x256.size (by sl_kernel_rfl) y

def accC : Vec F S1024x256 .f32 :=
  VS.read (Elt F) (VS.writes (Elt F) VS.junk (runC c i arg3 harg3 arg4 harg4 arg5 harg5 arg6 harg6 arg7 harg7 hF hL x0 x1 x2 xs).2.1)

end Pieces

def restO : Vec F S1024x256 .f32 := VO.read (Elt F) VO.junk

section Point

variable (c : Dev nD) (t : Fin cfg1.N)

def aA (h0 : t.val % 4 = 0) : Vec F S1024x256 .f32 :=
  accA c (grid1.coords t) (ms0 t) (hs0 t) (ms1 t) (hs1 t) (ms2 t) (hs2 t) (ms3 t) (hs3 t) scM (Memref.isWhole_whole _) ((hcondF t).mpr h0) (fun h => absurd ((hcondL t).mp h) (by omega)) (iblk V c 0 t) (iblk V c 1 t)

def aB (h0 : ¬t.val % 4 = 0) (h1 : ¬t.val % 4 = 3) (xs : Vec F S1024x256 .f32) : Vec F S1024x256 .f32 :=
  accB c (grid1.coords t) (ms0 t) (hs0 t) (ms1 t) (hs1 t) (ms2 t) (hs2 t) (ms3 t) (hs3 t) scM (Memref.isWhole_whole _) (fun h => h0 ((hcondF t).mp h)) (fun h => h1 ((hcondL t).mp h)) (iblk V c 0 t) (iblk V c 1 t) xs

def oC (h0 : ¬t.val % 4 = 0) (h1 : t.val % 4 = 3) (xs : Vec F S1024x256 .f32) : Vec F S1024x256 .f32 :=
  outC c (grid1.coords t) (ms0 t) (hs0 t) (ms1 t) (hs1 t) (ms2 t) (hs2 t) (ms3 t) (hs3 t) scM (Memref.isWhole_whole _) (fun h => h0 ((hcondF t).mp h)) ((hcondL t).mpr h1) (iblk V c 0 t) (iblk V c 1 t) (iblk V c 2 t) xs

def aC (h0 : ¬t.val % 4 = 0) (h1 : t.val % 4 = 3) (xs : Vec F S1024x256 .f32) : Vec F S1024x256 .f32 :=
  accC c (grid1.coords t) (ms0 t) (hs0 t) (ms1 t) (hs1 t) (ms2 t) (hs2 t) (ms3 t) (hs3 t) scM (Memref.isWhole_whole _) (fun h => h0 ((hcondF t).mp h)) ((hcondL t).mpr h1) (iblk V c 0 t) (iblk V c 1 t) (iblk V c 2 t) xs

end Point

-- The output tile and the accumulator after each point: depth 0 restarts the sum, later depths add to what the point before left.
def outsAt (c : Dev nD) : (n : ℕ) → n < cfg1.N → Vec F S1024x256 .f32 × Vec F S1024x256 .f32
  | 0, hn => (restO, aA V c ⟨0, hn⟩ (Nat.zero_mod _))
  | n + 1, hn =>
    if h0 : (n + 1) % 4 = 0 then (restO, aA V c ⟨n + 1, hn⟩ h0)
    else if h1 : (n + 1) % 4 = 3 then
      (oC V c ⟨n + 1, hn⟩ h0 h1 (outsAt c n (Nat.lt_of_succ_lt hn)).2, aC V c ⟨n + 1, hn⟩ h0 h1 (outsAt c n (Nat.lt_of_succ_lt hn)).2)
    else (restO, aB V c ⟨n + 1, hn⟩ h0 h1 (outsAt c n (Nat.lt_of_succ_lt hn)).2)

theorem outsAt_A (c : Dev nD) (t : Fin cfg1.N) (h0 : t.val % 4 = 0) : outsAt V c t.val t.isLt = (restO, aA V c t h0) := by
  obtain ⟨n, hn⟩ := t
  cases n with
  | zero => exact rfl
  | succ n => exact (dif_pos h0).trans rfl

theorem outsAt_B (c : Dev nD) (t : Fin cfg1.N) (h0 : ¬t.val % 4 = 0) (h1 : ¬t.val % 4 = 3) :
    outsAt V c t.val t.isLt = (restO, aB V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt_C (c : Dev nD) (t : Fin cfg1.N) (h0 : ¬t.val % 4 = 0) (h1 : t.val % 4 = 3) :
    outsAt V c t.val t.isLt = (oC V c t h0 h1 (outsAt V c (t.val - 1) (Nat.lt_of_le_of_lt (Nat.sub_le _ _) t.isLt)).2,
      aC V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

abbrev Rest (c : Dev nD) : sProp 𝕄 :=
  iprop(Pipeline.scopedRestBut (Ix := Unit) (Name := ℕ) (U := UR sig nD τ) (Lvl := ℕ) (Val := Elt F) spec1 c [cc1_scratch0] ∗ (∃ r, prngReg c r))

def PhiS (c : Dev nD) : (n : ℕ) → n ≤ cfg1.N → sProp 𝕄
  | 0, _ => iprop((∃ d, owns (c : Thread nD τ) scM fullShare d) ∗ Rest (F := F) c)
  | n + 1, hn => iprop(owns (c : Thread nD τ) scM fullShare ((outsAt V c n hn).2) ∗ Rest (F := F) c)

theorem PhiS_zero (c : Dev nD) (n : ℕ) (h : n ≤ cfg1.N) (hz : n = 0) :
    PhiS V c n h = iprop((∃ d, owns (c : Thread nD τ) scM fullShare d) ∗ Rest (F := F) c) := by
  subst hz; rfl

theorem PhiS_succ (c : Dev nD) (n : ℕ) (hn : n < cfg1.N) :
    PhiS V c (n + 1) hn = iprop(owns (c : Thread nD τ) scM fullShare ((outsAt V c n hn).2) ∗ Rest (F := F) c) := rfl

theorem PhiS_pos (c : Dev nD) (n : ℕ) (h : n ≤ cfg1.N) (hz : n ≠ 0) :
    PhiS V c n h = iprop(owns (c : Thread nD τ) scM fullShare ((outsAt V c (n - 1) (by omega)).2) ∗ Rest (F := F) c) := by
  cases n with
  | zero => exact absurd rfl hz
  | succ n => rfl

-- Whatever the accumulator holds, it holds something: enough where the sum restarts.
theorem PhiS_forget (c : Dev nD) (n : ℕ) (h : n ≤ cfg1.N) :
    PhiS V c n h ⊢ iprop((∃ d, owns (c : Thread nD τ) scM fullShare d) ∗ Rest (F := F) c) := by
  cases n with
  | zero => exact .rfl
  | succ n =>
    rw [PhiS_succ]
    iintro ⟨HS, HR⟩
    isplitl [HS]; · iexists _; iexact HS
    iexact HR

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

theorem before_0 (c : Dev nD) (t : Fin cfg1.N) (d) : (dat V c).before 0 t d = iblk V c 0 t :=
  before_in_of0 V (dat V c) (A_eq V c 0) (after_0 V c) t d
theorem before_1 (c : Dev nD) (t : Fin cfg1.N) (d) : (dat V c).before 1 t d = iblk V c 1 t :=
  before_in_of1 V (dat V c) (A_eq V c 1) (after_1 V c) t d
theorem before_2 (c : Dev nD) (t : Fin cfg1.N) (d) : (dat V c).before 2 t d = iblk V c 2 t :=
  before_in_of2 V (dat V c) (A_eq V c 2) (after_2 V c) t d

end Cert.KernelIdeal.Rg1

end
-- ==== Proof.Region1Body.lean ====
import proofs.«136604_j21827023798522_1_alg».proof.Proof.Region1Data

set_option maxRecDepth 16384

noncomputable section

namespace Cert.KernelIdeal.Rg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_0 (c : Dev nD) (t : Fin cfg1.N) :
    (dat V c).leavesExact 0 t = owns (c : Thread nD τ) (ms0 t) fullShare (iblk V c 0 t) := by
  unfold Dat.leavesExact; rw [live0 t, after_0]
theorem leaves_1 (c : Dev nD) (t : Fin cfg1.N) :
    (dat V c).leavesExact 1 t = owns (c : Thread nD τ) (ms1 t) fullShare (iblk V c 1 t) := by
  unfold Dat.leavesExact; rw [live1 t, after_1]
theorem leaves_2 (c : Dev nD) (t : Fin cfg1.N) :
    (dat V c).leavesExact 2 t = owns (c : Thread nD τ) (ms2 t) fullShare (iblk V c 2 t) := by
  unfold Dat.leavesExact; rw [live2 t, after_2]

-- At every point the body leaves what `outsAt` says, by the point's depth tile.
set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 32 := lt_of_lt_of_eq t.isLt (show cfg1.N = 32 from N_1)
  by_cases h0 : t.val % 4 = 0
  · have h1 : ¬t.val % 4 = 3 := by omega
    rw [Dat.leavesExact_idle (dat V c) 3 t (idle3_of t (fun h => h1 ((hcondL t).mp h))) (noFlush3_of t (fun h => h1 ((hcondL t).mp h)))]
    rw [outsAt_A V c t h0]
    unfold aA accA; (try dsimp only)
    rw [PhiS_castSucc V c t]
    iintro ⟨HP, Ho, ⟨%d0, H0⟩, ⟨%d1, H1⟩, ⟨%d2, H2⟩, ⟨%d3, H3⟩⟩
    ihave HP' := (PhiS_forget V c _ _) $$ HP
    icases HP' with ⟨HS, HR⟩
    iapply ((runA c (grid1.coords t) _ _ _ _ _ _ _ _ _ _ ((hcondF t).mpr h0) (fun h => absurd ((hcondL t).mp h) (by omega)) (iblk V c 0 t) (iblk V c 1 t)).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS HR]
    · isplitl [HS]
      · unfold owns; iexists _; isplitr
        swap; · iexact HS
        ipureintro; exact View.read_writes_of_cover _ _ _ _ _ (scoverA c _ _ _ _ _ _ _ _ _ _ _ _ _ _ _)
      iexact HR
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 4 = 3
    · rw [show (dat V c).leavesExact 3 t = owns (c : Thread nD τ) (ms3 t) fullShare ((dat V c).after 3 t) from by
        unfold Dat.leavesExact; rw [live3_of t ((hcondL t).mpr h1)], after_3]
      rw [outsAt_C V c t h0 h1]
      unfold oC aC outC accC; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((runC c (grid1.coords t) _ _ _ _ _ _ _ _ _ _ (fun h => h0 ((hcondF t).mp h)) ((hcondL t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR]
      · isplitl [HS]
        · unfold owns; iexists _; isplitr
          swap; · iexact HS
          ipureintro; exact View.read_writes_of_cover _ _ _ _ _ (scoverC c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _ _)
    · rw [Dat.leavesExact_idle (dat V c) 3 t (idle3_of t (fun h => h1 ((hcondL t).mp h))) (noFlush3_of t (fun h => h1 ((hcondL t).mp h)))]
      rw [outsAt_B V c t h0 h1]
      unfold aB accB; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((runB c (grid1.coords t) _ _ _ _ _ _ _ _ _ _ (fun h => h0 ((hcondF t).mp h)) (fun h => h1 ((hcondL t).mp h)) (iblk V c 0 t) (iblk V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR]
      · isplitl [HS]
        · unfold owns; iexists _; isplitr
          swap; · iexact HS
          ipureintro; exact View.read_writes_of_cover _ _ _ _ _ (scoverB c _ _ _ _ _ _ _ _ _ _ _ _ _ _ _ _)
        iexact HR
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W1, bigSep_W1]
  exact sound_body V c t

theorem phi_in (c : Dev nD) :
    iprop((∃ r, prngReg c r) ∗ Pipeline.scopedRest (Ix := Unit) (Name := ℕ) (U := UR sig nD τ) (Lvl := ℕ) (Val := Elt F) spec1 c) ⊢ (dat V c).Φ 0 := by
  rw [show (dat V c).Φ 0 = PhiS V c 0 (Nat.zero_le _) from rfl, PhiS_zero V c 0 _ rfl, scopedRest1_split]
  simp only [scM, owns_whole]
  iintro ⟨Hp, HS, HR⟩
  isplitl [HS]; · iexact HS
  isplitl [HR]; · iexact HR
  iexact Hp

theorem phi_out (c : Dev nD) :
    (dat V c).Φ (Fin.last cfg1.N) ⊢ iprop((∃ r, prngReg c r) ∗ Pipeline.scopedRest (Ix := Unit) (Name := ℕ) (U := UR sig nD τ) (Lvl := ℕ) (Val := Elt F) spec1 c) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), scopedRest1_split]
  simp only [scM, owns_whole]
  iintro ⟨HS, HR, Hp⟩
  isplitl [Hp]; · iexact Hp
  isplitl [HS]; · iexists _; iexact HS
  iexact HR

end Cert.KernelIdeal.Rg1

end
-- ==== Proof.Region2Runs.lean ====
import proofs.«136604_j21827023798522_1_alg».proof.Proof.Gen.KernelIdeal.Launch
import proofs.«136604_j21827023798522_1_alg».proof.Proof.Gen.KernelIdeal.Skeleton
import proofs.«136604_j21827023798522_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Rg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_in_of0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in_of1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in_of2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev condF (i : grid2.Coords) : Prop := (Scalar.cmpi .ne (Scalar.extui (Scalar.cmpi .eq (BitVec.ofNat 32 (i 2).val) 0#32)) 0#32) = 1#1
theorem hcondF : ∀ t : Fin cfg2.N, condF (grid2.coords t) ↔ t.val % 4 = 0 :=
  (by decide +kernel : ∀ t : Fin grid2.N, _)

abbrev condL (i : grid2.Coords) : Prop := k2_cond2 i = 1#1
theorem hcondL : ∀ t : Fin cfg2.N, condL (grid2.coords t) ↔ t.val % 4 = 3 :=
  (by decide +kernel : ∀ t : Fin grid2.N, _)

theorem idle3_of : ∀ t : Fin cfg2.N, ¬condL (grid2.coords t) → cfg2.idle 3 (grid2.coords t) = true := by decide +kernel
theorem noFlush3_of : ∀ t : Fin cfg2.N, ¬condL (grid2.coords t) → (cfg2.win 3).flush t = false := by decide +kernel
theorem live3_of : ∀ t : Fin cfg2.N, condL (grid2.coords t) → cfg2.idle 3 (grid2.coords t) = false := by decide +kernel
theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel

abbrev ms0 (t : Fin cfg2.N) : Memref sig .tc .vmem S1024x2048 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S2048x256 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x256 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1024x256 .f32 := win2_3.stage (cfg2.slots t 3)
abbrev hs3 (t : Fin cfg2.N) : (ms3 t).IsWhole := hstage2_3 ((cfg2.slots t 3).cast nbuf2_3)

abbrev scM : Memref sig .tc .vmem S1024x256 .f32 := Memref.whole cc2_scratch0
abbrev VS : View sig .tc .vmem S1024x256 .f32 := (scM).view
abbrev VO : View sig .tc .vmem S1024x256 .f32 := (Memref.whole cc2_stg3_0 : Memref sig .tc .vmem S1024x256 .f32).view

variable (c : Dev nD) (i : grid2.Coords) (arg3 : Memref sig .tc .vmem S1024x2048 .bf16) (harg3 : arg3.IsWhole)
  (arg4 : Memref sig .tc .vmem S2048x256 .bf16) (harg4 : arg4.IsWhole) (arg5 : Memref sig .tc .vmem S1x256 .f32) (harg5 : arg5.IsWhole)
  (arg6 : Memref sig .tc .vmem S1024x256 .f32) (harg6 : arg6.IsWhole) (arg7 : Memref sig .tc .vmem S1024x256 .f32) (harg7 : arg7.IsWhole)

-- First depth tile: the accumulator restarts at zero and takes the product of the two operand tiles.
set_option maxHeartbeats 4000000 in
noncomputable def runA (hF : condF i) (hL : ¬condL i) (x0 : Vec F S1024x2048 .bf16) (x1 : Vec F S2048x256 .bf16) :
    { LS : List (View.Piece (Elt F) S1024x256 .f32) //
      ∀ (x2 : Vec F S1x256 .f32) (x3 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc2_kernel i arg3 harg3 arg4 harg4 arg5 harg5 arg6 harg6 arg7 harg7) K } := by
  refine ⟨?_, fun x2 x3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

-- Middle depth tiles: the product of the two operand tiles is added to the accumulator.
set_option maxHeartbeats 4000000 in
noncomputable def runB (hF : ¬condF i) (hL : ¬condL i) (x0 : Vec F S1024x2048 .bf16) (x1 : Vec F S2048x256 .bf16) (xs : Vec F S1024x256 .f32) :
    { LS : List (View.Piece (Elt F) S1024x256 .f32) //
      ∀ (x2 : Vec F S1x256 .f32) (x3 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc2_kernel i arg3 harg3 arg4 harg4 arg5 harg5 arg6 harg6 arg7 harg7) K } := by
  refine ⟨?_, fun x2 x3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

-- Last depth tile: the product is added to the accumulator, and the output tile is made from it and the bias row.
set_option maxHeartbeats 4000000 in
noncomputable def runC (hF : ¬condF i) (hL : condL i) (x0 : Vec F S1024x2048 .bf16) (x1 : Vec F S2048x256 .bf16) (x2 : Vec F S1x256 .f32) (xs : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc2_kernel i arg3 harg3 arg4 harg4 arg5 harg5 arg6 harg6 arg7 harg7) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Rg2

end
-- ==== Proof.Region2Data.lean ====
import proofs.«136604_j21827023798522_1_alg».proof.Proof.Region2Runs

set_option maxRecDepth 16384

noncomputable section

namespace Cert.KernelIdeal.Rg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces

variable (c : Dev nD) (i : grid2.Coords) (arg3 : Memref sig .tc .vmem S1024x2048 .bf16) (harg3 : arg3.IsWhole)
  (arg4 : Memref sig .tc .vmem S2048x256 .bf16) (harg4 : arg4.IsWhole) (arg5 : Memref sig .tc .vmem S1x256 .f32) (harg5 : arg5.IsWhole)
  (arg6 : Memref sig .tc .vmem S1024x256 .f32) (harg6 : arg6.IsWhole) (arg7 : Memref sig .tc .vmem S1024x256 .f32) (harg7 : arg7.IsWhole)

theorem scoverA (hF : condF i) (hL : ¬condL i) (x0 : Vec F S1024x2048 .bf16) (x1 : Vec F S2048x256 .bf16) (y : S1024x256.Idx) :
    ∃ pc ∈ (runA c i arg3 harg3 arg4 harg4 arg5 harg5 arg6 harg6 arg7 harg7 hF hL x0 x1).1, y ∈ pc.1.set :=
  View.cover_of_tiledL _ S1024x256.size (by sl_kernel_rfl) y

def accA (hF : condF i) (hL : ¬condL i) (x0 : Vec F S1024x2048 .bf16) (x1 : Vec F S2048x256 .bf16) : Vec F S1024x256 .f32 :=
  VS.read (Elt F) (VS.writes (Elt F) VS.junk (runA c i arg3 harg3 arg4 harg4 arg5 harg5 arg6 harg6 arg7 harg7 hF hL x0 x1).1)

theorem scoverB (hF : ¬condF i) (hL : ¬condL i) (x0 : Vec F S1024x2048 .bf16) (x1 : Vec F S2048x256 .bf16) (xs : Vec F S1024x256 .f32) (y : S1024x256.Idx) :
    ∃ pc ∈ (runB c i arg3 harg3 arg4 harg4 arg5 harg5 arg6 harg6 arg7 harg7 hF hL x0 x1 xs).1, y ∈ pc.1.set :=
  View.cover_of_tiledL _ S1024x256.size (by sl_kernel_rfl) y

def accB (hF : ¬condF i) (hL : ¬condL i) (x0 : Vec F S1024x2048 .bf16) (x1 : Vec F S2048x256 .bf16) (xs : Vec F S1024x256 .f32) : Vec F S1024x256 .f32 :=
  VS.read (Elt F) (VS.writes (Elt F) VS.junk (runB c i arg3 harg3 arg4 harg4 arg5 harg5 arg6 harg6 arg7 harg7 hF hL x0 x1 xs).1)

variable (hF : ¬condF i) (hL : condL i) (x0 : Vec F S1024x2048 .bf16) (x1 : Vec F S2048x256 .bf16) (x2 : Vec F S1x256 .f32) (xs : Vec F S1024x256 .f32)

theorem coverC (y : S1024x256.Idx) : ∃ pc ∈ (runC c i arg3 harg3 arg4 harg4 arg5 harg5 arg6 harg6 arg7 harg7 hF hL x0 x1 x2 xs).1, y ∈ pc.1.set :=
  View.cover_of_tiledL _ S1024x256.size (by sl_kernel_rfl) y

def outC : Vec F S1024x256 .f32 :=
  VO.read (Elt F) (VO.writes (Elt F) VO.junk (runC c i arg3 harg3 arg4 harg4 arg5 harg5 arg6 harg6 arg7 harg7 hF hL x0 x1 x2 xs).1)

theorem scoverC (y : S1024x256.Idx) : ∃ pc ∈ (runC c i arg3 harg3 arg4 harg4 arg5 harg5 arg6 harg6 arg7 harg7 hF hL x0 x1 x2 xs).2.1, y ∈ pc.1.set :=
  View.cover_of_tiledL _ S1024x256.size (by sl_kernel_rfl) y

def accC : Vec F S1024x256 .f32 :=
  VS.read (Elt F) (VS.writes (Elt F) VS.junk (runC c i arg3 harg3 arg4 harg4 arg5 harg5 arg6 harg6 arg7 harg7 hF hL x0 x1 x2 xs).2.1)

end Pieces

def restO : Vec F S1024x256 .f32 := VO.read (Elt F) VO.junk

section Point

variable (c : Dev nD) (t : Fin cfg2.N)

def aA (h0 : t.val % 4 = 0) : Vec F S1024x256 .f32 :=
  accA c (grid2.coords t) (ms0 t) (hs0 t) (ms1 t) (hs1 t) (ms2 t) (hs2 t) (ms3 t) (hs3 t) scM (Memref.isWhole_whole _) ((hcondF t).mpr h0) (fun h => absurd ((hcondL t).mp h) (by omega)) (iblk V c 0 t) (iblk V c 1 t)

def aB (h0 : ¬t.val % 4 = 0) (h1 : ¬t.val % 4 = 3) (xs : Vec F S1024x256 .f32) : Vec F S1024x256 .f32 :=
  accB c (grid2.coords t) (ms0 t) (hs0 t) (ms1 t) (hs1 t) (ms2 t) (hs2 t) (ms3 t) (hs3 t) scM (Memref.isWhole_whole _) (fun h => h0 ((hcondF t).mp h)) (fun h => h1 ((hcondL t).mp h)) (iblk V c 0 t) (iblk V c 1 t) xs

def oC (h0 : ¬t.val % 4 = 0) (h1 : t.val % 4 = 3) (xs : Vec F S1024x256 .f32) : Vec F S1024x256 .f32 :=
  outC c (grid2.coords t) (ms0 t) (hs0 t) (ms1 t) (hs1 t) (ms2 t) (hs2 t) (ms3 t) (hs3 t) scM (Memref.isWhole_whole _) (fun h => h0 ((hcondF t).mp h)) ((hcondL t).mpr h1) (iblk V c 0 t) (iblk V c 1 t) (iblk V c 2 t) xs

def aC (h0 : ¬t.val % 4 = 0) (h1 : t.val % 4 = 3) (xs : Vec F S1024x256 .f32) : Vec F S1024x256 .f32 :=
  accC c (grid2.coords t) (ms0 t) (hs0 t) (ms1 t) (hs1 t) (ms2 t) (hs2 t) (ms3 t) (hs3 t) scM (Memref.isWhole_whole _) (fun h => h0 ((hcondF t).mp h)) ((hcondL t).mpr h1) (iblk V c 0 t) (iblk V c 1 t) (iblk V c 2 t) xs

end Point

-- The output tile and the accumulator after each point: depth 0 restarts the sum, later depths add to what the point before left.
def outsAt (c : Dev nD) : (n : ℕ) → n < cfg2.N → Vec F S1024x256 .f32 × Vec F S1024x256 .f32
  | 0, hn => (restO, aA V c ⟨0, hn⟩ (Nat.zero_mod _))
  | n + 1, hn =>
    if h0 : (n + 1) % 4 = 0 then (restO, aA V c ⟨n + 1, hn⟩ h0)
    else if h1 : (n + 1) % 4 = 3 then
      (oC V c ⟨n + 1, hn⟩ h0 h1 (outsAt c n (Nat.lt_of_succ_lt hn)).2, aC V c ⟨n + 1, hn⟩ h0 h1 (outsAt c n (Nat.lt_of_succ_lt hn)).2)
    else (restO, aB V c ⟨n + 1, hn⟩ h0 h1 (outsAt c n (Nat.lt_of_succ_lt hn)).2)

theorem outsAt_A (c : Dev nD) (t : Fin cfg2.N) (h0 : t.val % 4 = 0) : outsAt V c t.val t.isLt = (restO, aA V c t h0) := by
  obtain ⟨n, hn⟩ := t
  cases n with
  | zero => exact rfl
  | succ n => exact (dif_pos h0).trans rfl

theorem outsAt_B (c : Dev nD) (t : Fin cfg2.N) (h0 : ¬t.val % 4 = 0) (h1 : ¬t.val % 4 = 3) :
    outsAt V c t.val t.isLt = (restO, aB V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt_C (c : Dev nD) (t : Fin cfg2.N) (h0 : ¬t.val % 4 = 0) (h1 : t.val % 4 = 3) :
    outsAt V c t.val t.isLt = (oC V c t h0 h1 (outsAt V c (t.val - 1) (Nat.lt_of_le_of_lt (Nat.sub_le _ _) t.isLt)).2,
      aC V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

abbrev Rest (c : Dev nD) : sProp 𝕄 :=
  iprop(Pipeline.scopedRestBut (Ix := Unit) (Name := ℕ) (U := UR sig nD τ) (Lvl := ℕ) (Val := Elt F) spec2 c [cc2_scratch0] ∗ (∃ r, prngReg c r))

def PhiS (c : Dev nD) : (n : ℕ) → n ≤ cfg2.N → sProp 𝕄
  | 0, _ => iprop((∃ d, owns (c : Thread nD τ) scM fullShare d) ∗ Rest (F := F) c)
  | n + 1, hn => iprop(owns (c : Thread nD τ) scM fullShare ((outsAt V c n hn).2) ∗ Rest (F := F) c)

theorem PhiS_zero (c : Dev nD) (n : ℕ) (h : n ≤ cfg2.N) (hz : n = 0) :
    PhiS V c n h = iprop((∃ d, owns (c : Thread nD τ) scM fullShare d) ∗ Rest (F := F) c) := by
  subst hz; rfl

theorem PhiS_succ (c : Dev nD) (n : ℕ) (hn : n < cfg2.N) :
    PhiS V c (n + 1) hn = iprop(owns (c : Thread nD τ) scM fullShare ((outsAt V c n hn).2) ∗ Rest (F := F) c) := rfl

theorem PhiS_pos (c : Dev nD) (n : ℕ) (h : n ≤ cfg2.N) (hz : n ≠ 0) :
    PhiS V c n h = iprop(owns (c : Thread nD τ) scM fullShare ((outsAt V c (n - 1) (by omega)).2) ∗ Rest (F := F) c) := by
  cases n with
  | zero => exact absurd rfl hz
  | succ n => rfl

-- Whatever the accumulator holds, it holds something: enough where the sum restarts.
theorem PhiS_forget (c : Dev nD) (n : ℕ) (h : n ≤ cfg2.N) :
    PhiS V c n h ⊢ iprop((∃ d, owns (c : Thread nD τ) scM fullShare d) ∗ Rest (F := F) c) := by
  cases n with
  | zero => exact .rfl
  | succ n =>
    rw [PhiS_succ]
    iintro ⟨HS, HR⟩
    isplitl [HS]; · iexists _; iexact HS
    iexact HR

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = (outsAt V c t.val t.isLt).1 := by dsimp only [dat]

theorem before_0 (c : Dev nD) (t : Fin cfg2.N) (d) : (dat V c).before 0 t d = iblk V c 0 t :=
  before_in_of0 V (dat V c) (A_eq V c 0) (after_0 V c) t d
theorem before_1 (c : Dev nD) (t : Fin cfg2.N) (d) : (dat V c).before 1 t d = iblk V c 1 t :=
  before_in_of1 V (dat V c) (A_eq V c 1) (after_1 V c) t d
theorem before_2 (c : Dev nD) (t : Fin cfg2.N) (d) : (dat V c).before 2 t d = iblk V c 2 t :=
  before_in_of2 V (dat V c) (A_eq V c 2) (after_2 V c) t d

end Cert.KernelIdeal.Rg2

end
-- ==== Proof.Region2Body.lean ====
import proofs.«136604_j21827023798522_1_alg».proof.Proof.Region2Data

set_option maxRecDepth 16384

noncomputable section

namespace Cert.KernelIdeal.Rg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_0 (c : Dev nD) (t : Fin cfg2.N) :
    (dat V c).leavesExact 0 t = owns (c : Thread nD τ) (ms0 t) fullShare (iblk V c 0 t) := by
  unfold Dat.leavesExact; rw [live0 t, after_0]
theorem leaves_1 (c : Dev nD) (t : Fin cfg2.N) :
    (dat V c).leavesExact 1 t = owns (c : Thread nD τ) (ms1 t) fullShare (iblk V c 1 t) := by
  unfold Dat.leavesExact; rw [live1 t, after_1]
theorem leaves_2 (c : Dev nD) (t : Fin cfg2.N) :
    (dat V c).leavesExact 2 t = owns (c : Thread nD τ) (ms2 t) fullShare (iblk V c 2 t) := by
  unfold Dat.leavesExact; rw [live2 t, after_2]

-- At every point the body leaves what `outsAt` says, by the point's depth tile.
set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 32 := lt_of_lt_of_eq t.isLt (show cfg2.N = 32 from N_2)
  by_cases h0 : t.val % 4 = 0
  · have h1 : ¬t.val % 4 = 3 := by omega
    rw [Dat.leavesExact_idle (dat V c) 3 t (idle3_of t (fun h => h1 ((hcondL t).mp h))) (noFlush3_of t (fun h => h1 ((hcondL t).mp h)))]
    rw [outsAt_A V c t h0]
    unfold aA accA; (try dsimp only)
    rw [PhiS_castSucc V c t]
    iintro ⟨HP, Ho, ⟨%d0, H0⟩, ⟨%d1, H1⟩, ⟨%d2, H2⟩, ⟨%d3, H3⟩⟩
    ihave HP' := (PhiS_forget V c _ _) $$ HP
    icases HP' with ⟨HS, HR⟩
    iapply ((runA c (grid2.coords t) _ _ _ _ _ _ _ _ _ _ ((hcondF t).mpr h0) (fun h => absurd ((hcondL t).mp h) (by omega)) (iblk V c 0 t) (iblk V c 1 t)).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS HR]
    · isplitl [HS]
      · unfold owns; iexists _; isplitr
        swap; · iexact HS
        ipureintro; exact View.read_writes_of_cover _ _ _ _ _ (scoverA c _ _ _ _ _ _ _ _ _ _ _ _ _ _ _)
      iexact HR
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 4 = 3
    · rw [show (dat V c).leavesExact 3 t = owns (c : Thread nD τ) (ms3 t) fullShare ((dat V c).after 3 t) from by
        unfold Dat.leavesExact; rw [live3_of t ((hcondL t).mpr h1)], after_3]
      rw [outsAt_C V c t h0 h1]
      unfold oC aC outC accC; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((runC c (grid2.coords t) _ _ _ _ _ _ _ _ _ _ (fun h => h0 ((hcondF t).mp h)) ((hcondL t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR]
      · isplitl [HS]
        · unfold owns; iexists _; isplitr
          swap; · iexact HS
          ipureintro; exact View.read_writes_of_cover _ _ _ _ _ (scoverC c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _ _)
    · rw [Dat.leavesExact_idle (dat V c) 3 t (idle3_of t (fun h => h1 ((hcondL t).mp h))) (noFlush3_of t (fun h => h1 ((hcondL t).mp h)))]
      rw [outsAt_B V c t h0 h1]
      unfold aB accB; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((runB c (grid2.coords t) _ _ _ _ _ _ _ _ _ _ (fun h => h0 ((hcondF t).mp h)) (fun h => h1 ((hcondL t).mp h)) (iblk V c 0 t) (iblk V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR]
      · isplitl [HS]
        · unfold owns; iexists _; isplitr
          swap; · iexact HS
          ipureintro; exact View.read_writes_of_cover _ _ _ _ _ (scoverB c _ _ _ _ _ _ _ _ _ _ _ _ _ _ _ _)
        iexact HR
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W2, bigSep_W2]
  exact sound_body V c t

theorem phi_in (c : Dev nD) :
    iprop((∃ r, prngReg c r) ∗ Pipeline.scopedRest (Ix := Unit) (Name := ℕ) (U := UR sig nD τ) (Lvl := ℕ) (Val := Elt F) spec2 c) ⊢ (dat V c).Φ 0 := by
  rw [show (dat V c).Φ 0 = PhiS V c 0 (Nat.zero_le _) from rfl, PhiS_zero V c 0 _ rfl, scopedRest2_split]
  simp only [scM, owns_whole]
  iintro ⟨Hp, HS, HR⟩
  isplitl [HS]; · iexact HS
  isplitl [HR]; · iexact HR
  iexact Hp

theorem phi_out (c : Dev nD) :
    (dat V c).Φ (Fin.last cfg2.N) ⊢ iprop((∃ r, prngReg c r) ∗ Pipeline.scopedRest (Ix := Unit) (Name := ℕ) (U := UR sig nD τ) (Lvl := ℕ) (Val := Elt F) spec2 c) := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 32 := N_2; omega), scopedRest2_split]
  simp only [scM, owns_whole]
  iintro ⟨HS, HR, Hp⟩
  isplitl [Hp]; · iexact Hp
  isplitl [HS]; · iexists _; iexact HS
  iexact HR

end Cert.KernelIdeal.Rg2

end
-- ==== Proof.Region3Runs.lean ====
import proofs.«136604_j21827023798522_1_alg».proof.Proof.Gen.KernelIdeal.Launch
import proofs.«136604_j21827023798522_1_alg».proof.Proof.Gen.KernelIdeal.Skeleton
import proofs.«136604_j21827023798522_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Rg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_in_of0 {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in_of1 {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in_of2 {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev condF (i : grid3.Coords) : Prop := (Scalar.cmpi .ne (Scalar.extui (Scalar.cmpi .eq (BitVec.ofNat 32 (i 2).val) 0#32)) 0#32) = 1#1
theorem hcondF : ∀ t : Fin cfg3.N, condF (grid3.coords t) ↔ t.val % 4 = 0 :=
  (by decide +kernel : ∀ t : Fin grid3.N, _)

abbrev condL (i : grid3.Coords) : Prop := k3_cond2 i = 1#1
theorem hcondL : ∀ t : Fin cfg3.N, condL (grid3.coords t) ↔ t.val % 4 = 3 :=
  (by decide +kernel : ∀ t : Fin grid3.N, _)

theorem idle3_of : ∀ t : Fin cfg3.N, ¬condL (grid3.coords t) → cfg3.idle 3 (grid3.coords t) = true := by decide +kernel
theorem noFlush3_of : ∀ t : Fin cfg3.N, ¬condL (grid3.coords t) → (cfg3.win 3).flush t = false := by decide +kernel
theorem live3_of : ∀ t : Fin cfg3.N, condL (grid3.coords t) → cfg3.idle 3 (grid3.coords t) = false := by decide +kernel
theorem live0 : ∀ t : Fin cfg3.N, cfg3.idle 0 (grid3.coords t) = false := by decide +kernel
theorem live1 : ∀ t : Fin cfg3.N, cfg3.idle 1 (grid3.coords t) = false := by decide +kernel
theorem live2 : ∀ t : Fin cfg3.N, cfg3.idle 2 (grid3.coords t) = false := by decide +kernel

abbrev ms0 (t : Fin cfg3.N) : Memref sig .tc .vmem S1024x2048 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S2048x128 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x128 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1024x128 .f32 := win3_3.stage (cfg3.slots t 3)
abbrev hs3 (t : Fin cfg3.N) : (ms3 t).IsWhole := hstage3_3 ((cfg3.slots t 3).cast nbuf3_3)

abbrev scM : Memref sig .tc .vmem S1024x128 .f32 := Memref.whole cc3_scratch0
abbrev VS : View sig .tc .vmem S1024x128 .f32 := (scM).view
abbrev VO : View sig .tc .vmem S1024x128 .f32 := (Memref.whole cc3_stg3_0 : Memref sig .tc .vmem S1024x128 .f32).view

variable (c : Dev nD) (i : grid3.Coords) (arg3 : Memref sig .tc .vmem S1024x2048 .bf16) (harg3 : arg3.IsWhole)
  (arg4 : Memref sig .tc .vmem S2048x128 .bf16) (harg4 : arg4.IsWhole) (arg5 : Memref sig .tc .vmem S1x128 .f32) (harg5 : arg5.IsWhole)
  (arg6 : Memref sig .tc .vmem S1024x128 .f32) (harg6 : arg6.IsWhole) (arg7 : Memref sig .tc .vmem S1024x128 .f32) (harg7 : arg7.IsWhole)

-- First depth tile: the accumulator restarts at zero and takes the product of the two operand tiles.
set_option maxHeartbeats 4000000 in
noncomputable def runA (hF : condF i) (hL : ¬condL i) (x0 : Vec F S1024x2048 .bf16) (x1 : Vec F S2048x128 .bf16) :
    { LS : List (View.Piece (Elt F) S1024x128 .f32) //
      ∀ (x2 : Vec F S1x128 .f32) (x3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc3_kernel i arg3 harg3 arg4 harg4 arg5 harg5 arg6 harg6 arg7 harg7) K } := by
  refine ⟨?_, fun x2 x3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

-- Middle depth tiles: the product of the two operand tiles is added to the accumulator.
set_option maxHeartbeats 4000000 in
noncomputable def runB (hF : ¬condF i) (hL : ¬condL i) (x0 : Vec F S1024x2048 .bf16) (x1 : Vec F S2048x128 .bf16) (xs : Vec F S1024x128 .f32) :
    { LS : List (View.Piece (Elt F) S1024x128 .f32) //
      ∀ (x2 : Vec F S1x128 .f32) (x3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc3_kernel i arg3 harg3 arg4 harg4 arg5 harg5 arg6 harg6 arg7 harg7) K } := by
  refine ⟨?_, fun x2 x3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

-- Last depth tile: the product is added to the accumulator, and the output tile is made from it and the bias row.
set_option maxHeartbeats 4000000 in
noncomputable def runC (hF : ¬condF i) (hL : condL i) (x0 : Vec F S1024x2048 .bf16) (x1 : Vec F S2048x128 .bf16) (x2 : Vec F S1x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc3_kernel i arg3 harg3 arg4 harg4 arg5 harg5 arg6 harg6 arg7 harg7) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Rg3

end
-- ==== Proof.Region3Data.lean ====
import proofs.«136604_j21827023798522_1_alg».proof.Proof.Region3Runs

set_option maxRecDepth 16384

noncomputable section

namespace Cert.KernelIdeal.Rg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces

variable (c : Dev nD) (i : grid3.Coords) (arg3 : Memref sig .tc .vmem S1024x2048 .bf16) (harg3 : arg3.IsWhole)
  (arg4 : Memref sig .tc .vmem S2048x128 .bf16) (harg4 : arg4.IsWhole) (arg5 : Memref sig .tc .vmem S1x128 .f32) (harg5 : arg5.IsWhole)
  (arg6 : Memref sig .tc .vmem S1024x128 .f32) (harg6 : arg6.IsWhole) (arg7 : Memref sig .tc .vmem S1024x128 .f32) (harg7 : arg7.IsWhole)

theorem scoverA (hF : condF i) (hL : ¬condL i) (x0 : Vec F S1024x2048 .bf16) (x1 : Vec F S2048x128 .bf16) (y : S1024x128.Idx) :
    ∃ pc ∈ (runA c i arg3 harg3 arg4 harg4 arg5 harg5 arg6 harg6 arg7 harg7 hF hL x0 x1).1, y ∈ pc.1.set :=
  View.cover_of_tiledL _ S1024x128.size (by sl_kernel_rfl) y

def accA (hF : condF i) (hL : ¬condL i) (x0 : Vec F S1024x2048 .bf16) (x1 : Vec F S2048x128 .bf16) : Vec F S1024x128 .f32 :=
  VS.read (Elt F) (VS.writes (Elt F) VS.junk (runA c i arg3 harg3 arg4 harg4 arg5 harg5 arg6 harg6 arg7 harg7 hF hL x0 x1).1)

theorem scoverB (hF : ¬condF i) (hL : ¬condL i) (x0 : Vec F S1024x2048 .bf16) (x1 : Vec F S2048x128 .bf16) (xs : Vec F S1024x128 .f32) (y : S1024x128.Idx) :
    ∃ pc ∈ (runB c i arg3 harg3 arg4 harg4 arg5 harg5 arg6 harg6 arg7 harg7 hF hL x0 x1 xs).1, y ∈ pc.1.set :=
  View.cover_of_tiledL _ S1024x128.size (by sl_kernel_rfl) y

def accB (hF : ¬condF i) (hL : ¬condL i) (x0 : Vec F S1024x2048 .bf16) (x1 : Vec F S2048x128 .bf16) (xs : Vec F S1024x128 .f32) : Vec F S1024x128 .f32 :=
  VS.read (Elt F) (VS.writes (Elt F) VS.junk (runB c i arg3 harg3 arg4 harg4 arg5 harg5 arg6 harg6 arg7 harg7 hF hL x0 x1 xs).1)

variable (hF : ¬condF i) (hL : condL i) (x0 : Vec F S1024x2048 .bf16) (x1 : Vec F S2048x128 .bf16) (x2 : Vec F S1x128 .f32) (xs : Vec F S1024x128 .f32)

theorem coverC (y : S1024x128.Idx) : ∃ pc ∈ (runC c i arg3 harg3 arg4 harg4 arg5 harg5 arg6 harg6 arg7 harg7 hF hL x0 x1 x2 xs).1, y ∈ pc.1.set :=
  View.cover_of_tiledL _ S1024x128.size (by sl_kernel_rfl) y

def outC : Vec F S1024x128 .f32 :=
  VO.read (Elt F) (VO.writes (Elt F) VO.junk (runC c i arg3 harg3 arg4 harg4 arg5 harg5 arg6 harg6 arg7 harg7 hF hL x0 x1 x2 xs).1)

theorem scoverC (y : S1024x128.Idx) : ∃ pc ∈ (runC c i arg3 harg3 arg4 harg4 arg5 harg5 arg6 harg6 arg7 harg7 hF hL x0 x1 x2 xs).2.1, y ∈ pc.1.set :=
  View.cover_of_tiledL _ S1024x128.size (by sl_kernel_rfl) y

def accC : Vec F S1024x128 .f32 :=
  VS.read (Elt F) (VS.writes (Elt F) VS.junk (runC c i arg3 harg3 arg4 harg4 arg5 harg5 arg6 harg6 arg7 harg7 hF hL x0 x1 x2 xs).2.1)

end Pieces

def restO : Vec F S1024x128 .f32 := VO.read (Elt F) VO.junk

section Point

variable (c : Dev nD) (t : Fin cfg3.N)

def aA (h0 : t.val % 4 = 0) : Vec F S1024x128 .f32 :=
  accA c (grid3.coords t) (ms0 t) (hs0 t) (ms1 t) (hs1 t) (ms2 t) (hs2 t) (ms3 t) (hs3 t) scM (Memref.isWhole_whole _) ((hcondF t).mpr h0) (fun h => absurd ((hcondL t).mp h) (by omega)) (iblk V c 0 t) (iblk V c 1 t)

def aB (h0 : ¬t.val % 4 = 0) (h1 : ¬t.val % 4 = 3) (xs : Vec F S1024x128 .f32) : Vec F S1024x128 .f32 :=
  accB c (grid3.coords t) (ms0 t) (hs0 t) (ms1 t) (hs1 t) (ms2 t) (hs2 t) (ms3 t) (hs3 t) scM (Memref.isWhole_whole _) (fun h => h0 ((hcondF t).mp h)) (fun h => h1 ((hcondL t).mp h)) (iblk V c 0 t) (iblk V c 1 t) xs

def oC (h0 : ¬t.val % 4 = 0) (h1 : t.val % 4 = 3) (xs : Vec F S1024x128 .f32) : Vec F S1024x128 .f32 :=
  outC c (grid3.coords t) (ms0 t) (hs0 t) (ms1 t) (hs1 t) (ms2 t) (hs2 t) (ms3 t) (hs3 t) scM (Memref.isWhole_whole _) (fun h => h0 ((hcondF t).mp h)) ((hcondL t).mpr h1) (iblk V c 0 t) (iblk V c 1 t) (iblk V c 2 t) xs

def aC (h0 : ¬t.val % 4 = 0) (h1 : t.val % 4 = 3) (xs : Vec F S1024x128 .f32) : Vec F S1024x128 .f32 :=
  accC c (grid3.coords t) (ms0 t) (hs0 t) (ms1 t) (hs1 t) (ms2 t) (hs2 t) (ms3 t) (hs3 t) scM (Memref.isWhole_whole _) (fun h => h0 ((hcondF t).mp h)) ((hcondL t).mpr h1) (iblk V c 0 t) (iblk V c 1 t) (iblk V c 2 t) xs

end Point

-- The output tile and the accumulator after each point: depth 0 restarts the sum, later depths add to what the point before left.
def outsAt (c : Dev nD) : (n : ℕ) → n < cfg3.N → Vec F S1024x128 .f32 × Vec F S1024x128 .f32
  | 0, hn => (restO, aA V c ⟨0, hn⟩ (Nat.zero_mod _))
  | n + 1, hn =>
    if h0 : (n + 1) % 4 = 0 then (restO, aA V c ⟨n + 1, hn⟩ h0)
    else if h1 : (n + 1) % 4 = 3 then
      (oC V c ⟨n + 1, hn⟩ h0 h1 (outsAt c n (Nat.lt_of_succ_lt hn)).2, aC V c ⟨n + 1, hn⟩ h0 h1 (outsAt c n (Nat.lt_of_succ_lt hn)).2)
    else (restO, aB V c ⟨n + 1, hn⟩ h0 h1 (outsAt c n (Nat.lt_of_succ_lt hn)).2)

theorem outsAt_A (c : Dev nD) (t : Fin cfg3.N) (h0 : t.val % 4 = 0) : outsAt V c t.val t.isLt = (restO, aA V c t h0) := by
  obtain ⟨n, hn⟩ := t
  cases n with
  | zero => exact rfl
  | succ n => exact (dif_pos h0).trans rfl

theorem outsAt_B (c : Dev nD) (t : Fin cfg3.N) (h0 : ¬t.val % 4 = 0) (h1 : ¬t.val % 4 = 3) :
    outsAt V c t.val t.isLt = (restO, aB V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt_C (c : Dev nD) (t : Fin cfg3.N) (h0 : ¬t.val % 4 = 0) (h1 : t.val % 4 = 3) :
    outsAt V c t.val t.isLt = (oC V c t h0 h1 (outsAt V c (t.val - 1) (Nat.lt_of_le_of_lt (Nat.sub_le _ _) t.isLt)).2,
      aC V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

abbrev Rest (c : Dev nD) : sProp 𝕄 :=
  iprop(Pipeline.scopedRestBut (Ix := Unit) (Name := ℕ) (U := UR sig nD τ) (Lvl := ℕ) (Val := Elt F) spec3 c [cc3_scratch0] ∗ (∃ r, prngReg c r))

def PhiS (c : Dev nD) : (n : ℕ) → n ≤ cfg3.N → sProp 𝕄
  | 0, _ => iprop((∃ d, owns (c : Thread nD τ) scM fullShare d) ∗ Rest (F := F) c)
  | n + 1, hn => iprop(owns (c : Thread nD τ) scM fullShare ((outsAt V c n hn).2) ∗ Rest (F := F) c)

theorem PhiS_zero (c : Dev nD) (n : ℕ) (h : n ≤ cfg3.N) (hz : n = 0) :
    PhiS V c n h = iprop((∃ d, owns (c : Thread nD τ) scM fullShare d) ∗ Rest (F := F) c) := by
  subst hz; rfl

theorem PhiS_succ (c : Dev nD) (n : ℕ) (hn : n < cfg3.N) :
    PhiS V c (n + 1) hn = iprop(owns (c : Thread nD τ) scM fullShare ((outsAt V c n hn).2) ∗ Rest (F := F) c) := rfl

theorem PhiS_pos (c : Dev nD) (n : ℕ) (h : n ≤ cfg3.N) (hz : n ≠ 0) :
    PhiS V c n h = iprop(owns (c : Thread nD τ) scM fullShare ((outsAt V c (n - 1) (by omega)).2) ∗ Rest (F := F) c) := by
  cases n with
  | zero => exact absurd rfl hz
  | succ n => rfl

-- Whatever the accumulator holds, it holds something: enough where the sum restarts.
theorem PhiS_forget (c : Dev nD) (n : ℕ) (h : n ≤ cfg3.N) :
    PhiS V c n h ⊢ iprop((∃ d, owns (c : Thread nD τ) scM fullShare d) ∗ Rest (F := F) c) := by
  cases n with
  | zero => exact .rfl
  | succ n =>
    rw [PhiS_succ]
    iintro ⟨HS, HR⟩
    isplitl [HS]; · iexists _; iexact HS
    iexact HR

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = (outsAt V c t.val t.isLt).1 := by dsimp only [dat]

theorem before_0 (c : Dev nD) (t : Fin cfg3.N) (d) : (dat V c).before 0 t d = iblk V c 0 t :=
  before_in_of0 V (dat V c) (A_eq V c 0) (after_0 V c) t d
theorem before_1 (c : Dev nD) (t : Fin cfg3.N) (d) : (dat V c).before 1 t d = iblk V c 1 t :=
  before_in_of1 V (dat V c) (A_eq V c 1) (after_1 V c) t d
theorem before_2 (c : Dev nD) (t : Fin cfg3.N) (d) : (dat V c).before 2 t d = iblk V c 2 t :=
  before_in_of2 V (dat V c) (A_eq V c 2) (after_2 V c) t d

end Cert.KernelIdeal.Rg3

end
-- ==== Proof.Region3Body.lean ====
import proofs.«136604_j21827023798522_1_alg».proof.Proof.Region3Data

set_option maxRecDepth 16384

noncomputable section

namespace Cert.KernelIdeal.Rg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_0 (c : Dev nD) (t : Fin cfg3.N) :
    (dat V c).leavesExact 0 t = owns (c : Thread nD τ) (ms0 t) fullShare (iblk V c 0 t) := by
  unfold Dat.leavesExact; rw [live0 t, after_0]
theorem leaves_1 (c : Dev nD) (t : Fin cfg3.N) :
    (dat V c).leavesExact 1 t = owns (c : Thread nD τ) (ms1 t) fullShare (iblk V c 1 t) := by
  unfold Dat.leavesExact; rw [live1 t, after_1]
theorem leaves_2 (c : Dev nD) (t : Fin cfg3.N) :
    (dat V c).leavesExact 2 t = owns (c : Thread nD τ) (ms2 t) fullShare (iblk V c 2 t) := by
  unfold Dat.leavesExact; rw [live2 t, after_2]

-- At every point the body leaves what `outsAt` says, by the point's depth tile.
set_option maxHeartbeats 4800000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 32 := lt_of_lt_of_eq t.isLt (show cfg3.N = 32 from N_3)
  by_cases h0 : t.val % 4 = 0
  · have h1 : ¬t.val % 4 = 3 := by omega
    rw [Dat.leavesExact_idle (dat V c) 3 t (idle3_of t (fun h => h1 ((hcondL t).mp h))) (noFlush3_of t (fun h => h1 ((hcondL t).mp h)))]
    rw [outsAt_A V c t h0]
    unfold aA accA; (try dsimp only)
    rw [PhiS_castSucc V c t]
    iintro ⟨HP, Ho, ⟨%d0, H0⟩, ⟨%d1, H1⟩, ⟨%d2, H2⟩, ⟨%d3, H3⟩⟩
    ihave HP' := (PhiS_forget V c _ _) $$ HP
    icases HP' with ⟨HS, HR⟩
    iapply ((runA c (grid3.coords t) _ _ _ _ _ _ _ _ _ _ ((hcondF t).mpr h0) (fun h => absurd ((hcondL t).mp h) (by omega)) (iblk V c 0 t) (iblk V c 1 t)).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS HR]
    · isplitl [HS]
      · unfold owns; iexists _; isplitr
        swap; · iexact HS
        ipureintro; exact View.read_writes_of_cover _ _ _ _ _ (scoverA c _ _ _ _ _ _ _ _ _ _ _ _ _ _ _)
      iexact HR
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 4 = 3
    · rw [show (dat V c).leavesExact 3 t = owns (c : Thread nD τ) (ms3 t) fullShare ((dat V c).after 3 t) from by
        unfold Dat.leavesExact; rw [live3_of t ((hcondL t).mpr h1)], after_3]
      rw [outsAt_C V c t h0 h1]
      unfold oC aC outC accC; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((runC c (grid3.coords t) _ _ _ _ _ _ _ _ _ _ (fun h => h0 ((hcondF t).mp h)) ((hcondL t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR]
      · isplitl [HS]
        · unfold owns; iexists _; isplitr
          swap; · iexact HS
          ipureintro; exact View.read_writes_of_cover _ _ _ _ _ (scoverC c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _ _)
    · rw [Dat.leavesExact_idle (dat V c) 3 t (idle3_of t (fun h => h1 ((hcondL t).mp h))) (noFlush3_of t (fun h => h1 ((hcondL t).mp h)))]
      rw [outsAt_B V c t h0 h1]
      unfold aB accB; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((runB c (grid3.coords t) _ _ _ _ _ _ _ _ _ _ (fun h => h0 ((hcondF t).mp h)) (fun h => h1 ((hcondL t).mp h)) (iblk V c 0 t) (iblk V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR]
      · isplitl [HS]
        · unfold owns; iexists _; isplitr
          swap; · iexact HS
          ipureintro; exact View.read_writes_of_cover _ _ _ _ _ (scoverB c _ _ _ _ _ _ _ _ _ _ _ _ _ _ _ _)
        iexact HR
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W3, bigSep_W3]
  exact sound_body V c t

theorem phi_in (c : Dev nD) :
    iprop((∃ r, prngReg c r) ∗ Pipeline.scopedRest (Ix := Unit) (Name := ℕ) (U := UR sig nD τ) (Lvl := ℕ) (Val := Elt F) spec3 c) ⊢ (dat V c).Φ 0 := by
  rw [show (dat V c).Φ 0 = PhiS V c 0 (Nat.zero_le _) from rfl, PhiS_zero V c 0 _ rfl, scopedRest3_split]
  simp only [scM, owns_whole]
  iintro ⟨Hp, HS, HR⟩
  isplitl [HS]; · iexact HS
  isplitl [HR]; · iexact HR
  iexact Hp

theorem phi_out (c : Dev nD) :
    (dat V c).Φ (Fin.last cfg3.N) ⊢ iprop((∃ r, prngReg c r) ∗ Pipeline.scopedRest (Ix := Unit) (Name := ℕ) (U := UR sig nD τ) (Lvl := ℕ) (Val := Elt F) spec3 c) := by
  rw [show (dat V c).Φ (Fin.last cfg3.N) = PhiS V c (Fin.last cfg3.N).val (Nat.le_of_lt_succ (Fin.last cfg3.N).isLt) from rfl,
    PhiS_pos V c _ _ (by rw [Fin.val_last]; have : cfg3.N = 32 := N_3; omega), scopedRest3_split]
  simp only [scM, owns_whole]
  iintro ⟨HS, HR, Hp⟩
  isplitl [Hp]; · iexact Hp
  isplitl [HS]; · iexists _; iexact HS
  iexact HR

end Cert.KernelIdeal.Rg3

end
-- ==== Proof.Chain.lean ====
import proofs.«136604_j21827023798522_1_alg».proof.Proof.Region0Body
import proofs.«136604_j21827023798522_1_alg».proof.Proof.Region1Body
import proofs.«136604_j21827023798522_1_alg».proof.Proof.Region2Body
import proofs.«136604_j21827023798522_1_alg».proof.Proof.Region3Body
import proofs.«136604_j21827023798522_1_alg».proof.Proof.Gen.KernelIdeal.Regions
import Idealize.ShloMosaic.Lib.Pipeline.RegionsLoop

set_option maxRecDepth 16384

noncomputable section

namespace Cert.KernelIdeal.Chain

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev r1 : (c : Dev nD) → (b : Ref sig .tc) → Buf (Elt F) ((c : Thread nD τ).loc b) := fun c b => Gen.V1 m c b

def o0 (c : Dev nD) : Buf (Elt F) ((c : Thread nD τ).loc main_v3) := (Rg0.dat (r1 m) c).arrAt 3 cfg0.N
abbrev B2 (c : Dev nD) : Valuation τ sig (Elt F) := Function.update (Gen.V1 m c) main_v3 (o0 m c)
abbrev B3 (c : Dev nD) : Valuation τ sig (Elt F) := StableHlo.after hostOps1 (B2 m c)
abbrev r3 : (c : Dev nD) → (b : Ref sig .tc) → Buf (Elt F) ((c : Thread nD τ).loc b) := fun c b => B3 m c b

def o1 (c : Dev nD) : Buf (Elt F) ((c : Thread nD τ).loc main_v36) := (Rg1.dat (r3 m) c).arrAt 3 cfg1.N
abbrev B4 (c : Dev nD) : Valuation τ sig (Elt F) := Function.update (B3 m c) main_v36 (o1 m c)
abbrev B5 (c : Dev nD) : Valuation τ sig (Elt F) := StableHlo.after hostOps2 (B4 m c)
abbrev r5 : (c : Dev nD) → (b : Ref sig .tc) → Buf (Elt F) ((c : Thread nD τ).loc b) := fun c b => B5 m c b

def o2 (c : Dev nD) : Buf (Elt F) ((c : Thread nD τ).loc main_v40) := (Rg2.dat (r5 m) c).arrAt 3 cfg2.N
abbrev B6 (c : Dev nD) : Valuation τ sig (Elt F) := Function.update (B5 m c) main_v40 (o2 m c)
abbrev B7 (c : Dev nD) : Valuation τ sig (Elt F) := StableHlo.after hostOps3 (B6 m c)
abbrev B8 (c : Dev nD) : Valuation τ sig (Elt F) := StableHlo.after hostOps3_1 (B7 m c)
abbrev B9 (c : Dev nD) : Valuation τ sig (Elt F) := StableHlo.after hostOps3_2 (B8 m c)
abbrev B10 (c : Dev nD) : Valuation τ sig (Elt F) := StableHlo.after hostOps3_3 (B9 m c)
abbrev B11 (c : Dev nD) : Valuation τ sig (Elt F) := StableHlo.after hostOps3_4 (B10 m c)
abbrev r11 : (c : Dev nD) → (b : Ref sig .tc) → Buf (Elt F) ((c : Thread nD τ).loc b) := fun c b => B11 m c b

def o3 (c : Dev nD) : Buf (Elt F) ((c : Thread nD τ).loc main_v46) := (Rg3.dat (r11 m) c).arrAt 3 cfg3.N
abbrev B12 (c : Dev nD) : Valuation τ sig (Elt F) := Function.update (B11 m c) main_v46 (o3 m c)
abbrev B13 (c : Dev nD) : Valuation τ sig (Elt F) := StableHlo.after hostOps4 (B12 m c)
abbrev B14 (c : Dev nD) : Valuation τ sig (Elt F) := StableHlo.after hostOps4_1 (B13 m c)

def outs : Gen.Outs (F := F) := fun J r c =>
  if J = 2 then B2 m c r else if J = 4 then B4 m c r else if J = 6 then B6 m c r else B12 m c r

theorem outs_2 (c : Dev nD) : outs m 2 main_v3 c = o0 m c := by
  unfold outs
  rw [if_pos rfl]
  exact Function.update_self _ _ _
theorem V2_eq (c : Dev nD) : Gen.V2 m (outs m) c = B2 m c := by
  show Function.update (Gen.V1 m c) main_v3 (outs m 2 main_v3 c) = _
  rw [outs_2]
theorem V3_eq (c : Dev nD) : Gen.V3 m (outs m) c = B3 m c := by
  show StableHlo.after hostOps1 (Gen.V2 m (outs m) c) = _
  rw [V2_eq]
theorem outs_4 (c : Dev nD) : outs m 4 main_v36 c = o1 m c := by
  unfold outs
  rw [if_neg (by decide), if_pos rfl]
  exact Function.update_self _ _ _
theorem V4_eq (c : Dev nD) : Gen.V4 m (outs m) c = B4 m c := by
  show Function.update (Gen.V3 m (outs m) c) main_v36 (outs m 4 main_v36 c) = _
  rw [outs_4, V3_eq]
theorem V5_eq (c : Dev nD) : Gen.V5 m (outs m) c = B5 m c := by
  show StableHlo.after hostOps2 (Gen.V4 m (outs m) c) = _
  rw [V4_eq]
theorem outs_6 (c : Dev nD) : outs m 6 main_v40 c = o2 m c := by
  unfold outs
  rw [if_neg (by decide), if_neg (by decide), if_pos rfl]
  exact Function.update_self _ _ _
theorem V6_eq (c : Dev nD) : Gen.V6 m (outs m) c = B6 m c := by
  show Function.update (Gen.V5 m (outs m) c) main_v40 (outs m 6 main_v40 c) = _
  rw [outs_6, V5_eq]
theorem V11_eq (c : Dev nD) : Gen.V11 m (outs m) c = B11 m c := by
  show StableHlo.after hostOps3_4 (StableHlo.after hostOps3_3 (StableHlo.after hostOps3_2 (StableHlo.after hostOps3_1 (StableHlo.after hostOps3 (Gen.V6 m (outs m) c))))) = _
  rw [V6_eq]
theorem outs_12 (c : Dev nD) : outs m 12 main_v46 c = o3 m c := by
  unfold outs
  rw [if_neg (by decide), if_neg (by decide), if_neg (by decide)]
  exact Function.update_self _ _ _
theorem V12_eq (c : Dev nD) : Gen.V12 m (outs m) c = B12 m c := by
  show Function.update (Gen.V11 m (outs m) c) main_v46 (outs m 12 main_v46 c) = _
  rw [outs_12, V11_eq]
theorem V14_eq (c : Dev nD) : Gen.V14 m (outs m) c = B14 m c := by
  show StableHlo.after hostOps4_1 (StableHlo.after hostOps4 (Gen.V12 m (outs m) c)) = _
  rw [V12_eq]

def pdats : (p : Fin 4) → (c : Dev nD) → Dat τ (Elt F) Unit ℕ (UR sig nD τ) ℕ (cfgs p) c
  | ⟨0, _⟩ => fun c => Rg0.dat (r1 m) c
  | ⟨1, _⟩ => fun c => Rg1.dat (r3 m) c
  | ⟨2, _⟩ => fun c => Rg2.dat (r5 m) c
  | ⟨3, _⟩ => fun c => Rg3.dat (r11 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem upd_ne (W : Valuation τ sig (Elt F)) (o r : Ref sig .tc) (x) (h : r ≠ o) :
    W (Proc.devRef .tc r) = Function.update W (Proc.devRef .tc o) x (Proc.devRef .tc r) :=
  (Function.update_of_ne (StableHlo.devRef_ne_of_ne h) _ _).symm

theorem hF0 (c : Dev nD) (w : Fin cfg0.W) : (pdats m 0 c).arrAt w cfg0.N = B2 m c (Pipeline.arrRef spec0 w) := by
  match w with
  | ⟨0, _⟩ => exact (((pdats m 0 c).arrAt_in 0 rfl _).trans (Rg0.A_eq (r1 m) c 0)).trans (upd_ne _ main_v3 main_v0 _ (by decide))
  | ⟨1, _⟩ => exact (((pdats m 0 c).arrAt_in 1 rfl _).trans (Rg0.A_eq (r1 m) c 1)).trans (upd_ne _ main_v3 main_v1 _ (by decide))
  | ⟨2, _⟩ => exact (((pdats m 0 c).arrAt_in 2 rfl _).trans (Rg0.A_eq (r1 m) c 2)).trans (upd_ne _ main_v3 main_v2 _ (by decide))
  | ⟨3, _⟩ =>
    show o0 m c = Function.update (Gen.V1 m c) (Proc.devRef .tc main_v3 : DevRef τ sig) (o0 m c) (Proc.devRef .tc main_v3)
    exact (Function.update_self (Proc.devRef .tc main_v3 : DevRef τ sig) (o0 m c) (Gen.V1 m c)).symm

theorem hrest0 (c : Dev nD) : ∀ b, b ∉ Finset.univ.image (Pipeline.arrRef spec0) → B2 m c b = r1 m c b :=
  fun b hb => Function.update_of_ne (StableHlo.devRef_ne_of_ne (fun e => hb (Finset.mem_image.mpr ⟨3, Finset.mem_univ _, e.symm⟩))) _ _

theorem hF1 (c : Dev nD) (w : Fin cfg1.W) : (pdats m 1 c).arrAt w cfg1.N = B4 m c (Pipeline.arrRef spec1 w) := by
  match w with
  | ⟨0, _⟩ => exact (((pdats m 1 c).arrAt_in 0 rfl _).trans (Rg1.A_eq (r3 m) c 0)).trans (upd_ne _ main_v36 main_v32 _ (by decide))
  | ⟨1, _⟩ => exact (((pdats m 1 c).arrAt_in 1 rfl _).trans (Rg1.A_eq (r3 m) c 1)).trans (upd_ne _ main_v36 main_v34 _ (by decide))
  | ⟨2, _⟩ => exact (((pdats m 1 c).arrAt_in 2 rfl _).trans (Rg1.A_eq (r3 m) c 2)).trans (upd_ne _ main_v36 main_v35 _ (by decide))
  | ⟨3, _⟩ =>
    show o1 m c = Function.update (B3 m c) (Proc.devRef .tc main_v36 : DevRef τ sig) (o1 m c) (Proc.devRef .tc main_v36)
    exact (Function.update_self (Proc.devRef .tc main_v36 : DevRef τ sig) (o1 m c) (B3 m c)).symm

theorem hrest1 (c : Dev nD) : ∀ b, b ∉ Finset.univ.image (Pipeline.arrRef spec1) → B4 m c b = r3 m c b :=
  fun b hb => Function.update_of_ne (StableHlo.devRef_ne_of_ne (fun e => hb (Finset.mem_image.mpr ⟨3, Finset.mem_univ _, e.symm⟩))) _ _

theorem hF2 (c : Dev nD) (w : Fin cfg2.W) : (pdats m 2 c).arrAt w cfg2.N = B6 m c (Pipeline.arrRef spec2 w) := by
  match w with
  | ⟨0, _⟩ => exact (((pdats m 2 c).arrAt_in 0 rfl _).trans (Rg2.A_eq (r5 m) c 0)).trans (upd_ne _ main_v40 main_v32 _ (by decide))
  | ⟨1, _⟩ => exact (((pdats m 2 c).arrAt_in 1 rfl _).trans (Rg2.A_eq (r5 m) c 1)).trans (upd_ne _ main_v40 main_v38 _ (by decide))
  | ⟨2, _⟩ => exact (((pdats m 2 c).arrAt_in 2 rfl _).trans (Rg2.A_eq (r5 m) c 2)).trans (upd_ne _ main_v40 main_v39 _ (by decide))
  | ⟨3, _⟩ =>
    show o2 m c = Function.update (B5 m c) (Proc.devRef .tc main_v40 : DevRef τ sig) (o2 m c) (Proc.devRef .tc main_v40)
    exact (Function.update_self (Proc.devRef .tc main_v40 : DevRef τ sig) (o2 m c) (B5 m c)).symm

theorem hrest2 (c : Dev nD) : ∀ b, b ∉ Finset.univ.image (Pipeline.arrRef spec2) → B6 m c b = r5 m c b :=
  fun b hb => Function.update_of_ne (StableHlo.devRef_ne_of_ne (fun e => hb (Finset.mem_image.mpr ⟨3, Finset.mem_univ _, e.symm⟩))) _ _

theorem hF3 (c : Dev nD) (w : Fin cfg3.W) : (pdats m 3 c).arrAt w cfg3.N = B12 m c (Pipeline.arrRef spec3 w) := by
  match w with
  | ⟨0, _⟩ => exact (((pdats m 3 c).arrAt_in 0 rfl _).trans (Rg3.A_eq (r11 m) c 0)).trans (upd_ne _ main_v46 main_v32 _ (by decide))
  | ⟨1, _⟩ => exact (((pdats m 3 c).arrAt_in 1 rfl _).trans (Rg3.A_eq (r11 m) c 1)).trans (upd_ne _ main_v46 main_v45 _ (by decide))
  | ⟨2, _⟩ => exact (((pdats m 3 c).arrAt_in 2 rfl _).trans (Rg3.A_eq (r11 m) c 2)).trans (upd_ne _ main_v46 main_v44 _ (by decide))
  | ⟨3, _⟩ =>
    show o3 m c = Function.update (B11 m c) (Proc.devRef .tc main_v46 : DevRef τ sig) (o3 m c) (Proc.devRef .tc main_v46)
    exact (Function.update_self (Proc.devRef .tc main_v46 : DevRef τ sig) (o3 m c) (B11 m c)).symm

theorem hrest3 (c : Dev nD) : ∀ b, b ∉ Finset.univ.image (Pipeline.arrRef spec3) → B12 m c b = r11 m c b :=
  fun b hb => Function.update_of_ne (StableHlo.devRef_ne_of_ne (fun e => hb (Finset.mem_image.mpr ⟨3, Finset.mem_univ _, e.symm⟩))) _ _

-- One region of the program: entered at the valuation `Win`, left at `Wout`, which differs from `Win` at the region's arrays only.
set_option backward.isDefEq.respectTransparency.types false in
def mkReg (p : Fin 4) (launch : Pipeline.LaunchFacts (nD := nD) (τ := τ) cfgs p) (Win Wout : Dev nD → Valuation τ sig (Elt F))
    (hbody : ∀ c, BodyObligation (pdats m p c) (defs₀ (F := F)) 𝒱₀ () Set.univ)
    (hq : ∀ c w, (pdats m p c).q w = fullShare) (howed : ∀ c w, (pdats m p c).owed w = 0)
    (hrec : ∀ c t, (pdats m p c).recorded t = Set.univ)
    (hA : ∀ c w, (pdats m p c).A w = Win c (Pipeline.arrRef (cfgs p).spec w))
    (hin : ∀ c, iprop((∃ r, prngReg c r) ∗ Pipeline.scopedRest (Ix := Unit) (Name := ℕ) (U := UR sig nD τ) (Lvl := ℕ) (Val := Elt F) (cfgs p).spec c) ⊢ (pdats m p c).Φ 0)
    (hout : ∀ c, (pdats m p c).Φ (Fin.last (cfgs p).N) ⊢ iprop((∃ r, prngReg c r) ∗ Pipeline.scopedRest (Ix := Unit) (Name := ℕ) (U := UR sig nD τ) (Lvl := ℕ) (Val := Elt F) (cfgs p).spec c))
    (hF : ∀ c w, (pdats m p c).arrAt w (cfgs p).N = Wout c (Pipeline.arrRef (cfgs p).spec w))
    (hrest : ∀ c (b : Ref sig .tc), b ∉ Finset.univ.image (Pipeline.arrRef (cfgs p).spec) → Wout c b = Win c b) :
    Pipeline.RegionSeg (pcfgs (F := F)) Gen.adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) Gen.adm (pdats m) launch.win launch.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; exact Set.mem_univ _)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H' := (hout c) $$ H
    icases H' with ⟨Hp, Hr⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      launch.win launch.arr_whole c (pdats m) ((pdats m p c).share_full (hq c))
      (fun b => Win c b) (fun b => Wout c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 := mkReg m 0 launch0 (Gen.V1 m) (B2 m) (Rg0.body_obligation (r1 m)) (fun _ _ => rfl) (fun _ _ => rfl)
  (fun _ _ => rfl) (fun _ _ => rfl) (Rg0.phi_in (r1 m)) (Rg0.phi_out (r1 m)) (hF0 m) (hrest0 m)
def reg1 := mkReg m 1 launch1 (B3 m) (B4 m) (Rg1.body_obligation (r3 m)) (fun _ _ => rfl) (fun _ _ => rfl)
  (fun _ _ => rfl) (fun _ _ => rfl) (Rg1.phi_in (r3 m)) (Rg1.phi_out (r3 m)) (hF1 m) (hrest1 m)
def reg2 := mkReg m 2 launch2 (B5 m) (B6 m) (Rg2.body_obligation (r5 m)) (fun _ _ => rfl) (fun _ _ => rfl)
  (fun _ _ => rfl) (fun _ _ => rfl) (Rg2.phi_in (r5 m)) (Rg2.phi_out (r5 m)) (hF2 m) (hrest2 m)
def reg3 := mkReg m 3 launch3 (B11 m) (B12 m) (Rg3.body_obligation (r11 m)) (fun _ _ => rfl) (fun _ _ => rfl)
  (fun _ _ => rfl) (fun _ _ => rfl) (Rg3.phi_in (r11 m)) (Rg3.phi_out (r11 m)) (hF3 m) (hrest3 m)

abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE4 (c : Dev nD) : R (F := F) c ⊢ (iprop(∃ W, owes (c : Thread nD τ) (0 : CellTallies nD τ sig Unit) W) : sProp 𝕄) := by
  iintro ⟨-, H⟩; iexact H

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m emb₁ () 𝒱₀ L lv (fun _ _ => rfl) ρ (outs m) (pdats m) 0 (fun _ => (BI.emp : sProp 𝕄)) u₀ (hu₀ (F := F))
    (fun _ c => R c) (hE0 (F := F) ρ) (hE4 (F := F))
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V11_eq]; exact .rfl) (fun c => by rw [V12_eq]; exact .rfl)

end Cert.KernelIdeal.Chain

end
-- ==== Proof.ChainRun.lean ====
import proofs.«136604_j21827023798522_1_alg».proof.Proof.Chain
import proofs.«136604_j21827023798522_1_alg».proof.Proof.RunCond

set_option maxRecDepth 16384

noncomputable section

namespace Cert.KernelIdeal.Chain

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem run_all (ρ : Dev nD → PrngReg) : θ_run defs (onTc (τ := τ) (main (F := F))) ⟨m, fun _ => 0, ρ⟩ (fun r => ∀ c : Dev nD,
      ∀ b ∈ Pipeline.ucRefs τ sig, r.2.mem ((c.tc : Thread nD τ).1, b) = B14 m c b) :=
  (θ_run defs _ _).mono (fun _ h c b hb => (h c b hb).trans (by rw [V14_eq]))
    (Gen.run_cond m emb₁ () 𝒱₀ L lv (fun _ _ => rfl) ρ (outs m) (pdats m) 0 (fun _ => (BI.emp : sProp 𝕄)) u₀ (hu₀ (F := F))
      (fun _ c => R c) (hE0 (F := F) ρ) (hE4 (F := F))
      (reg0 m) (fun c => .rfl) (fun c => by rw [V2_eq]; exact .rfl)
      (reg1 m) (fun c => by rw [V3_eq]; exact .rfl) (fun c => by rw [V4_eq]; exact .rfl)
      (reg2 m) (fun c => by rw [V5_eq]; exact .rfl) (fun c => by rw [V6_eq]; exact .rfl)
      (reg3 m) (fun c => by rw [V11_eq]; exact .rfl) (fun c => by rw [V12_eq]; exact .rfl))

theorem run_result (ρ : Dev nD → PrngReg) : θ_run defs (onTc (τ := τ) (main (F := F))) ⟨m, fun _ => 0, ρ⟩ (fun r => ∀ c : Dev nD,
      r.2.mem ((c.tc : Thread nD τ).loc main_v48) = B14 m c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  have hmem : ∀ b : Ref sig .tc, ¬ (Proc.devRef .tc b : DevRef τ sig).isScoped → (Proc.devRef .tc b : DevRef τ sig) ∈ Pipeline.ucRefs τ sig :=
    fun b h => Finset.mem_filter.mpr ⟨StableHlo.devRef_mem_tcRefs b, h⟩
  refine (θ_run defs _ _).mono (fun _ h c => ?_) (run_all m ρ)
  have hV : ∀ b : Ref sig .tc, ¬ (Proc.devRef .tc b : DevRef τ sig).isScoped → _ := fun b hb => h c (Proc.devRef .tc b) (hmem b hb)
  have hA : ∀ (b : Ref sig .tc) (hb : ¬ (Proc.devRef .tc b : DevRef τ sig).isScoped),
      Gen.V14 m (outs m) c b = m ((c.tc : Thread nD τ).loc b) → _ = m ((c.tc : Thread nD τ).loc b) :=
    fun b hb e => (hV b hb).trans ((V14_eq m c ▸ rfl : B14 m c (Proc.devRef .tc b) = Gen.V14 m (outs m) c b).trans e)
  exact ⟨hV main_v48 (by decide), hA _ (by decide) (Gen.V14_main_arg0 m (outs m) c), hA _ (by decide) (Gen.V14_main_arg1 m (outs m) c),
    hA _ (by decide) (Gen.V14_main_arg2 m (outs m) c), hA _ (by decide) (Gen.V14_main_arg3 m (outs m) c), hA _ (by decide) (Gen.V14_main_arg4 m (outs m) c),
    hA _ (by decide) (Gen.V14_main_arg5 m (outs m) c), hA _ (by decide) (Gen.V14_main_arg6 m (outs m) c), hA _ (by decide) (Gen.V14_main_arg7 m (outs m) c),
    hA _ (by decide) (Gen.V14_main_arg8 m (outs m) c), hA _ (by decide) (Gen.V14_main_arg9 m (outs m) c)⟩

end Cert.KernelIdeal.Chain

end
-- ==== Proof.Spec.lean ====
import Idealize.ShloMosaic.PureOps.Ideal
import Idealize.ShloMosaic.Lib.ValueIdx

noncomputable section

open scoped BigOperators

namespace Cert.Spec

open Idealize.ShloMosaic

def mm {a b c : ℕ} (A : Fin a → Fin b → EReal) (B : Fin b → Fin c → EReal) (i : Fin a) (j : Fin c) : EReal :=
  ∑ k : Fin b, A i k * B k j

def modAdj (adj sw : Fin 8192 → Fin 8192 → EReal) (bias : Fin 8192 → EReal) (i j : Fin 8192) : EReal :=
  max (mm adj sw i j + bias j) 0

def eye (i j : Fin 8192) : EReal := if i = j then 1 else 0

def dinvK (M : Fin 8192 → Fin 8192 → EReal) (i : Fin 8192) : EReal :=
  Ideal.div 1 (Ideal.sqrt ((∑ j : Fin 8192, M i j) + 1))

def normK (M : Fin 8192 → Fin 8192 → EReal) (i j : Fin 8192) : EReal :=
  M i j * dinvK M i * dinvK M j + (if i = j then dinvK M i * dinvK M i else 0)

def dinvR (M : Fin 8192 → Fin 8192 → EReal) (i : Fin 8192) : EReal :=
  Ideal.div 1 (Ideal.sqrt (∑ j : Fin 8192, (M i j + eye i j)))

def normR (M : Fin 8192 → Fin 8192 → EReal) (i j : Fin 8192) : EReal :=
  dinvR M i * (M i j + eye i j) * dinvR M j

def layer {p q : ℕ} (A : Fin 8192 → Fin 8192 → EReal) (X : Fin 8192 → Fin p → EReal) (W : Fin p → Fin q → EReal)
    (b : Fin q → EReal) (i : Fin 8192) (j : Fin q) : EReal :=
  mm A (mm X W) i j + b j

def layerRelu {p q : ℕ} (A : Fin 8192 → Fin 8192 → EReal) (X : Fin 8192 → Fin p → EReal) (W : Fin p → Fin q → EReal)
    (b : Fin q → EReal) (i : Fin 8192) (j : Fin q) : EReal :=
  max (layer A X W b i j) 0

def logits (A : Fin 8192 → Fin 8192 → EReal) (x : Fin 8192 → Fin 512 → EReal) (W0 : Fin 512 → Fin 256 → EReal)
    (b0 : Fin 256 → EReal) (W1 : Fin 256 → Fin 256 → EReal) (b1 : Fin 256 → EReal) (W2 : Fin 256 → Fin 40 → EReal)
    (b2 : Fin 40 → EReal) : Fin 8192 → Fin 40 → EReal :=
  layer A (layerRelu A (layerRelu A x W0 b0) W1 b1) W2 b2

end Cert.Spec

end
-- ==== Proof.LibDot.lean ====
import Idealize.ShloMosaic.Lib.ValueIdx
import Idealize.ShloMosaic.PureOps.Ideal.Laws

noncomputable section

open scoped BigOperators

namespace Cert.LibDot

open Idealize.ShloMosaic Idealize.ShloMosaic.ValueIdx

section Axes
variable {sl sr so : Shape} (d : DotDims sl sr so)

theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

section Entry
variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])
include hlc hrc hln hrn hlb hrb

-- With the left operand contracted along its columns and the right along its rows, the contraction runs over one index of the depth.
theorem sum_10 (f : (⟨2, ![M, K]⟩ : Shape).Idx → (⟨2, ![K, N]⟩ : Shape).Idx → EReal) (a : Fin M) (b : Fin N) :
    ∑ q : d.contr.Idx, f (d.lhsIdx (ix2 a b) q) (d.rhsIdx (ix2 a b) q) = ∑ c : Fin K, f (ix2 a c) (ix2 c b) := by
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun c _ => ?_
  have c2 := contrEquiv1_symm_val d K hr hs c
  have l2 : d.lhsIdx (ix2 a b) ((contrEquiv1 d K hr hs).symm c) = ix2 a c := by
    funext ax; apply Fin.ext
    match ax with
    | ⟨0, _⟩ => exact lhsIdx_val_non d hlb hln (ix2 a b) _ Nat.zero_lt_two
    | ⟨1, _⟩ => exact (d.lhsIdx_val_of_single hlc (ix2 a b) _).trans c2
  have r2 : d.rhsIdx (ix2 a b) ((contrEquiv1 d K hr hs).symm c) = ix2 c b := by
    funext ax; apply Fin.ext
    match ax with
    | ⟨0, _⟩ => exact (d.rhsIdx_val_of_single hrc (ix2 a b) _).trans c2
    | ⟨1, _⟩ => exact rhsIdx_val_non d hlb hrb hln hrn (ix2 a b) _ Nat.one_lt_two
  rw [l2, r2]

theorem matmul_10_zero_apply {φ₁ φ₂ : FTy} (prec : Option ContractPrecision) (A : FVec Ideal ⟨2, ![M, K]⟩ φ₁)
    (B : FVec Ideal ⟨2, ![K, N]⟩ φ₂) (a : Fin M) (b : Fin N) :
    matmul (F := Ideal) d prec A B (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply]
  exact sum_10 d hlc hrc hln hrn hlb hrb (fun x y => A x * B y) a b

theorem dotGeneral_10_apply {φ₁ φ₂ : FTy} (prec : Option ContractPrecision) (A : FVec Ideal ⟨2, ![M, K]⟩ φ₁)
    (B : FVec Ideal ⟨2, ![K, N]⟩ φ₂) (a : Fin M) (b : Fin N) :
    Host.dotGeneral (F := Ideal) d prec A B (ix2 a b) = ∑ c : Fin K, A (ix2 a c) * B (ix2 c b) := by
  simp only [Host.dotGeneral]
  rw [Ideal.dotGeneral_apply]
  exact sum_10 d hlc hrc hln hrn hlb hrb (fun x y => A x * B y) a b

end Entry

end Cert.LibDot

end
-- ==== Proof.Host1.lean ====
import proofs.«136604_j21827023798522_1_alg».proof.Proof.Gen.KernelIdeal.Launch
import proofs.«136604_j21827023798522_1_alg».proof.Proof.Spec
import proofs.«136604_j21827023798522_1_alg».proof.Proof.LibDot
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.KernelIdeal.Host1

open Cert.KernelIdeal Cert.KernelIdeal.Gen Idealize.ShloMosaic Idealize.ShloMosaic.TcCoe Idealize.SL.Sem Idealize.ShloMosaic.StableHlo
open Idealize.ShloMosaic.ValueIdx

abbrev D : ScatterDims S8192x8192 S8192x2 S8192 := scatter_S8192x8192_S8192x2_S8192_n_01_01_1

def onesT : FVec Ideal S8192 .f32 :=
  broadcastInDim S8192 ![] bcast_S_S8192 (constant (F := Ideal) S_ .f32 0x3F800000#32)

theorem onesT_apply (i : S8192.Idx) : onesT i = 1 := by
  unfold onesT
  rw [broadcastInDim_apply _ bcast_S_S8192 _ i ix0 (fun a => a.elim0)]
  exact Ideal.ofBits_one_f32

def dinvT (M : FVec Ideal S8192x8192 .f32) : FVec Ideal S8192 .f32 :=
  Host.divf onesT (Host.sqrt (addf
    (Host.reduceAdd M (constant (F := Ideal) S_ .f32 0x00000000#32) reducesTo_S8192x8192_S8192_d1 h_S_) onesT))

theorem dinvT_apply (M : FVec Ideal S8192x8192 .f32) (i : Fin 8192) :
    dinvT M (ix1 i) = Cert.Spec.dinvK (fun a b => M (ix2 a b)) i := by
  unfold dinvT Cert.Spec.dinvK
  show Ideal.div (onesT (ix1 i)) (Ideal.sqrt (Host.reduceAdd M _ reducesTo_S8192x8192_S8192_d1 h_S_ (ix1 i) + onesT (ix1 i))) = _
  rw [onesT_apply]
  simp only [Host.reduceAdd, Ideal.hostReduceAdd_def]
  rw [Ideal.hostReduceAdd_single reducesTo_S8192x8192_S8192_d1 (by decide)]
  show Ideal.div 1 (Ideal.sqrt (Ideal.ofBits .f32 0x00000000#32 + _ + 1)) = _
  rw [Ideal.ofBits_zero_f32, zero_add]
  refine congrArg (fun z => Ideal.div 1 (Ideal.sqrt (z + 1))) (Finset.sum_congr rfl fun k _ => ?_)
  exact congrArg M (funext fun a => Fin.ext (by match a with | ⟨0, _⟩ => rfl | ⟨1, _⟩ => rfl))

theorem colB_apply {α : Type} (v : S8192.Idx → α) (u : Fin 8192) (z : Fin 1) :
    broadcastInDim S8192x1 ![0] bcast_S8192_S8192x1_0 v (ix2 u z) = v (ix1 u) :=
  broadcastInDim_apply _ bcast_S8192_S8192x1_0 v (ix2 u z) (ix1 u) (fun a => match a with
    | ⟨0, _⟩ => by show u.val = if (8192 : Nat) = 1 then 0 else u.val; rw [if_neg (by decide)])

theorem rowB_apply {α : Type} (v : S8192.Idx → α) (a b : Fin 8192) :
    broadcastInDim S8192x8192 ![0, 1] bcast_S8192x1_S8192x8192_0_1
      (broadcastInDim S8192x1 ![0] bcast_S8192_S8192x1_0 v) (ix2 a b) = v (ix1 a) := by
  rw [broadcastInDim_apply _ bcast_S8192x1_S8192x8192_0_1 _ (ix2 a b) (ix2 a (0 : Fin 1)) (fun x => match x with
    | ⟨0, _⟩ => by show a.val = if (8192 : Nat) = 1 then 0 else a.val; rw [if_neg (by decide)]
    | ⟨1, _⟩ => by show 0 = if (1 : Nat) = 1 then 0 else b.val; rw [if_pos rfl])]
  exact colB_apply v a 0

theorem colBB_apply {α : Type} (v : S8192.Idx → α) (a b : Fin 8192) :
    broadcastInDim S8192x8192 ![0, 1] bcast_S1x8192_S8192x8192_0_1
      (broadcastInDim S1x8192 ![1] bcast_S8192_S1x8192_1 v) (ix2 a b) = v (ix1 b) := by
  rw [broadcastInDim_apply _ bcast_S1x8192_S8192x8192_0_1 _ (ix2 a b) (ix2 (0 : Fin 1) b) (fun x => match x with
    | ⟨0, _⟩ => by show 0 = if (1 : Nat) = 1 then 0 else a.val; rw [if_pos rfl]
    | ⟨1, _⟩ => by show b.val = if (8192 : Nat) = 1 then 0 else b.val; rw [if_neg (by decide)])]
  exact broadcastInDim_apply _ bcast_S8192_S1x8192_1 v (ix2 (0 : Fin 1) b) (ix1 b) (fun x => match x with
    | ⟨0, _⟩ => by show b.val = if (8192 : Nat) = 1 then 0 else b.val; rw [if_neg (by decide)])

theorem toInt_ofNat_small (n : Nat) (h : n < 8192) : (BitVec.ofNat 32 n).toInt = (n : Int) := by
  rw [BitVec.toInt_eq_toNat_cond, BitVec.toNat_ofNat]
  have e : n % 2 ^ 32 = n := Nat.mod_eq_of_lt (by omega)
  rw [e, if_pos (by omega)]

def colT : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32)))
    (iotaInDim S8192 32 0)

theorem colT_apply (i : S8192.Idx) : colT i = BitVec.ofNat 32 (i 0).val := by
  unfold colT
  rw [select_apply]
  have hc : cmpi .slt (iotaInDim S8192 32 0) (broadcastInDim S8192 ![] bcast_S_S8192 (constantI S_ 32 0#32)) i = 0#1 := by
    show IntOp.cmpi .slt (BitVec.ofNat 32 (i 0).val) (broadcastInDim S8192 ![] bcast_S_S8192 (constantI S_ 32 0#32) i) = 0#1
    rw [broadcastInDim_apply _ bcast_S_S8192 _ i ix0 (fun a => a.elim0)]
    show BitVec.ofBool ((BitVec.ofNat 32 (i 0).val).slt 0#32) = 0#1
    have hlt : (i 0).val < 8192 := (i 0).isLt
    have hs : (BitVec.ofNat 32 (i 0).val).slt 0#32 = false := by
      rw [BitVec.slt, toInt_ofNat_small _ hlt]
      simp
    rw [hs]; rfl
  rw [hc, select_zero]
  rfl

def idxT : IVec S8192x2 32 :=
  concatenate S8192x2 1 [⟨S8192x1, broadcastInDim S8192x1 ![0] bcast_S8192_S8192x1_0 colT⟩,
    ⟨S8192x1, broadcastInDim S8192x1 ![0] bcast_S8192_S8192x1_0 colT⟩] concatenates_S8192x1_S8192x1_S8192x2_d1

theorem idxT_apply (k : S8192x2.Idx) : idxT k = BitVec.ofNat 32 (k 0).val := by
  unfold idxT
  have h0 : (k 0).val < 8192 := (k 0).isLt
  have h1 : (k 1).val < 2 := (k 1).isLt
  by_cases h : (k 1).val = 0
  · rw [concatenate_pair_apply_left (t := S8192x2) (s₁ := S8192x1) (s₂ := S8192x1) (1 : Fin 2) _ _ concatenates_S8192x1_S8192x1_S8192x2_d1 k rfl
      (ix2 (⟨(k 0).val, h0⟩ : Fin 8192) (0 : Fin 1)) (fun b => match b with
        | ⟨0, _⟩ => rfl
        | ⟨1, _⟩ => h.symm)]
    exact (colB_apply colT _ _).trans (colT_apply _)
  · rw [concatenate_pair_apply_right (t := S8192x2) (s₁ := S8192x1) (s₂ := S8192x1) (1 : Fin 2) _ _ concatenates_S8192x1_S8192x1_S8192x2_d1 k rfl rfl
      (ix2 (⟨(k 0).val, h0⟩ : Fin 8192) (0 : Fin 1)) (fun b => match b with
        | ⟨0, _⟩ => fun _ => rfl
        | ⟨1, _⟩ => fun hne => absurd rfl hne)
      (by show 0 + 1 = (k 1).val; omega)]
    exact (colB_apply colT _ _).trans (colT_apply _)

theorem siIdx_zero (j : S8192.Idx) (c : Fin D.scatterDimsToOperandDims.length) :
    (D.siIdx j c (0 : Fin 2)).val = (j 0).val := by
  unfold ScatterDims.siIdx
  rw [dif_neg (by decide)]
  unfold ScatterDims.siCoord
  simp only [Fin.val_cast]
  exact congrArg (fun x => (j x).val) (Subsingleton.elim _ _)

theorem start_eq (j : S8192.Idx) (a : Fin 2) : D.start j idxT a = ((j 0).val : Int) := by
  have ha : a ∈ D.scatterDimsToOperandDims := (by decide : ∀ a : Fin 2, a ∈ D.scatterDimsToOperandDims) a
  unfold ScatterDims.start
  rw [dif_pos ha, idxT_apply, siIdx_zero, toInt_ofNat_small _ (j 0).isLt]

theorem window_eq (j : S8192.Idx) (a : Fin 2) : D.window j a = 0 := by
  have ha : a ∉ D.sKept := (by decide : ∀ a : Fin 2, a ∉ D.sKept) a
  unfold ScatterDims.window
  rw [dif_neg ha]

theorem resultIdx_eq (u : Fin 8192) : D.resultIdx? (ix1 u) idxT = some (ix2 u u) := by
  have hs : ∀ a : Fin 2, D.start (ix1 u) idxT a + (D.window (ix1 u) a : Int) = (u.val : Int) := fun a => by
    rw [start_eq, window_eq]; simp
  have hu : u.val < 8192 := u.isLt
  unfold ScatterDims.resultIdx?
  rw [dif_pos (fun a => by
    rw [hs a]
    refine ⟨by omega, ?_⟩
    match a with
    | ⟨0, _⟩ => show (u.val : Int) < ((8192 : Nat) : Int); omega
    | ⟨1, _⟩ => show (u.val : Int) < ((8192 : Nat) : Int); omega)]
  refine congrArg some (funext fun a => Fin.ext ?_)
  show (D.start (ix1 u) idxT a + (D.window (ix1 u) a : Int)).toNat = (ix2 u u a).val
  rw [hs a]
  match a with
  | ⟨0, _⟩ => simp
  | ⟨1, _⟩ => simp

theorem scatter_apply (x : FVec Ideal S8192x8192 .f32) (upd : FVec Ideal S8192 .f32) (p q : Fin 8192) :
    Host.scatterAdd D x idxT upd (ix2 p q) = x (ix2 p q) + if p = q then upd (ix1 p) else 0 := by
  show Ideal.hostScatterAdd D x idxT upd (ix2 p q) = _
  unfold Ideal.hostScatterAdd
  refine congrArg (x (ix2 p q) + ·) ?_
  rw [Finset.sum_filter]
  have key : ∀ j : S8192.Idx, D.resultIdx? j idxT = some (ix2 p q) → (p = q ∧ j = ix1 p) := fun j h => by
    obtain ⟨u, rfl⟩ : ∃ u : Fin 8192, j = ix1 u := ⟨j 0, eq_ix1 j⟩
    rw [resultIdx_eq] at h
    have h' := Option.some.inj h
    have h0 : u = p := congrFun h' (0 : Fin 2)
    have h1 : u = q := congrFun h' (1 : Fin 2)
    exact ⟨h0.symm.trans h1, by rw [h0]⟩
  by_cases hpq : p = q
  · subst hpq
    rw [if_pos rfl, Finset.sum_eq_single (ix1 p)]
    · rw [if_pos (resultIdx_eq p)]
    · intro j _ hj
      exact if_neg fun h => hj (key j h).2
    · intro h; exact absurd (Finset.mem_univ _) h
  · rw [if_neg hpq]
    exact Finset.sum_eq_zero fun j _ => if_neg fun h => hpq (key j h).1

def normT (M : FVec Ideal S8192x8192 .f32) : FVec Ideal S8192x8192 .f32 :=
  Host.scatterAdd D
    (mulf
      (mulf M (broadcastInDim S8192x8192 ![0, 1] bcast_S8192x1_S8192x8192_0_1
        (broadcastInDim S8192x1 ![0] bcast_S8192_S8192x1_0 (dinvT M))))
      (broadcastInDim S8192x8192 ![0, 1] bcast_S1x8192_S8192x8192_0_1
        (broadcastInDim S1x8192 ![1] bcast_S8192_S1x8192_1 (dinvT M))))
    idxT (mulf (dinvT M) (dinvT M))

theorem normT_apply (M : FVec Ideal S8192x8192 .f32) (a b : Fin 8192) :
    normT M (ix2 a b) = Cert.Spec.normK (fun i j => M (ix2 i j)) a b := by
  unfold normT Cert.Spec.normK
  rw [scatter_apply]
  simp only [mulf_apply]
  rw [rowB_apply, colBB_apply, dinvT_apply, dinvT_apply]

abbrev DD : DotDims S8192x512 S512x256 S8192x256 := dot_S8192x512_S512x256_S8192x256_1_0_0_1_n_n

theorem dot_apply (A : FVec Ideal S8192x512 .f32) (B : FVec Ideal S512x256 .f32) (a : Fin 8192) (b : Fin 256) :
    Host.dotGeneral DD none A B (ix2 a b) = ∑ k : Fin 512, A (ix2 a k) * B (ix2 k b) :=
  Cert.LibDot.dotGeneral_10_apply _ rfl rfl rfl rfl rfl rfl none A B a b

variable (W : Valuation τ sig (Elt Ideal))

set_option maxHeartbeats 8000000 in
theorem v32_eq :
    (StableHlo.after (hostOps1 (F := Ideal)) W (Proc.devRef .tc main_v32) : S8192x8192.Idx → EReal)
      = normT (W (Proc.devRef .tc main_v3)) := by
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl

theorem v32_apply (a b : Fin 8192) :
    (StableHlo.after (hostOps1 (F := Ideal)) W (Proc.devRef .tc main_v32) : S8192x8192.Idx → EReal) (ix2 a b)
      = Cert.Spec.normK (fun i j => (W (Proc.devRef .tc main_v3) : S8192x8192.Idx → EReal) (ix2 i j)) a b := by
  rw [v32_eq]
  exact normT_apply _ a b

set_option maxHeartbeats 4000000 in
theorem v34_apply (a : Fin 8192) (b : Fin 256) :
    (StableHlo.after (hostOps1 (F := Ideal)) W (Proc.devRef .tc main_v34) : S8192x256.Idx → EReal) (ix2 a b)
      = Cert.Spec.mm (fun i k => (W (Proc.devRef .tc main_arg0) : S8192x512.Idx → EReal) (ix2 i k))
          (fun k j => (W (Proc.devRef .tc main_arg4) : S512x256.Idx → EReal) (ix2 k j)) a b := by
  have e : (StableHlo.after (hostOps1 (F := Ideal)) W (Proc.devRef .tc main_v34) : S8192x256.Idx → EReal)
      = (Host.dotGeneral (F := Ideal) (φ₁ := .f32) (φ₂ := .f32) DD none (W (Proc.devRef .tc main_arg0)) (W (Proc.devRef .tc main_arg4)) : S8192x256.Idx → EReal) := by
    after_results_simp
    rfl
  rw [e]
  exact dot_apply _ _ a b

set_option maxHeartbeats 4000000 in
theorem v35_apply (b : Fin 256) :
    (StableHlo.after (hostOps1 (F := Ideal)) W (Proc.devRef .tc main_v35) : S1x256.Idx → EReal) (ix2 (0 : Fin 1) b)
      = (W (Proc.devRef .tc main_arg5) : S256.Idx → EReal) (ix1 b) := by
  have e : (StableHlo.after (hostOps1 (F := Ideal)) W (Proc.devRef .tc main_v35) : S1x256.Idx → EReal)
      = shapeCast S1x256 (W (Proc.devRef .tc main_arg5) : S256.Idx → EReal) shapeCasts_S256_S1x256 := by
    after_results_simp
    rfl
  rw [e]
  exact shapeCast_apply _ shapeCasts_S256_S1x256 (ix2 (0 : Fin 1) b) (ix1 b) (by
    rw [Shape.rowMajor_val_one, Shape.rowMajor_val_two]
    show b.val = 0 * 256 + b.val
    omega)

end Cert.KernelIdeal.Host1

end
-- ==== Proof.Algebra.lean ====
import proofs.«136604_j21827023798522_1_alg».proof.Proof.Spec
import Mathlib.Data.EReal.Operations
import Mathlib.Data.EReal.Inv
import Mathlib.Algebra.BigOperators.Fin
import Mathlib.Algebra.BigOperators.Group.Finset.Basic
import Mathlib.Algebra.BigOperators.Group.Finset.Piecewise
import Mathlib.Algebra.BigOperators.Group.Finset.Sigma
import Mathlib.Logic.Equiv.Fin.Basic

noncomputable section

open scoped BigOperators

namespace Cert.Spec

open Idealize.ShloMosaic

theorem modAdj_nonneg (adj sw : Fin 8192 → Fin 8192 → EReal) (bias : Fin 8192 → EReal) (i j : Fin 8192) :
    0 ≤ modAdj adj sw bias i j := by
  unfold modAdj
  exact le_max_right _ _

theorem eye_nonneg (i j : Fin 8192) : 0 ≤ eye i j := by
  unfold eye
  split
  · exact zero_le_one
  · exact le_refl _

theorem sum_eye (i : Fin 8192) : ∑ j : Fin 8192, eye i j = 1 := by
  unfold eye
  rw [Finset.sum_ite_eq]
  simp

theorem dinvK_eq_dinvR (M : Fin 8192 → Fin 8192 → EReal) : dinvK M = dinvR M := by
  funext i
  unfold dinvK dinvR
  rw [Finset.sum_add_distrib, sum_eye]

theorem sqrt_nonneg' (x : EReal) (hx : 0 ≤ x) : 0 ≤ Ideal.sqrt x := by
  induction x using EReal.rec with
  | bot => simp at hx
  | top => rw [Ideal.sqrt_top]; exact le_top
  | coe r =>
    have hr : 0 ≤ r := EReal.coe_nonneg.1 hx
    rw [Ideal.sqrt_coe, if_neg (not_lt.2 hr)]
    exact EReal.coe_nonneg.2 (Real.sqrt_nonneg r)

theorem div_one_nonneg (y : EReal) (hy : 0 ≤ y) : 0 ≤ Ideal.div 1 y := by
  unfold Ideal.div
  split
  · rw [if_pos zero_lt_one]; exact le_top
  · rw [one_mul]; exact EReal.inv_nonneg_of_nonneg hy

theorem dinvK_nonneg (M : Fin 8192 → Fin 8192 → EReal) (hM : ∀ i j, 0 ≤ M i j) (i : Fin 8192) :
    0 ≤ dinvK M i := by
  unfold dinvK
  apply div_one_nonneg
  apply sqrt_nonneg'
  exact add_nonneg (Finset.sum_nonneg (fun j _ => hM i j)) zero_le_one

theorem normK_eq_normR (M : Fin 8192 → Fin 8192 → EReal) (hM : ∀ i j, 0 ≤ M i j) : normK M = normR M := by
  funext i j
  unfold normK normR
  rw [← dinvK_eq_dinvR]
  have hdi : 0 ≤ dinvK M i := dinvK_nonneg M hM i
  by_cases h : i = j
  · subst h
    rw [if_pos rfl]
    have he : eye i i = 1 := by unfold eye; rw [if_pos rfl]
    rw [he, EReal.left_distrib_of_nonneg (hM i i) zero_le_one, mul_one,
      EReal.right_distrib_of_nonneg (EReal.mul_nonneg hdi (hM i i)) hdi, mul_comm (dinvK M i) (M i i)]
  · rw [if_neg h]
    have he : eye i j = 0 := by unfold eye; rw [if_neg h]
    rw [he, add_zero, add_zero, mul_comm (dinvK M i) (M i j)]

theorem sum_blocks {α : Type*} [AddCommMonoid α] (nb bs : ℕ) (f : Fin (nb * bs) → α) :
    ∑ k, f k = ∑ b : Fin nb, ∑ r : Fin bs,
      f ⟨b.val * bs + r.val, by
        have hb := b.isLt
        have hr := r.isLt
        calc b.val * bs + r.val < b.val * bs + bs := by omega
          _ = (b.val + 1) * bs := by rw [Nat.add_mul, Nat.one_mul]
          _ ≤ nb * bs := Nat.mul_le_mul_right bs hb⟩ := by
  rw [← (finProdFinEquiv : Fin nb × Fin bs ≃ Fin (nb * bs)).sum_comp f, Fintype.sum_prod_type]
  apply Finset.sum_congr rfl
  intro b _
  apply Finset.sum_congr rfl
  intro r _
  congr 1
  apply Fin.ext
  simp only [finProdFinEquiv_apply_val]
  rw [Nat.mul_comm, Nat.add_comm]

theorem sum_four_blocks {α : Type*} [AddCommMonoid α] (g : Fin 8192 → α) :
    (((0 + ∑ r : Fin 2048, g ⟨0 * 2048 + r.val, by omega⟩)
        + ∑ r : Fin 2048, g ⟨1 * 2048 + r.val, by omega⟩)
        + ∑ r : Fin 2048, g ⟨2 * 2048 + r.val, by omega⟩)
        + ∑ r : Fin 2048, g ⟨3 * 2048 + r.val, by omega⟩
      = ∑ k : Fin 8192, g k := by
  have h := sum_blocks (α := α) 4 2048 g
  rw [h, Fin.sum_univ_four, zero_add]
  rfl

end Cert.Spec

end
-- ==== Proof.Region0Val.lean ====
import proofs.«136604_j21827023798522_1_alg».proof.Proof.Region0Data
import proofs.«136604_j21827023798522_1_alg».proof.Proof.LibDot
import proofs.«136604_j21827023798522_1_alg».proof.Proof.Spec
import proofs.«136604_j21827023798522_1_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Rg0Val

open Cert.KernelIdeal Cert.KernelIdeal.Gen Cert.KernelIdeal.Rg0
open Idealize.ShloMosaic Idealize.ShloMosaic.TcCoe Idealize.ShloMosaic.Tactic Idealize.ShloMosaic.ValueIdx
open Idealize.SL.Sem
open Idealize.ShloMosaic.Pipeline (Dat Cfg Window)

local notation "TM" => (1024 : ℕ)
local notation "TK" => (2048 : ℕ)
local notation "TN" => (1024 : ℕ)
local notation "WM" => (8192 : ℕ)
local notation "WK" => (8192 : ℕ)
local notation "WN" => (8192 : ℕ)
local notation "NJ" => (8 : ℕ)
local notation "PR" => (32 : ℕ)
local notation "NP" => (256 : ℕ)
local notation "SA" => S1024x2048
local notation "SB" => S2048x1024
local notation "SR" => S1x1024
local notation "SC" => S1024x1024
local notation "WA" => S8192x8192
local notation "WB" => S8192x8192
local notation "WR" => S1x8192
local notation "WC" => S8192x8192
local notation "refA" => main_v0
local notation "refB" => main_v1
local notation "refR" => main_v2
local notation "refC" => main_v3

section Pieces

variable {F : FTy → Type} [FloatOps F]

theorem hz : (![0, 0] : Fin 2 → Nat) = fun _ => 0 := funext fun a => by fin_cases a <;> rfl

variable (c : Dev nD) (i : grid0.Coords) (arg3 : Memref sig .tc .vmem SA .bf16) (harg3 : arg3.IsWhole) (arg4 : Memref sig .tc .vmem SB .bf16) (harg4 : arg4.IsWhole)
  (arg5 : Memref sig .tc .vmem SR .f32) (harg5 : arg5.IsWhole) (arg6 : Memref sig .tc .vmem SC .f32) (harg6 : arg6.IsWhole) (arg7 : Memref sig .tc .vmem SC .f32) (harg7 : arg7.IsWhole)

theorem accA_eq (hF : condF i) (hL : ¬condL i) (x0 : Vec F SA .bf16) (x1 : Vec F SB .bf16) :
    accA c i arg3 harg3 arg4 harg4 arg5 harg5 arg6 harg6 arg7 harg7 hF hL x0 x1 = k0_pay2 (k0_pay1 (F := F)) x0 x1 := by
  unfold accA
  rw [View.read_writes_eq_canon _ _ _ (scoverA c i arg3 harg3 arg4 harg4 arg5 harg5 arg6 harg6 arg7 harg7 hF hL x0 x1)]
  unfold runA
  dsimp only
  sl_unfold_words
  rw [View.canon_cons_unit_zero (S := SC) hz, View.readCov_unit_zero (S := SC) _ hz]
  simp only [View.readAt_eq_ld, harg3.read_unread, harg4.read_unread, View.ld_unit_zero (S := SA) hz,
    View.ld_unit_zero (S := SB) hz]

theorem accB_eq (hF : ¬condF i) (hL : ¬condL i) (x0 : Vec F SA .bf16) (x1 : Vec F SB .bf16) (xs : Vec F SC .f32) :
    accB c i arg3 harg3 arg4 harg4 arg5 harg5 arg6 harg6 arg7 harg7 hF hL x0 x1 xs = k0_pay2 xs x0 x1 := by
  unfold accB
  rw [View.read_writes_eq_canon _ _ _ (scoverB c i arg3 harg3 arg4 harg4 arg5 harg5 arg6 harg6 arg7 harg7 hF hL x0 x1 xs)]
  unfold runB
  dsimp only
  sl_unfold_words
  rw [View.canon_unit_zero hz]
  simp only [View.readAt_eq_ld, harg3.read_unread, harg4.read_unread, harg7.read_unread,
    View.ld_unit_zero (S := SA) hz, View.ld_unit_zero (S := SB) hz, View.ld_unit_zero (S := SC) hz]

theorem accC_eq (hF : ¬condF i) (hL : condL i) (x0 : Vec F SA .bf16) (x1 : Vec F SB .bf16) (x2 : Vec F SR .f32) (xs : Vec F SC .f32) :
    accC c i arg3 harg3 arg4 harg4 arg5 harg5 arg6 harg6 arg7 harg7 hF hL x0 x1 x2 xs = k0_pay2 xs x0 x1 := by
  unfold accC
  rw [View.read_writes_eq_canon _ _ _ (scoverC c i arg3 harg3 arg4 harg4 arg5 harg5 arg6 harg6 arg7 harg7 hF hL x0 x1 x2 xs)]
  unfold runC
  dsimp only
  sl_unfold_words
  rw [View.canon_unit_zero hz]
  simp only [View.readAt_eq_ld, harg3.read_unread, harg4.read_unread, harg7.read_unread,
    View.ld_unit_zero (S := SA) hz, View.ld_unit_zero (S := SB) hz, View.ld_unit_zero (S := SC) hz]

theorem outC_eq (hF : ¬condF i) (hL : condL i) (x0 : Vec F SA .bf16) (x1 : Vec F SB .bf16) (x2 : Vec F SR .f32) (xs : Vec F SC .f32) :
    outC c i arg3 harg3 arg4 harg4 arg5 harg5 arg6 harg6 arg7 harg7 hF hL x0 x1 x2 xs = k0_pay3 (k0_pay2 xs x0 x1) x2 := by
  unfold outC
  rw [View.read_writes_eq_canon _ _ _ (coverC c i arg3 harg3 arg4 harg4 arg5 harg5 arg6 harg6 arg7 harg7 hF hL x0 x1 x2 xs)]
  unfold runC
  dsimp only
  sl_unfold_words
  rw [View.canon_unit_zero hz, View.readCov_unit_zero (S := SC) _ hz]
  simp only [View.readAt_eq_ld, harg3.read_unread, harg4.read_unread, harg5.read_unread, harg7.read_unread,
    View.ld_unit_zero (S := SA) hz, View.ld_unit_zero (S := SB) hz, View.ld_unit_zero (S := SC) hz,
    View.ld_unit_zero (S := SR) hz]

end Pieces

section Payloads

theorem pay1_apply (p : Fin TM) (q : Fin TN) : k0_pay1 (F := Ideal) (ix2 p q) = 0 := by
  unfold k0_pay1
  rw [shapeCast_self]
  exact Ideal.ofBits_zero_f32

theorem pay2_apply (xs : Vec Ideal SC .f32) (x0 : Vec Ideal SA .bf16) (x1 : Vec Ideal SB .bf16)
    (p : Fin TM) (q : Fin TN) :
    k0_pay2 xs x0 x1 (ix2 p q) = xs (ix2 p q) + ∑ kk : Fin TK, x0 (ix2 p kk) * x1 (ix2 kk q) := by
  unfold k0_pay2
  rw [shapeCast_self, shapeCast_self, shapeCast_self, addf_apply,
    Cert.LibDot.matmul_10_zero_apply _ rfl rfl rfl rfl rfl rfl]

theorem pay3_apply (acc : Vec Ideal SC .f32) (bias : Vec Ideal SR .f32) (p : Fin TM) (q : Fin TN) :
    k0_pay3 acc bias (ix2 p q) = max (acc (ix2 p q) + bias (ix2 (0 : Fin 1) q)) 0 := by
  unfold k0_pay3
  rw [shapeCast_self, maximumf_apply, addf_apply, broadcastTo_1b_ab_apply]
  show max _ (Ideal.ofBits .f32 0x00000000#32) = _
  rw [Ideal.ofBits_zero_f32]

end Payloads

section Blocks

variable (V : (c : Dev nD) → (b : Ref sig .tc) → Buf (Elt Ideal) ((c : Thread nD τ).loc b))

theorem idx_facts : ∀ t : Fin cfg0.N,
    win0_0.index t (0 : Fin 2) = t.val / PR ∧ win0_0.index t (1 : Fin 2) = t.val % 4 ∧
    win0_1.index t (0 : Fin 2) = t.val % 4 ∧ win0_1.index t (1 : Fin 2) = t.val / 4 % NJ ∧
    win0_2.index t (0 : Fin 2) = 0 ∧ win0_2.index t (1 : Fin 2) = t.val / 4 % NJ ∧
    win0_3.index t (0 : Fin 2) = t.val / PR ∧ win0_3.index t (1 : Fin 2) = t.val / 4 % NJ :=
  (by decide +kernel : ∀ t : Fin grid0.N, _)

abbrev tileA (c : Dev nD) (t : Fin cfg0.N) : (SA).Idx → EReal := iblk V c 0 t
abbrev tileB (c : Dev nD) (t : Fin cfg0.N) : (SB).Idx → EReal := iblk V c 1 t
abbrev tileR (c : Dev nD) (t : Fin cfg0.N) : (SR).Idx → EReal := iblk V c 2 t

theorem tileA_apply (c : Dev nD) (t : Fin cfg0.N) (p : Fin TM) (kk : Fin TK) (r : Fin WM) (s : Fin WK)
    (hr : r.val = t.val / PR * TM + p.val) (hs : s.val = t.val % 4 * TK + kk.val) :
    tileA V c t (ix2 p kk) = (V c refA : (WA).Idx → EReal) (ix2 r s) := by
  obtain ⟨h0, h1, -⟩ := idx_facts t
  unfold tileA iblk
  rw [View.read_apply]
  show (V c refA : (WA).Idx → EReal) _ = _
  congr 1
  funext a
  apply Fin.ext
  match a with
  | ⟨0, _⟩ => show win0_0.index t (0 : Fin 2) * TM + 1 * p.val = r.val; rw [h0, hr]; omega
  | ⟨1, _⟩ => show win0_0.index t (1 : Fin 2) * TK + 1 * kk.val = s.val; rw [h1, hs]; omega

theorem tileB_apply (c : Dev nD) (t : Fin cfg0.N) (kk : Fin TK) (q : Fin TN) (r : Fin WK) (s : Fin WN)
    (hr : r.val = t.val % 4 * TK + kk.val) (hs : s.val = t.val / 4 % NJ * TN + q.val) :
    tileB V c t (ix2 kk q) = (V c refB : (WB).Idx → EReal) (ix2 r s) := by
  obtain ⟨-, -, h0, h1, -⟩ := idx_facts t
  unfold tileB iblk
  rw [View.read_apply]
  show (V c refB : (WB).Idx → EReal) _ = _
  congr 1
  funext a
  apply Fin.ext
  match a with
  | ⟨0, _⟩ => show win0_1.index t (0 : Fin 2) * TK + 1 * kk.val = r.val; rw [h0, hr]; omega
  | ⟨1, _⟩ => show win0_1.index t (1 : Fin 2) * TN + 1 * q.val = s.val; rw [h1, hs]; omega

theorem tileR_apply (c : Dev nD) (t : Fin cfg0.N) (q : Fin TN) (s : Fin WN)
    (hs : s.val = t.val / 4 % NJ * TN + q.val) :
    tileR V c t (ix2 (0 : Fin 1) q) = (V c refR : (WR).Idx → EReal) (ix2 (0 : Fin 1) s) := by
  obtain ⟨-, -, -, -, h0, h1, -⟩ := idx_facts t
  unfold tileR iblk
  rw [View.read_apply]
  show (V c refR : (WR).Idx → EReal) _ = _
  congr 1
  funext a
  apply Fin.ext
  match a with
  | ⟨0, _⟩ => show win0_2.index t (0 : Fin 2) * 1 + 1 * 0 = 0; rw [h0]
  | ⟨1, _⟩ => show win0_2.index t (1 : Fin 2) * TN + 1 * q.val = s.val; rw [h1, hs]; omega

end Blocks

section Accumulation

variable (V : (c : Dev nD) → (b : Ref sig .tc) → Buf (Elt Ideal) ((c : Thread nD τ).loc b))

def tileProd (c : Dev nD) (n : ℕ) (hn : n < cfg0.N) (p : Fin TM) (q : Fin TN) : EReal :=
  ∑ kk : Fin TK, tileA V c ⟨n, hn⟩ (ix2 p kk) * tileB V c ⟨n, hn⟩ (ix2 kk q)

theorem acc_first (c : Dev nD) (n : ℕ) (hn : n < cfg0.N) (h0 : n % 4 = 0) (p : Fin TM) (q : Fin TN) :
    (outsAt V c n hn).2 (ix2 p q) = 0 + tileProd V c n hn p q := by
  rw [show outsAt V c n hn = _ from outsAt_A V c ⟨n, hn⟩ h0]
  dsimp only
  unfold aA
  rw [accA_eq, pay2_apply, pay1_apply]
  rfl

theorem acc_next (c : Dev nD) (n : ℕ) (hn : n < cfg0.N) (h0 : ¬n % 4 = 0) (hn' : n - 1 < cfg0.N) (p : Fin TM) (q : Fin TN) :
    (outsAt V c n hn).2 (ix2 p q) = (outsAt V c (n - 1) hn').2 (ix2 p q) + tileProd V c n hn p q := by
  by_cases h1 : n % 4 = 3
  · rw [show outsAt V c n hn = _ from outsAt_C V c ⟨n, hn⟩ h0 h1]
    dsimp only
    unfold aC
    rw [accC_eq, pay2_apply]
    rfl
  · rw [show outsAt V c n hn = _ from outsAt_B V c ⟨n, hn⟩ h0 h1]
    dsimp only
    unfold aB
    rw [accB_eq, pay2_apply]
    rfl

theorem out_last (c : Dev nD) (n : ℕ) (hn : n < cfg0.N) (h0 : ¬n % 4 = 0) (h1 : n % 4 = 3) (hn' : n - 1 < cfg0.N)
    (p : Fin TM) (q : Fin TN) :
    (outsAt V c n hn).1 (ix2 p q)
      = max ((outsAt V c (n - 1) hn').2 (ix2 p q) + tileProd V c n hn p q
          + tileR V c ⟨n, hn⟩ (ix2 (0 : Fin 1) q)) 0 := by
  rw [show outsAt V c n hn = _ from outsAt_C V c ⟨n, hn⟩ h0 h1]
  dsimp only
  unfold oC
  rw [outC_eq, pay3_apply, pay2_apply]
  rfl

end Accumulation

section Result

variable (V : (c : Dev nD) → (b : Ref sig .tc) → Buf (Elt Ideal) ((c : Thread nD τ).loc b))

abbrev matA (c : Dev nD) : Fin WM → Fin WK → EReal := fun i k => (V c refA : (WA).Idx → EReal) (ix2 i k)
abbrev matB (c : Dev nD) : Fin WK → Fin WN → EReal := fun k j => (V c refB : (WB).Idx → EReal) (ix2 k j)
abbrev rowR (c : Dev nD) : Fin WN → EReal := fun j => (V c refR : (WR).Idx → EReal) (ix2 (0 : Fin 1) j)

theorem tileProd_eq (c : Dev nD) (n : ℕ) (hn : n < cfg0.N) (p : Fin TM) (q : Fin TN) (r : Fin WM) (s : Fin WN) (d : ℕ) (hd : d < 4)
    (hr : r.val = n / PR * TM + p.val) (hs : s.val = n / 4 % NJ * TN + q.val) (hdd : n % 4 = d) :
    tileProd V c n hn p q
      = ∑ kk : Fin TK, matA V c r ⟨d * TK + kk.val, by have := kk.isLt; omega⟩
          * matB V c ⟨d * TK + kk.val, by have := kk.isLt; omega⟩ s := by
  subst hdd
  unfold tileProd
  refine Finset.sum_congr rfl fun kk _ => ?_
  rw [tileA_apply V c ⟨n, hn⟩ p kk r ⟨n % 4 * TK + kk.val, by have := kk.isLt; omega⟩ hr rfl,
    tileB_apply V c ⟨n, hn⟩ kk q ⟨n % 4 * TK + kk.val, by have := kk.isLt; omega⟩ s rfl hs]

-- The four consecutive depth blocks of the defining sum add up to the whole sum.
theorem acc_depth3 (c : Dev nD) (n : ℕ) (hn : n < cfg0.N) (h3 : n % 4 = 3) (hn' : n - 1 < cfg0.N) (p : Fin TM) (q : Fin TN)
    (r : Fin WM) (s : Fin WN) (hr : r.val = n / PR * TM + p.val) (hs : s.val = n / 4 % NJ * TN + q.val) :
    (outsAt V c (n - 1) hn').2 (ix2 p q) + tileProd V c n hn p q = Cert.Spec.mm (matA V c) (matB V c) r s := by
  have hN : cfg0.N = NP := N_0
  rw [acc_next V c (n - 1) hn' (by omega) (by omega) p q,
    acc_next V c (n - 1 - 1) (by omega) (by omega) (by omega) p q,
    acc_first V c (n - 1 - 1 - 1) (by omega) (by omega) p q,
    tileProd_eq V c (n - 1 - 1 - 1) (by omega) p q r s 0 (by omega) (by omega) (by omega) (by omega),
    tileProd_eq V c (n - 1 - 1) (by omega) p q r s 1 (by omega) (by omega) (by omega) (by omega),
    tileProd_eq V c (n - 1) (by omega) p q r s 2 (by omega) (by omega) (by omega) (by omega),
    tileProd_eq V c n hn p q r s 3 (by omega) hr hs h3]
  exact Cert.Spec.sum_four_blocks (fun k => matA V c r k * matB V c k s)

theorem out_depth3 (c : Dev nD) (t : Fin cfg0.N) (h3 : t.val % 4 = 3) (p : Fin TM) (q : Fin TN)
    (r : Fin WM) (s : Fin WN) (hr : r.val = t.val / PR * TM + p.val) (hs : s.val = t.val / 4 % NJ * TN + q.val) :
    (outsAt V c t.val t.isLt).1 (ix2 p q) = max (Cert.Spec.mm (matA V c) (matB V c) r s + rowR V c s) 0 := by
  have hN : cfg0.N = NP := N_0
  have hn' : t.val - 1 < cfg0.N := by have := t.isLt; omega
  rw [out_last V c t.val t.isLt (by omega) h3 hn' p q, acc_depth3 V c t.val t.isLt h3 hn' p q r s hr hs,
    tileR_apply V c ⟨t.val, t.isLt⟩ q s hs]

end Result

section Final

variable (V : (c : Dev nD) → (b : Ref sig .tc) → Buf (Elt Ideal) ((c : Thread nD τ).loc b))

def G (c : Dev nD) : (WC).Idx → EReal :=
  fun i => max (Cert.Spec.mm (matA V c) (matB V c) (i 0) (i 1) + rowR V c (i 1)) 0

theorem flushed_eq (c : Dev nD) (t : Fin cfg0.N) (hf : (cfg0.win 3).flush t = true) :
    (dat V c).flushed 3 t = ((cfg0.win 3).blk t).view.read (Elt Ideal) (G V c) := by
  have h3 : t.val % 4 = 3 := (flush0_3 t).mp hf
  have hN : cfg0.N = NP := N_0
  have ht := t.isLt
  obtain ⟨-, -, -, -, -, -, i0, i1⟩ := idx_facts t
  funext j
  obtain ⟨p, q, rfl⟩ : ∃ (p : Fin TM) (q : Fin TN), j = ix2 p q := ⟨j 0, j 1, eq_ix2 j⟩
  rw [View.read_apply]
  show (outsAt V c t.val t.isLt).1 (ix2 p q) = G V c _
  rw [out_depth3 V c t h3 p q ⟨t.val / PR * TM + p.val, by have := p.isLt; omega⟩
    ⟨t.val / 4 % NJ * TN + q.val, by have := q.isLt; omega⟩ rfl rfl]
  have e0 : ((cfg0.win 3).blk t).view.emb (ix2 p q) (0 : Fin 2)
      = (⟨t.val / PR * TM + p.val, by have := p.isLt; omega⟩ : Fin WM) :=
    Fin.ext (by show win0_3.index t (0 : Fin 2) * TM + 1 * p.val = t.val / PR * TM + p.val; rw [i0]; omega)
  have e1 : ((cfg0.win 3).blk t).view.emb (ix2 p q) (1 : Fin 2)
      = (⟨t.val / 4 % NJ * TN + q.val, by have := q.isLt; omega⟩ : Fin WN) :=
    Fin.ext (by show win0_3.index t (1 : Fin 2) * TN + 1 * q.val = t.val / 4 % NJ * TN + q.val; rw [i1]; omega)
  unfold G
  rw [e0, e1]

-- Every entry lies in the tile written at the last depth point of its row tile and column tile.
theorem cover (i : (WC).Idx) :
    ∃ t : Fin cfg0.N, (cfg0.win 3).flush t = true ∧ i ∈ ((cfg0.win 3).blk t).view.set := by
  have hN : cfg0.N = NP := N_0
  have h0 : (i 0).val < WM := (i 0).isLt
  have h1 : (i 1).val < WN := (i 1).isLt
  let t : Fin cfg0.N := ⟨(i 0).val / TM * PR + (i 1).val / TN * 4 + 3, by omega⟩
  have htv : t.val = (i 0).val / TM * PR + (i 1).val / TN * 4 + 3 := rfl
  obtain ⟨-, -, -, -, -, -, i0, i1⟩ := idx_facts t
  refine ⟨t, (flush0_3 t).mpr (by omega), ?_⟩
  show i ∈ ((View.whole refC).slice (win0_3.rect t)).set
  rw [View.set_slice_whole, Rect.mem_set_unit]
  intro a
  match a with
  | ⟨0, _⟩ =>
    show win0_3.index t (0 : Fin 2) * TM ≤ (i 0).val ∧ (i 0).val < win0_3.index t (0 : Fin 2) * TM + TM
    rw [i0]; omega
  | ⟨1, _⟩ =>
    show win0_3.index t (1 : Fin 2) * TN ≤ (i 1).val ∧ (i 1).val < win0_3.index t (1 : Fin 2) * TN + TN
    rw [i1]; omega

-- What the call leaves: the product of the two operands plus the bias on the columns, after the call's cut if it has one.
theorem final (c : Dev nD) (a : Fin WM) (b : Fin WN) :
    ((dat V c).arrAt 3 cfg0.N : (WC).Idx → EReal) (ix2 a b)
      = max (Cert.Spec.mm (fun i k => (V c refA : (WA).Idx → EReal) (ix2 i k))
          (fun k j => (V c refB : (WB).Idx → EReal) (ix2 k j)) a b
          + (V c refR : (WR).Idx → EReal) (ix2 (0 : Fin 1) b)) 0 := by
  rw [(dat V c).arrAt_eq_of_cover 3 (G V c) (flushed_eq V c) cover]
  rfl

end Final

end Cert.KernelIdeal.Rg0Val

end
-- ==== Proof.Region1Val.lean ====
import proofs.«136604_j21827023798522_1_alg».proof.Proof.Region1Data
import proofs.«136604_j21827023798522_1_alg».proof.Proof.LibDot
import proofs.«136604_j21827023798522_1_alg».proof.Proof.Spec
import proofs.«136604_j21827023798522_1_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Rg1Val

open Cert.KernelIdeal Cert.KernelIdeal.Gen Cert.KernelIdeal.Rg1
open Idealize.ShloMosaic Idealize.ShloMosaic.TcCoe Idealize.ShloMosaic.Tactic Idealize.ShloMosaic.ValueIdx
open Idealize.SL.Sem
open Idealize.ShloMosaic.Pipeline (Dat Cfg Window)

local notation "TM" => (1024 : ℕ)
local notation "TK" => (2048 : ℕ)
local notation "TN" => (256 : ℕ)
local notation "WM" => (8192 : ℕ)
local notation "WK" => (8192 : ℕ)
local notation "WN" => (256 : ℕ)
local notation "NJ" => (1 : ℕ)
local notation "PR" => (4 : ℕ)
local notation "NP" => (32 : ℕ)
local notation "SA" => S1024x2048
local notation "SB" => S2048x256
local notation "SR" => S1x256
local notation "SC" => S1024x256
local notation "WA" => S8192x8192
local notation "WB" => S8192x256
local notation "WR" => S1x256
local notation "WC" => S8192x256
local notation "refA" => main_v32
local notation "refB" => main_v34
local notation "refR" => main_v35
local notation "refC" => main_v36

section Pieces

variable {F : FTy → Type} [FloatOps F]

theorem hz : (![0, 0] : Fin 2 → Nat) = fun _ => 0 := funext fun a => by fin_cases a <;> rfl

variable (c : Dev nD) (i : grid1.Coords) (arg3 : Memref sig .tc .vmem SA .bf16) (harg3 : arg3.IsWhole) (arg4 : Memref sig .tc .vmem SB .bf16) (harg4 : arg4.IsWhole)
  (arg5 : Memref sig .tc .vmem SR .f32) (harg5 : arg5.IsWhole) (arg6 : Memref sig .tc .vmem SC .f32) (harg6 : arg6.IsWhole) (arg7 : Memref sig .tc .vmem SC .f32) (harg7 : arg7.IsWhole)

theorem accA_eq (hF : condF i) (hL : ¬condL i) (x0 : Vec F SA .bf16) (x1 : Vec F SB .bf16) :
    accA c i arg3 harg3 arg4 harg4 arg5 harg5 arg6 harg6 arg7 harg7 hF hL x0 x1 = k1_pay2 (k1_pay1 (F := F)) x0 x1 := by
  unfold accA
  rw [View.read_writes_eq_canon _ _ _ (scoverA c i arg3 harg3 arg4 harg4 arg5 harg5 arg6 harg6 arg7 harg7 hF hL x0 x1)]
  unfold runA
  dsimp only
  sl_unfold_words
  rw [View.canon_cons_unit_zero (S := SC) hz, View.readCov_unit_zero (S := SC) _ hz]
  simp only [View.readAt_eq_ld, harg3.read_unread, harg4.read_unread, View.ld_unit_zero (S := SA) hz,
    View.ld_unit_zero (S := SB) hz]

theorem accB_eq (hF : ¬condF i) (hL : ¬condL i) (x0 : Vec F SA .bf16) (x1 : Vec F SB .bf16) (xs : Vec F SC .f32) :
    accB c i arg3 harg3 arg4 harg4 arg5 harg5 arg6 harg6 arg7 harg7 hF hL x0 x1 xs = k1_pay2 xs x0 x1 := by
  unfold accB
  rw [View.read_writes_eq_canon _ _ _ (scoverB c i arg3 harg3 arg4 harg4 arg5 harg5 arg6 harg6 arg7 harg7 hF hL x0 x1 xs)]
  unfold runB
  dsimp only
  sl_unfold_words
  rw [View.canon_unit_zero hz]
  simp only [View.readAt_eq_ld, harg3.read_unread, harg4.read_unread, harg7.read_unread,
    View.ld_unit_zero (S := SA) hz, View.ld_unit_zero (S := SB) hz, View.ld_unit_zero (S := SC) hz]

theorem accC_eq (hF : ¬condF i) (hL : condL i) (x0 : Vec F SA .bf16) (x1 : Vec F SB .bf16) (x2 : Vec F SR .f32) (xs : Vec F SC .f32) :
    accC c i arg3 harg3 arg4 harg4 arg5 harg5 arg6 harg6 arg7 harg7 hF hL x0 x1 x2 xs = k1_pay2 xs x0 x1 := by
  unfold accC
  rw [View.read_writes_eq_canon _ _ _ (scoverC c i arg3 harg3 arg4 harg4 arg5 harg5 arg6 harg6 arg7 harg7 hF hL x0 x1 x2 xs)]
  unfold runC
  dsimp only
  sl_unfold_words
  rw [View.canon_unit_zero hz]
  simp only [View.readAt_eq_ld, harg3.read_unread, harg4.read_unread, harg7.read_unread,
    View.ld_unit_zero (S := SA) hz, View.ld_unit_zero (S := SB) hz, View.ld_unit_zero (S := SC) hz]

theorem outC_eq (hF : ¬condF i) (hL : condL i) (x0 : Vec F SA .bf16) (x1 : Vec F SB .bf16) (x2 : Vec F SR .f32) (xs : Vec F SC .f32) :
    outC c i arg3 harg3 arg4 harg4 arg5 harg5 arg6 harg6 arg7 harg7 hF hL x0 x1 x2 xs = k1_pay3 (k1_pay2 xs x0 x1) x2 := by
  unfold outC
  rw [View.read_writes_eq_canon _ _ _ (coverC c i arg3 harg3 arg4 harg4 arg5 harg5 arg6 harg6 arg7 harg7 hF hL x0 x1 x2 xs)]
  unfold runC
  dsimp only
  sl_unfold_words
  rw [View.canon_unit_zero hz, View.readCov_unit_zero (S := SC) _ hz]
  simp only [View.readAt_eq_ld, harg3.read_unread, harg4.read_unread, harg5.read_unread, harg7.read_unread,
    View.ld_unit_zero (S := SA) hz, View.ld_unit_zero (S := SB) hz, View.ld_unit_zero (S := SC) hz,
    View.ld_unit_zero (S := SR) hz]

end Pieces

section Payloads

theorem pay1_apply (p : Fin TM) (q : Fin TN) : k1_pay1 (F := Ideal) (ix2 p q) = 0 := by
  unfold k1_pay1
  rw [shapeCast_self]
  exact Ideal.ofBits_zero_f32

theorem pay2_apply (xs : Vec Ideal SC .f32) (x0 : Vec Ideal SA .bf16) (x1 : Vec Ideal SB .bf16)
    (p : Fin TM) (q : Fin TN) :
    k1_pay2 xs x0 x1 (ix2 p q) = xs (ix2 p q) + ∑ kk : Fin TK, x0 (ix2 p kk) * x1 (ix2 kk q) := by
  unfold k1_pay2
  rw [shapeCast_self, shapeCast_self, shapeCast_self, addf_apply,
    Cert.LibDot.matmul_10_zero_apply _ rfl rfl rfl rfl rfl rfl]

theorem pay3_apply (acc : Vec Ideal SC .f32) (bias : Vec Ideal SR .f32) (p : Fin TM) (q : Fin TN) :
    k1_pay3 acc bias (ix2 p q) = max (acc (ix2 p q) + bias (ix2 (0 : Fin 1) q)) 0 := by
  unfold k1_pay3
  rw [shapeCast_self, maximumf_apply, addf_apply, broadcastTo_1b_ab_apply]
  show max _ (Ideal.ofBits .f32 0x00000000#32) = _
  rw [Ideal.ofBits_zero_f32]

end Payloads

section Blocks

variable (V : (c : Dev nD) → (b : Ref sig .tc) → Buf (Elt Ideal) ((c : Thread nD τ).loc b))

theorem idx_facts : ∀ t : Fin cfg1.N,
    win1_0.index t (0 : Fin 2) = t.val / PR ∧ win1_0.index t (1 : Fin 2) = t.val % 4 ∧
    win1_1.index t (0 : Fin 2) = t.val % 4 ∧ win1_1.index t (1 : Fin 2) = t.val / 4 % NJ ∧
    win1_2.index t (0 : Fin 2) = 0 ∧ win1_2.index t (1 : Fin 2) = t.val / 4 % NJ ∧
    win1_3.index t (0 : Fin 2) = t.val / PR ∧ win1_3.index t (1 : Fin 2) = t.val / 4 % NJ :=
  (by decide +kernel : ∀ t : Fin grid1.N, _)

abbrev tileA (c : Dev nD) (t : Fin cfg1.N) : (SA).Idx → EReal := iblk V c 0 t
abbrev tileB (c : Dev nD) (t : Fin cfg1.N) : (SB).Idx → EReal := iblk V c 1 t
abbrev tileR (c : Dev nD) (t : Fin cfg1.N) : (SR).Idx → EReal := iblk V c 2 t

theorem tileA_apply (c : Dev nD) (t : Fin cfg1.N) (p : Fin TM) (kk : Fin TK) (r : Fin WM) (s : Fin WK)
    (hr : r.val = t.val / PR * TM + p.val) (hs : s.val = t.val % 4 * TK + kk.val) :
    tileA V c t (ix2 p kk) = (V c refA : (WA).Idx → EReal) (ix2 r s) := by
  obtain ⟨h0, h1, -⟩ := idx_facts t
  unfold tileA iblk
  rw [View.read_apply]
  show (V c refA : (WA).Idx → EReal) _ = _
  congr 1
  funext a
  apply Fin.ext
  match a with
  | ⟨0, _⟩ => show win1_0.index t (0 : Fin 2) * TM + 1 * p.val = r.val; rw [h0, hr]; omega
  | ⟨1, _⟩ => show win1_0.index t (1 : Fin 2) * TK + 1 * kk.val = s.val; rw [h1, hs]; omega

theorem tileB_apply (c : Dev nD) (t : Fin cfg1.N) (kk : Fin TK) (q : Fin TN) (r : Fin WK) (s : Fin WN)
    (hr : r.val = t.val % 4 * TK + kk.val) (hs : s.val = t.val / 4 % NJ * TN + q.val) :
    tileB V c t (ix2 kk q) = (V c refB : (WB).Idx → EReal) (ix2 r s) := by
  obtain ⟨-, -, h0, h1, -⟩ := idx_facts t
  unfold tileB iblk
  rw [View.read_apply]
  show (V c refB : (WB).Idx → EReal) _ = _
  congr 1
  funext a
  apply Fin.ext
  match a with
  | ⟨0, _⟩ => show win1_1.index t (0 : Fin 2) * TK + 1 * kk.val = r.val; rw [h0, hr]; omega
  | ⟨1, _⟩ => show win1_1.index t (1 : Fin 2) * TN + 1 * q.val = s.val; rw [h1, hs]; omega

theorem tileR_apply (c : Dev nD) (t : Fin cfg1.N) (q : Fin TN) (s : Fin WN)
    (hs : s.val = t.val / 4 % NJ * TN + q.val) :
    tileR V c t (ix2 (0 : Fin 1) q) = (V c refR : (WR).Idx → EReal) (ix2 (0 : Fin 1) s) := by
  obtain ⟨-, -, -, -, h0, h1, -⟩ := idx_facts t
  unfold tileR iblk
  rw [View.read_apply]
  show (V c refR : (WR).Idx → EReal) _ = _
  congr 1
  funext a
  apply Fin.ext
  match a with
  | ⟨0, _⟩ => show win1_2.index t (0 : Fin 2) * 1 + 1 * 0 = 0; rw [h0]
  | ⟨1, _⟩ => show win1_2.index t (1 : Fin 2) * TN + 1 * q.val = s.val; rw [h1, hs]; omega

end Blocks

section Accumulation

variable (V : (c : Dev nD) → (b : Ref sig .tc) → Buf (Elt Ideal) ((c : Thread nD τ).loc b))

def tileProd (c : Dev nD) (n : ℕ) (hn : n < cfg1.N) (p : Fin TM) (q : Fin TN) : EReal :=
  ∑ kk : Fin TK, tileA V c ⟨n, hn⟩ (ix2 p kk) * tileB V c ⟨n, hn⟩ (ix2 kk q)

theorem acc_first (c : Dev nD) (n : ℕ) (hn : n < cfg1.N) (h0 : n % 4 = 0) (p : Fin TM) (q : Fin TN) :
    (outsAt V c n hn).2 (ix2 p q) = 0 + tileProd V c n hn p q := by
  rw [show outsAt V c n hn = _ from outsAt_A V c ⟨n, hn⟩ h0]
  dsimp only
  unfold aA
  rw [accA_eq, pay2_apply, pay1_apply]
  rfl

theorem acc_next (c : Dev nD) (n : ℕ) (hn : n < cfg1.N) (h0 : ¬n % 4 = 0) (hn' : n - 1 < cfg1.N) (p : Fin TM) (q : Fin TN) :
    (outsAt V c n hn).2 (ix2 p q) = (outsAt V c (n - 1) hn').2 (ix2 p q) + tileProd V c n hn p q := by
  by_cases h1 : n % 4 = 3
  · rw [show outsAt V c n hn = _ from outsAt_C V c ⟨n, hn⟩ h0 h1]
    dsimp only
    unfold aC
    rw [accC_eq, pay2_apply]
    rfl
  · rw [show outsAt V c n hn = _ from outsAt_B V c ⟨n, hn⟩ h0 h1]
    dsimp only
    unfold aB
    rw [accB_eq, pay2_apply]
    rfl

theorem out_last (c : Dev nD) (n : ℕ) (hn : n < cfg1.N) (h0 : ¬n % 4 = 0) (h1 : n % 4 = 3) (hn' : n - 1 < cfg1.N)
    (p : Fin TM) (q : Fin TN) :
    (outsAt V c n hn).1 (ix2 p q)
      = max ((outsAt V c (n - 1) hn').2 (ix2 p q) + tileProd V c n hn p q
          + tileR V c ⟨n, hn⟩ (ix2 (0 : Fin 1) q)) 0 := by
  rw [show outsAt V c n hn = _ from outsAt_C V c ⟨n, hn⟩ h0 h1]
  dsimp only
  unfold oC
  rw [outC_eq, pay3_apply, pay2_apply]
  rfl

end Accumulation

section Result

variable (V : (c : Dev nD) → (b : Ref sig .tc) → Buf (Elt Ideal) ((c : Thread nD τ).loc b))

abbrev matA (c : Dev nD) : Fin WM → Fin WK → EReal := fun i k => (V c refA : (WA).Idx → EReal) (ix2 i k)
abbrev matB (c : Dev nD) : Fin WK → Fin WN → EReal := fun k j => (V c refB : (WB).Idx → EReal) (ix2 k j)
abbrev rowR (c : Dev nD) : Fin WN → EReal := fun j => (V c refR : (WR).Idx → EReal) (ix2 (0 : Fin 1) j)

theorem tileProd_eq (c : Dev nD) (n : ℕ) (hn : n < cfg1.N) (p : Fin TM) (q : Fin TN) (r : Fin WM) (s : Fin WN) (d : ℕ) (hd : d < 4)
    (hr : r.val = n / PR * TM + p.val) (hs : s.val = n / 4 % NJ * TN + q.val) (hdd : n % 4 = d) :
    tileProd V c n hn p q
      = ∑ kk : Fin TK, matA V c r ⟨d * TK + kk.val, by have := kk.isLt; omega⟩
          * matB V c ⟨d * TK + kk.val, by have := kk.isLt; omega⟩ s := by
  subst hdd
  unfold tileProd
  refine Finset.sum_congr rfl fun kk _ => ?_
  rw [tileA_apply V c ⟨n, hn⟩ p kk r ⟨n % 4 * TK + kk.val, by have := kk.isLt; omega⟩ hr rfl,
    tileB_apply V c ⟨n, hn⟩ kk q ⟨n % 4 * TK + kk.val, by have := kk.isLt; omega⟩ s rfl hs]

-- The four consecutive depth blocks of the defining sum add up to the whole sum.
theorem acc_depth3 (c : Dev nD) (n : ℕ) (hn : n < cfg1.N) (h3 : n % 4 = 3) (hn' : n - 1 < cfg1.N) (p : Fin TM) (q : Fin TN)
    (r : Fin WM) (s : Fin WN) (hr : r.val = n / PR * TM + p.val) (hs : s.val = n / 4 % NJ * TN + q.val) :
    (outsAt V c (n - 1) hn').2 (ix2 p q) + tileProd V c n hn p q = Cert.Spec.mm (matA V c) (matB V c) r s := by
  have hN : cfg1.N = NP := N_1
  rw [acc_next V c (n - 1) hn' (by omega) (by omega) p q,
    acc_next V c (n - 1 - 1) (by omega) (by omega) (by omega) p q,
    acc_first V c (n - 1 - 1 - 1) (by omega) (by omega) p q,
    tileProd_eq V c (n - 1 - 1 - 1) (by omega) p q r s 0 (by omega) (by omega) (by omega) (by omega),
    tileProd_eq V c (n - 1 - 1) (by omega) p q r s 1 (by omega) (by omega) (by omega) (by omega),
    tileProd_eq V c (n - 1) (by omega) p q r s 2 (by omega) (by omega) (by omega) (by omega),
    tileProd_eq V c n hn p q r s 3 (by omega) hr hs h3]
  exact Cert.Spec.sum_four_blocks (fun k => matA V c r k * matB V c k s)

theorem out_depth3 (c : Dev nD) (t : Fin cfg1.N) (h3 : t.val % 4 = 3) (p : Fin TM) (q : Fin TN)
    (r : Fin WM) (s : Fin WN) (hr : r.val = t.val / PR * TM + p.val) (hs : s.val = t.val / 4 % NJ * TN + q.val) :
    (outsAt V c t.val t.isLt).1 (ix2 p q) = max (Cert.Spec.mm (matA V c) (matB V c) r s + rowR V c s) 0 := by
  have hN : cfg1.N = NP := N_1
  have hn' : t.val - 1 < cfg1.N := by have := t.isLt; omega
  rw [out_last V c t.val t.isLt (by omega) h3 hn' p q, acc_depth3 V c t.val t.isLt h3 hn' p q r s hr hs,
    tileR_apply V c ⟨t.val, t.isLt⟩ q s hs]

end Result

section Final

variable (V : (c : Dev nD) → (b : Ref sig .tc) → Buf (Elt Ideal) ((c : Thread nD τ).loc b))

def G (c : Dev nD) : (WC).Idx → EReal :=
  fun i => max (Cert.Spec.mm (matA V c) (matB V c) (i 0) (i 1) + rowR V c (i 1)) 0

theorem flushed_eq (c : Dev nD) (t : Fin cfg1.N) (hf : (cfg1.win 3).flush t = true) :
    (dat V c).flushed 3 t = ((cfg1.win 3).blk t).view.read (Elt Ideal) (G V c) := by
  have h3 : t.val % 4 = 3 := (flush1_3 t).mp hf
  have hN : cfg1.N = NP := N_1
  have ht := t.isLt
  obtain ⟨-, -, -, -, -, -, i0, i1⟩ := idx_facts t
  funext j
  obtain ⟨p, q, rfl⟩ : ∃ (p : Fin TM) (q : Fin TN), j = ix2 p q := ⟨j 0, j 1, eq_ix2 j⟩
  rw [View.read_apply]
  show (outsAt V c t.val t.isLt).1 (ix2 p q) = G V c _
  rw [out_depth3 V c t h3 p q ⟨t.val / PR * TM + p.val, by have := p.isLt; omega⟩
    ⟨t.val / 4 % NJ * TN + q.val, by have := q.isLt; omega⟩ rfl rfl]
  have e0 : ((cfg1.win 3).blk t).view.emb (ix2 p q) (0 : Fin 2)
      = (⟨t.val / PR * TM + p.val, by have := p.isLt; omega⟩ : Fin WM) :=
    Fin.ext (by show win1_3.index t (0 : Fin 2) * TM + 1 * p.val = t.val / PR * TM + p.val; rw [i0]; omega)
  have e1 : ((cfg1.win 3).blk t).view.emb (ix2 p q) (1 : Fin 2)
      = (⟨t.val / 4 % NJ * TN + q.val, by have := q.isLt; omega⟩ : Fin WN) :=
    Fin.ext (by show win1_3.index t (1 : Fin 2) * TN + 1 * q.val = t.val / 4 % NJ * TN + q.val; rw [i1]; omega)
  unfold G
  rw [e0, e1]

-- Every entry lies in the tile written at the last depth point of its row tile and column tile.
theorem cover (i : (WC).Idx) :
    ∃ t : Fin cfg1.N, (cfg1.win 3).flush t = true ∧ i ∈ ((cfg1.win 3).blk t).view.set := by
  have hN : cfg1.N = NP := N_1
  have h0 : (i 0).val < WM := (i 0).isLt
  have h1 : (i 1).val < WN := (i 1).isLt
  let t : Fin cfg1.N := ⟨(i 0).val / TM * PR + (i 1).val / TN * 4 + 3, by omega⟩
  have htv : t.val = (i 0).val / TM * PR + (i 1).val / TN * 4 + 3 := rfl
  obtain ⟨-, -, -, -, -, -, i0, i1⟩ := idx_facts t
  refine ⟨t, (flush1_3 t).mpr (by omega), ?_⟩
  show i ∈ ((View.whole refC).slice (win1_3.rect t)).set
  rw [View.set_slice_whole, Rect.mem_set_unit]
  intro a
  match a with
  | ⟨0, _⟩ =>
    show win1_3.index t (0 : Fin 2) * TM ≤ (i 0).val ∧ (i 0).val < win1_3.index t (0 : Fin 2) * TM + TM
    rw [i0]; omega
  | ⟨1, _⟩ =>
    show win1_3.index t (1 : Fin 2) * TN ≤ (i 1).val ∧ (i 1).val < win1_3.index t (1 : Fin 2) * TN + TN
    rw [i1]; omega

-- What the call leaves: the product of the two operands plus the bias on the columns, after the call's cut if it has one.
theorem final (c : Dev nD) (a : Fin WM) (b : Fin WN) :
    ((dat V c).arrAt 3 cfg1.N : (WC).Idx → EReal) (ix2 a b)
      = max (Cert.Spec.mm (fun i k => (V c refA : (WA).Idx → EReal) (ix2 i k))
          (fun k j => (V c refB : (WB).Idx → EReal) (ix2 k j)) a b
          + (V c refR : (WR).Idx → EReal) (ix2 (0 : Fin 1) b)) 0 := by
  rw [(dat V c).arrAt_eq_of_cover 3 (G V c) (flushed_eq V c) cover]
  rfl

end Final

end Cert.KernelIdeal.Rg1Val

end
-- ==== Proof.Region2Val.lean ====
import proofs.«136604_j21827023798522_1_alg».proof.Proof.Region2Data
import proofs.«136604_j21827023798522_1_alg».proof.Proof.LibDot
import proofs.«136604_j21827023798522_1_alg».proof.Proof.Spec
import proofs.«136604_j21827023798522_1_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Rg2Val

open Cert.KernelIdeal Cert.KernelIdeal.Gen Cert.KernelIdeal.Rg2
open Idealize.ShloMosaic Idealize.ShloMosaic.TcCoe Idealize.ShloMosaic.Tactic Idealize.ShloMosaic.ValueIdx
open Idealize.SL.Sem
open Idealize.ShloMosaic.Pipeline (Dat Cfg Window)

local notation "TM" => (1024 : ℕ)
local notation "TK" => (2048 : ℕ)
local notation "TN" => (256 : ℕ)
local notation "WM" => (8192 : ℕ)
local notation "WK" => (8192 : ℕ)
local notation "WN" => (256 : ℕ)
local notation "NJ" => (1 : ℕ)
local notation "PR" => (4 : ℕ)
local notation "NP" => (32 : ℕ)
local notation "SA" => S1024x2048
local notation "SB" => S2048x256
local notation "SR" => S1x256
local notation "SC" => S1024x256
local notation "WA" => S8192x8192
local notation "WB" => S8192x256
local notation "WR" => S1x256
local notation "WC" => S8192x256
local notation "refA" => main_v32
local notation "refB" => main_v38
local notation "refR" => main_v39
local notation "refC" => main_v40

section Pieces

variable {F : FTy → Type} [FloatOps F]

theorem hz : (![0, 0] : Fin 2 → Nat) = fun _ => 0 := funext fun a => by fin_cases a <;> rfl

variable (c : Dev nD) (i : grid2.Coords) (arg3 : Memref sig .tc .vmem SA .bf16) (harg3 : arg3.IsWhole) (arg4 : Memref sig .tc .vmem SB .bf16) (harg4 : arg4.IsWhole)
  (arg5 : Memref sig .tc .vmem SR .f32) (harg5 : arg5.IsWhole) (arg6 : Memref sig .tc .vmem SC .f32) (harg6 : arg6.IsWhole) (arg7 : Memref sig .tc .vmem SC .f32) (harg7 : arg7.IsWhole)

theorem accA_eq (hF : condF i) (hL : ¬condL i) (x0 : Vec F SA .bf16) (x1 : Vec F SB .bf16) :
    accA c i arg3 harg3 arg4 harg4 arg5 harg5 arg6 harg6 arg7 harg7 hF hL x0 x1 = k2_pay2 (k2_pay1 (F := F)) x0 x1 := by
  unfold accA
  rw [View.read_writes_eq_canon _ _ _ (scoverA c i arg3 harg3 arg4 harg4 arg5 harg5 arg6 harg6 arg7 harg7 hF hL x0 x1)]
  unfold runA
  dsimp only
  sl_unfold_words
  rw [View.canon_cons_unit_zero (S := SC) hz, View.readCov_unit_zero (S := SC) _ hz]
  simp only [View.readAt_eq_ld, harg3.read_unread, harg4.read_unread, View.ld_unit_zero (S := SA) hz,
    View.ld_unit_zero (S := SB) hz]

theorem accB_eq (hF : ¬condF i) (hL : ¬condL i) (x0 : Vec F SA .bf16) (x1 : Vec F SB .bf16) (xs : Vec F SC .f32) :
    accB c i arg3 harg3 arg4 harg4 arg5 harg5 arg6 harg6 arg7 harg7 hF hL x0 x1 xs = k2_pay2 xs x0 x1 := by
  unfold accB
  rw [View.read_writes_eq_canon _ _ _ (scoverB c i arg3 harg3 arg4 harg4 arg5 harg5 arg6 harg6 arg7 harg7 hF hL x0 x1 xs)]
  unfold runB
  dsimp only
  sl_unfold_words
  rw [View.canon_unit_zero hz]
  simp only [View.readAt_eq_ld, harg3.read_unread, harg4.read_unread, harg7.read_unread,
    View.ld_unit_zero (S := SA) hz, View.ld_unit_zero (S := SB) hz, View.ld_unit_zero (S := SC) hz]

theorem accC_eq (hF : ¬condF i) (hL : condL i) (x0 : Vec F SA .bf16) (x1 : Vec F SB .bf16) (x2 : Vec F SR .f32) (xs : Vec F SC .f32) :
    accC c i arg3 harg3 arg4 harg4 arg5 harg5 arg6 harg6 arg7 harg7 hF hL x0 x1 x2 xs = k2_pay2 xs x0 x1 := by
  unfold accC
  rw [View.read_writes_eq_canon _ _ _ (scoverC c i arg3 harg3 arg4 harg4 arg5 harg5 arg6 harg6 arg7 harg7 hF hL x0 x1 x2 xs)]
  unfold runC
  dsimp only
  sl_unfold_words
  rw [View.canon_unit_zero hz]
  simp only [View.readAt_eq_ld, harg3.read_unread, harg4.read_unread, harg7.read_unread,
    View.ld_unit_zero (S := SA) hz, View.ld_unit_zero (S := SB) hz, View.ld_unit_zero (S := SC) hz]

theorem outC_eq (hF : ¬condF i) (hL : condL i) (x0 : Vec F SA .bf16) (x1 : Vec F SB .bf16) (x2 : Vec F SR .f32) (xs : Vec F SC .f32) :
    outC c i arg3 harg3 arg4 harg4 arg5 harg5 arg6 harg6 arg7 harg7 hF hL x0 x1 x2 xs = k2_pay3 (k2_pay2 xs x0 x1) x2 := by
  unfold outC
  rw [View.read_writes_eq_canon _ _ _ (coverC c i arg3 harg3 arg4 harg4 arg5 harg5 arg6 harg6 arg7 harg7 hF hL x0 x1 x2 xs)]
  unfold runC
  dsimp only
  sl_unfold_words
  rw [View.canon_unit_zero hz, View.readCov_unit_zero (S := SC) _ hz]
  simp only [View.readAt_eq_ld, harg3.read_unread, harg4.read_unread, harg5.read_unread, harg7.read_unread,
    View.ld_unit_zero (S := SA) hz, View.ld_unit_zero (S := SB) hz, View.ld_unit_zero (S := SC) hz,
    View.ld_unit_zero (S := SR) hz]

end Pieces

section Payloads

theorem pay1_apply (p : Fin TM) (q : Fin TN) : k2_pay1 (F := Ideal) (ix2 p q) = 0 := by
  unfold k2_pay1
  rw [shapeCast_self]
  exact Ideal.ofBits_zero_f32

theorem pay2_apply (xs : Vec Ideal SC .f32) (x0 : Vec Ideal SA .bf16) (x1 : Vec Ideal SB .bf16)
    (p : Fin TM) (q : Fin TN) :
    k2_pay2 xs x0 x1 (ix2 p q) = xs (ix2 p q) + ∑ kk : Fin TK, x0 (ix2 p kk) * x1 (ix2 kk q) := by
  unfold k2_pay2
  rw [shapeCast_self, shapeCast_self, shapeCast_self, addf_apply,
    Cert.LibDot.matmul_10_zero_apply _ rfl rfl rfl rfl rfl rfl]

theorem pay3_apply (acc : Vec Ideal SC .f32) (bias : Vec Ideal SR .f32) (p : Fin TM) (q : Fin TN) :
    k2_pay3 acc bias (ix2 p q) = max (acc (ix2 p q) + bias (ix2 (0 : Fin 1) q)) 0 := by
  unfold k2_pay3
  rw [shapeCast_self, maximumf_apply, addf_apply, broadcastTo_1b_ab_apply]
  show max _ (Ideal.ofBits .f32 0x00000000#32) = _
  rw [Ideal.ofBits_zero_f32]

end Payloads

section Blocks

variable (V : (c : Dev nD) → (b : Ref sig .tc) → Buf (Elt Ideal) ((c : Thread nD τ).loc b))

theorem idx_facts : ∀ t : Fin cfg2.N,
    win2_0.index t (0 : Fin 2) = t.val / PR ∧ win2_0.index t (1 : Fin 2) = t.val % 4 ∧
    win2_1.index t (0 : Fin 2) = t.val % 4 ∧ win2_1.index t (1 : Fin 2) = t.val / 4 % NJ ∧
    win2_2.index t (0 : Fin 2) = 0 ∧ win2_2.index t (1 : Fin 2) = t.val / 4 % NJ ∧
    win2_3.index t (0 : Fin 2) = t.val / PR ∧ win2_3.index t (1 : Fin 2) = t.val / 4 % NJ :=
  (by decide +kernel : ∀ t : Fin grid2.N, _)

abbrev tileA (c : Dev nD) (t : Fin cfg2.N) : (SA).Idx → EReal := iblk V c 0 t
abbrev tileB (c : Dev nD) (t : Fin cfg2.N) : (SB).Idx → EReal := iblk V c 1 t
abbrev tileR (c : Dev nD) (t : Fin cfg2.N) : (SR).Idx → EReal := iblk V c 2 t

theorem tileA_apply (c : Dev nD) (t : Fin cfg2.N) (p : Fin TM) (kk : Fin TK) (r : Fin WM) (s : Fin WK)
    (hr : r.val = t.val / PR * TM + p.val) (hs : s.val = t.val % 4 * TK + kk.val) :
    tileA V c t (ix2 p kk) = (V c refA : (WA).Idx → EReal) (ix2 r s) := by
  obtain ⟨h0, h1, -⟩ := idx_facts t
  unfold tileA iblk
  rw [View.read_apply]
  show (V c refA : (WA).Idx → EReal) _ = _
  congr 1
  funext a
  apply Fin.ext
  match a with
  | ⟨0, _⟩ => show win2_0.index t (0 : Fin 2) * TM + 1 * p.val = r.val; rw [h0, hr]; omega
  | ⟨1, _⟩ => show win2_0.index t (1 : Fin 2) * TK + 1 * kk.val = s.val; rw [h1, hs]; omega

theorem tileB_apply (c : Dev nD) (t : Fin cfg2.N) (kk : Fin TK) (q : Fin TN) (r : Fin WK) (s : Fin WN)
    (hr : r.val = t.val % 4 * TK + kk.val) (hs : s.val = t.val / 4 % NJ * TN + q.val) :
    tileB V c t (ix2 kk q) = (V c refB : (WB).Idx → EReal) (ix2 r s) := by
  obtain ⟨-, -, h0, h1, -⟩ := idx_facts t
  unfold tileB iblk
  rw [View.read_apply]
  show (V c refB : (WB).Idx → EReal) _ = _
  congr 1
  funext a
  apply Fin.ext
  match a with
  | ⟨0, _⟩ => show win2_1.index t (0 : Fin 2) * TK + 1 * kk.val = r.val; rw [h0, hr]; omega
  | ⟨1, _⟩ => show win2_1.index t (1 : Fin 2) * TN + 1 * q.val = s.val; rw [h1, hs]; omega

theorem tileR_apply (c : Dev nD) (t : Fin cfg2.N) (q : Fin TN) (s : Fin WN)
    (hs : s.val = t.val / 4 % NJ * TN + q.val) :
    tileR V c t (ix2 (0 : Fin 1) q) = (V c refR : (WR).Idx → EReal) (ix2 (0 : Fin 1) s) := by
  obtain ⟨-, -, -, -, h0, h1, -⟩ := idx_facts t
  unfold tileR iblk
  rw [View.read_apply]
  show (V c refR : (WR).Idx → EReal) _ = _
  congr 1
  funext a
  apply Fin.ext
  match a with
  | ⟨0, _⟩ => show win2_2.index t (0 : Fin 2) * 1 + 1 * 0 = 0; rw [h0]
  | ⟨1, _⟩ => show win2_2.index t (1 : Fin 2) * TN + 1 * q.val = s.val; rw [h1, hs]; omega

end Blocks

section Accumulation

variable (V : (c : Dev nD) → (b : Ref sig .tc) → Buf (Elt Ideal) ((c : Thread nD τ).loc b))

def tileProd (c : Dev nD) (n : ℕ) (hn : n < cfg2.N) (p : Fin TM) (q : Fin TN) : EReal :=
  ∑ kk : Fin TK, tileA V c ⟨n, hn⟩ (ix2 p kk) * tileB V c ⟨n, hn⟩ (ix2 kk q)

theorem acc_first (c : Dev nD) (n : ℕ) (hn : n < cfg2.N) (h0 : n % 4 = 0) (p : Fin TM) (q : Fin TN) :
    (outsAt V c n hn).2 (ix2 p q) = 0 + tileProd V c n hn p q := by
  rw [show outsAt V c n hn = _ from outsAt_A V c ⟨n, hn⟩ h0]
  dsimp only
  unfold aA
  rw [accA_eq, pay2_apply, pay1_apply]
  rfl

theorem acc_next (c : Dev nD) (n : ℕ) (hn : n < cfg2.N) (h0 : ¬n % 4 = 0) (hn' : n - 1 < cfg2.N) (p : Fin TM) (q : Fin TN) :
    (outsAt V c n hn).2 (ix2 p q) = (outsAt V c (n - 1) hn').2 (ix2 p q) + tileProd V c n hn p q := by
  by_cases h1 : n % 4 = 3
  · rw [show outsAt V c n hn = _ from outsAt_C V c ⟨n, hn⟩ h0 h1]
    dsimp only
    unfold aC
    rw [accC_eq, pay2_apply]
    rfl
  · rw [show outsAt V c n hn = _ from outsAt_B V c ⟨n, hn⟩ h0 h1]
    dsimp only
    unfold aB
    rw [accB_eq, pay2_apply]
    rfl

theorem out_last (c : Dev nD) (n : ℕ) (hn : n < cfg2.N) (h0 : ¬n % 4 = 0) (h1 : n % 4 = 3) (hn' : n - 1 < cfg2.N)
    (p : Fin TM) (q : Fin TN) :
    (outsAt V c n hn).1 (ix2 p q)
      = max ((outsAt V c (n - 1) hn').2 (ix2 p q) + tileProd V c n hn p q
          + tileR V c ⟨n, hn⟩ (ix2 (0 : Fin 1) q)) 0 := by
  rw [show outsAt V c n hn = _ from outsAt_C V c ⟨n, hn⟩ h0 h1]
  dsimp only
  unfold oC
  rw [outC_eq, pay3_apply, pay2_apply]
  rfl

end Accumulation

section Result

variable (V : (c : Dev nD) → (b : Ref sig .tc) → Buf (Elt Ideal) ((c : Thread nD τ).loc b))

abbrev matA (c : Dev nD) : Fin WM → Fin WK → EReal := fun i k => (V c refA : (WA).Idx → EReal) (ix2 i k)
abbrev matB (c : Dev nD) : Fin WK → Fin WN → EReal := fun k j => (V c refB : (WB).Idx → EReal) (ix2 k j)
abbrev rowR (c : Dev nD) : Fin WN → EReal := fun j => (V c refR : (WR).Idx → EReal) (ix2 (0 : Fin 1) j)

theorem tileProd_eq (c : Dev nD) (n : ℕ) (hn : n < cfg2.N) (p : Fin TM) (q : Fin TN) (r : Fin WM) (s : Fin WN) (d : ℕ) (hd : d < 4)
    (hr : r.val = n / PR * TM + p.val) (hs : s.val = n / 4 % NJ * TN + q.val) (hdd : n % 4 = d) :
    tileProd V c n hn p q
      = ∑ kk : Fin TK, matA V c r ⟨d * TK + kk.val, by have := kk.isLt; omega⟩
          * matB V c ⟨d * TK + kk.val, by have := kk.isLt; omega⟩ s := by
  subst hdd
  unfold tileProd
  refine Finset.sum_congr rfl fun kk _ => ?_
  rw [tileA_apply V c ⟨n, hn⟩ p kk r ⟨n % 4 * TK + kk.val, by have := kk.isLt; omega⟩ hr rfl,
    tileB_apply V c ⟨n, hn⟩ kk q ⟨n % 4 * TK + kk.val, by have := kk.isLt; omega⟩ s rfl hs]

-- The four consecutive depth blocks of the defining sum add up to the whole sum.
theorem acc_depth3 (c : Dev nD) (n : ℕ) (hn : n < cfg2.N) (h3 : n % 4 = 3) (hn' : n - 1 < cfg2.N) (p : Fin TM) (q : Fin TN)
    (r : Fin WM) (s : Fin WN) (hr : r.val = n / PR * TM + p.val) (hs : s.val = n / 4 % NJ * TN + q.val) :
    (outsAt V c (n - 1) hn').2 (ix2 p q) + tileProd V c n hn p q = Cert.Spec.mm (matA V c) (matB V c) r s := by
  have hN : cfg2.N = NP := N_2
  rw [acc_next V c (n - 1) hn' (by omega) (by omega) p q,
    acc_next V c (n - 1 - 1) (by omega) (by omega) (by omega) p q,
    acc_first V c (n - 1 - 1 - 1) (by omega) (by omega) p q,
    tileProd_eq V c (n - 1 - 1 - 1) (by omega) p q r s 0 (by omega) (by omega) (by omega) (by omega),
    tileProd_eq V c (n - 1 - 1) (by omega) p q r s 1 (by omega) (by omega) (by omega) (by omega),
    tileProd_eq V c (n - 1) (by omega) p q r s 2 (by omega) (by omega) (by omega) (by omega),
    tileProd_eq V c n hn p q r s 3 (by omega) hr hs h3]
  exact Cert.Spec.sum_four_blocks (fun k => matA V c r k * matB V c k s)

theorem out_depth3 (c : Dev nD) (t : Fin cfg2.N) (h3 : t.val % 4 = 3) (p : Fin TM) (q : Fin TN)
    (r : Fin WM) (s : Fin WN) (hr : r.val = t.val / PR * TM + p.val) (hs : s.val = t.val / 4 % NJ * TN + q.val) :
    (outsAt V c t.val t.isLt).1 (ix2 p q) = max (Cert.Spec.mm (matA V c) (matB V c) r s + rowR V c s) 0 := by
  have hN : cfg2.N = NP := N_2
  have hn' : t.val - 1 < cfg2.N := by have := t.isLt; omega
  rw [out_last V c t.val t.isLt (by omega) h3 hn' p q, acc_depth3 V c t.val t.isLt h3 hn' p q r s hr hs,
    tileR_apply V c ⟨t.val, t.isLt⟩ q s hs]

end Result

section Final

variable (V : (c : Dev nD) → (b : Ref sig .tc) → Buf (Elt Ideal) ((c : Thread nD τ).loc b))

def G (c : Dev nD) : (WC).Idx → EReal :=
  fun i => max (Cert.Spec.mm (matA V c) (matB V c) (i 0) (i 1) + rowR V c (i 1)) 0

theorem flushed_eq (c : Dev nD) (t : Fin cfg2.N) (hf : (cfg2.win 3).flush t = true) :
    (dat V c).flushed 3 t = ((cfg2.win 3).blk t).view.read (Elt Ideal) (G V c) := by
  have h3 : t.val % 4 = 3 := (flush2_3 t).mp hf
  have hN : cfg2.N = NP := N_2
  have ht := t.isLt
  obtain ⟨-, -, -, -, -, -, i0, i1⟩ := idx_facts t
  funext j
  obtain ⟨p, q, rfl⟩ : ∃ (p : Fin TM) (q : Fin TN), j = ix2 p q := ⟨j 0, j 1, eq_ix2 j⟩
  rw [View.read_apply]
  show (outsAt V c t.val t.isLt).1 (ix2 p q) = G V c _
  rw [out_depth3 V c t h3 p q ⟨t.val / PR * TM + p.val, by have := p.isLt; omega⟩
    ⟨t.val / 4 % NJ * TN + q.val, by have := q.isLt; omega⟩ rfl rfl]
  have e0 : ((cfg2.win 3).blk t).view.emb (ix2 p q) (0 : Fin 2)
      = (⟨t.val / PR * TM + p.val, by have := p.isLt; omega⟩ : Fin WM) :=
    Fin.ext (by show win2_3.index t (0 : Fin 2) * TM + 1 * p.val = t.val / PR * TM + p.val; rw [i0]; omega)
  have e1 : ((cfg2.win 3).blk t).view.emb (ix2 p q) (1 : Fin 2)
      = (⟨t.val / 4 % NJ * TN + q.val, by have := q.isLt; omega⟩ : Fin WN) :=
    Fin.ext (by show win2_3.index t (1 : Fin 2) * TN + 1 * q.val = t.val / 4 % NJ * TN + q.val; rw [i1]; omega)
  unfold G
  rw [e0, e1]

-- Every entry lies in the tile written at the last depth point of its row tile and column tile.
theorem cover (i : (WC).Idx) :
    ∃ t : Fin cfg2.N, (cfg2.win 3).flush t = true ∧ i ∈ ((cfg2.win 3).blk t).view.set := by
  have hN : cfg2.N = NP := N_2
  have h0 : (i 0).val < WM := (i 0).isLt
  have h1 : (i 1).val < WN := (i 1).isLt
  let t : Fin cfg2.N := ⟨(i 0).val / TM * PR + (i 1).val / TN * 4 + 3, by omega⟩
  have htv : t.val = (i 0).val / TM * PR + (i 1).val / TN * 4 + 3 := rfl
  obtain ⟨-, -, -, -, -, -, i0, i1⟩ := idx_facts t
  refine ⟨t, (flush2_3 t).mpr (by omega), ?_⟩
  show i ∈ ((View.whole refC).slice (win2_3.rect t)).set
  rw [View.set_slice_whole, Rect.mem_set_unit]
  intro a
  match a with
  | ⟨0, _⟩ =>
    show win2_3.index t (0 : Fin 2) * TM ≤ (i 0).val ∧ (i 0).val < win2_3.index t (0 : Fin 2) * TM + TM
    rw [i0]; omega
  | ⟨1, _⟩ =>
    show win2_3.index t (1 : Fin 2) * TN ≤ (i 1).val ∧ (i 1).val < win2_3.index t (1 : Fin 2) * TN + TN
    rw [i1]; omega

-- What the call leaves: the product of the two operands plus the bias on the columns, after the call's cut if it has one.
theorem final (c : Dev nD) (a : Fin WM) (b : Fin WN) :
    ((dat V c).arrAt 3 cfg2.N : (WC).Idx → EReal) (ix2 a b)
      = max (Cert.Spec.mm (fun i k => (V c refA : (WA).Idx → EReal) (ix2 i k))
          (fun k j => (V c refB : (WB).Idx → EReal) (ix2 k j)) a b
          + (V c refR : (WR).Idx → EReal) (ix2 (0 : Fin 1) b)) 0 := by
  rw [(dat V c).arrAt_eq_of_cover 3 (G V c) (flushed_eq V c) cover]
  rfl

end Final

end Cert.KernelIdeal.Rg2Val

end
-- ==== Proof.Region3Val.lean ====
import proofs.«136604_j21827023798522_1_alg».proof.Proof.Region3Data
import proofs.«136604_j21827023798522_1_alg».proof.Proof.LibDot
import proofs.«136604_j21827023798522_1_alg».proof.Proof.Spec
import proofs.«136604_j21827023798522_1_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Rg3Val

open Cert.KernelIdeal Cert.KernelIdeal.Gen Cert.KernelIdeal.Rg3
open Idealize.ShloMosaic Idealize.ShloMosaic.TcCoe Idealize.ShloMosaic.Tactic Idealize.ShloMosaic.ValueIdx
open Idealize.SL.Sem
open Idealize.ShloMosaic.Pipeline (Dat Cfg Window)

local notation "TM" => (1024 : ℕ)
local notation "TK" => (2048 : ℕ)
local notation "TN" => (128 : ℕ)
local notation "WM" => (8192 : ℕ)
local notation "WK" => (8192 : ℕ)
local notation "WN" => (128 : ℕ)
local notation "NJ" => (1 : ℕ)
local notation "PR" => (4 : ℕ)
local notation "NP" => (32 : ℕ)
local notation "SA" => S1024x2048
local notation "SB" => S2048x128
local notation "SR" => S1x128
local notation "SC" => S1024x128
local notation "WA" => S8192x8192
local notation "WB" => S8192x128
local notation "WR" => S1x128
local notation "WC" => S8192x128
local notation "refA" => main_v32
local notation "refB" => main_v45
local notation "refR" => main_v44
local notation "refC" => main_v46

section Pieces

variable {F : FTy → Type} [FloatOps F]

theorem hz : (![0, 0] : Fin 2 → Nat) = fun _ => 0 := funext fun a => by fin_cases a <;> rfl

variable (c : Dev nD) (i : grid3.Coords) (arg3 : Memref sig .tc .vmem SA .bf16) (harg3 : arg3.IsWhole) (arg4 : Memref sig .tc .vmem SB .bf16) (harg4 : arg4.IsWhole)
  (arg5 : Memref sig .tc .vmem SR .f32) (harg5 : arg5.IsWhole) (arg6 : Memref sig .tc .vmem SC .f32) (harg6 : arg6.IsWhole) (arg7 : Memref sig .tc .vmem SC .f32) (harg7 : arg7.IsWhole)

theorem accA_eq (hF : condF i) (hL : ¬condL i) (x0 : Vec F SA .bf16) (x1 : Vec F SB .bf16) :
    accA c i arg3 harg3 arg4 harg4 arg5 harg5 arg6 harg6 arg7 harg7 hF hL x0 x1 = k3_pay2 (k3_pay1 (F := F)) x0 x1 := by
  unfold accA
  rw [View.read_writes_eq_canon _ _ _ (scoverA c i arg3 harg3 arg4 harg4 arg5 harg5 arg6 harg6 arg7 harg7 hF hL x0 x1)]
  unfold runA
  dsimp only
  sl_unfold_words
  rw [View.canon_cons_unit_zero (S := SC) hz, View.readCov_unit_zero (S := SC) _ hz]
  simp only [View.readAt_eq_ld, harg3.read_unread, harg4.read_unread, View.ld_unit_zero (S := SA) hz,
    View.ld_unit_zero (S := SB) hz]

theorem accB_eq (hF : ¬condF i) (hL : ¬condL i) (x0 : Vec F SA .bf16) (x1 : Vec F SB .bf16) (xs : Vec F SC .f32) :
    accB c i arg3 harg3 arg4 harg4 arg5 harg5 arg6 harg6 arg7 harg7 hF hL x0 x1 xs = k3_pay2 xs x0 x1 := by
  unfold accB
  rw [View.read_writes_eq_canon _ _ _ (scoverB c i arg3 harg3 arg4 harg4 arg5 harg5 arg6 harg6 arg7 harg7 hF hL x0 x1 xs)]
  unfold runB
  dsimp only
  sl_unfold_words
  rw [View.canon_unit_zero hz]
  simp only [View.readAt_eq_ld, harg3.read_unread, harg4.read_unread, harg7.read_unread,
    View.ld_unit_zero (S := SA) hz, View.ld_unit_zero (S := SB) hz, View.ld_unit_zero (S := SC) hz]

theorem accC_eq (hF : ¬condF i) (hL : condL i) (x0 : Vec F SA .bf16) (x1 : Vec F SB .bf16) (x2 : Vec F SR .f32) (xs : Vec F SC .f32) :
    accC c i arg3 harg3 arg4 harg4 arg5 harg5 arg6 harg6 arg7 harg7 hF hL x0 x1 x2 xs = k3_pay2 xs x0 x1 := by
  unfold accC
  rw [View.read_writes_eq_canon _ _ _ (scoverC c i arg3 harg3 arg4 harg4 arg5 harg5 arg6 harg6 arg7 harg7 hF hL x0 x1 x2 xs)]
  unfold runC
  dsimp only
  sl_unfold_words
  rw [View.canon_unit_zero hz]
  simp only [View.readAt_eq_ld, harg3.read_unread, harg4.read_unread, harg7.read_unread,
    View.ld_unit_zero (S := SA) hz, View.ld_unit_zero (S := SB) hz, View.ld_unit_zero (S := SC) hz]

theorem outC_eq (hF : ¬condF i) (hL : condL i) (x0 : Vec F SA .bf16) (x1 : Vec F SB .bf16) (x2 : Vec F SR .f32) (xs : Vec F SC .f32) :
    outC c i arg3 harg3 arg4 harg4 arg5 harg5 arg6 harg6 arg7 harg7 hF hL x0 x1 x2 xs = k3_pay3 (k3_pay2 xs x0 x1) x2 := by
  unfold outC
  rw [View.read_writes_eq_canon _ _ _ (coverC c i arg3 harg3 arg4 harg4 arg5 harg5 arg6 harg6 arg7 harg7 hF hL x0 x1 x2 xs)]
  unfold runC
  dsimp only
  sl_unfold_words
  rw [View.canon_unit_zero hz, View.readCov_unit_zero (S := SC) _ hz]
  simp only [View.readAt_eq_ld, harg3.read_unread, harg4.read_unread, harg5.read_unread, harg7.read_unread,
    View.ld_unit_zero (S := SA) hz, View.ld_unit_zero (S := SB) hz, View.ld_unit_zero (S := SC) hz,
    View.ld_unit_zero (S := SR) hz]

end Pieces

section Payloads

theorem pay1_apply (p : Fin TM) (q : Fin TN) : k3_pay1 (F := Ideal) (ix2 p q) = 0 := by
  unfold k3_pay1
  rw [shapeCast_self]
  exact Ideal.ofBits_zero_f32

theorem pay2_apply (xs : Vec Ideal SC .f32) (x0 : Vec Ideal SA .bf16) (x1 : Vec Ideal SB .bf16)
    (p : Fin TM) (q : Fin TN) :
    k3_pay2 xs x0 x1 (ix2 p q) = xs (ix2 p q) + ∑ kk : Fin TK, x0 (ix2 p kk) * x1 (ix2 kk q) := by
  unfold k3_pay2
  rw [shapeCast_self, shapeCast_self, shapeCast_self, addf_apply,
    Cert.LibDot.matmul_10_zero_apply _ rfl rfl rfl rfl rfl rfl]

theorem pay3_apply (acc : Vec Ideal SC .f32) (bias : Vec Ideal SR .f32) (p : Fin TM) (q : Fin TN) :
    k3_pay3 acc bias (ix2 p q) = acc (ix2 p q) + bias (ix2 (0 : Fin 1) q) := by
  unfold k3_pay3
  rw [shapeCast_self, addf_apply, broadcastTo_1b_ab_apply]

end Payloads

section Blocks

variable (V : (c : Dev nD) → (b : Ref sig .tc) → Buf (Elt Ideal) ((c : Thread nD τ).loc b))

theorem idx_facts : ∀ t : Fin cfg3.N,
    win3_0.index t (0 : Fin 2) = t.val / PR ∧ win3_0.index t (1 : Fin 2) = t.val % 4 ∧
    win3_1.index t (0 : Fin 2) = t.val % 4 ∧ win3_1.index t (1 : Fin 2) = t.val / 4 % NJ ∧
    win3_2.index t (0 : Fin 2) = 0 ∧ win3_2.index t (1 : Fin 2) = t.val / 4 % NJ ∧
    win3_3.index t (0 : Fin 2) = t.val / PR ∧ win3_3.index t (1 : Fin 2) = t.val / 4 % NJ :=
  (by decide +kernel : ∀ t : Fin grid3.N, _)

abbrev tileA (c : Dev nD) (t : Fin cfg3.N) : (SA).Idx → EReal := iblk V c 0 t
abbrev tileB (c : Dev nD) (t : Fin cfg3.N) : (SB).Idx → EReal := iblk V c 1 t
abbrev tileR (c : Dev nD) (t : Fin cfg3.N) : (SR).Idx → EReal := iblk V c 2 t

theorem tileA_apply (c : Dev nD) (t : Fin cfg3.N) (p : Fin TM) (kk : Fin TK) (r : Fin WM) (s : Fin WK)
    (hr : r.val = t.val / PR * TM + p.val) (hs : s.val = t.val % 4 * TK + kk.val) :
    tileA V c t (ix2 p kk) = (V c refA : (WA).Idx → EReal) (ix2 r s) := by
  obtain ⟨h0, h1, -⟩ := idx_facts t
  unfold tileA iblk
  rw [View.read_apply]
  show (V c refA : (WA).Idx → EReal) _ = _
  congr 1
  funext a
  apply Fin.ext
  match a with
  | ⟨0, _⟩ => show win3_0.index t (0 : Fin 2) * TM + 1 * p.val = r.val; rw [h0, hr]; omega
  | ⟨1, _⟩ => show win3_0.index t (1 : Fin 2) * TK + 1 * kk.val = s.val; rw [h1, hs]; omega

theorem tileB_apply (c : Dev nD) (t : Fin cfg3.N) (kk : Fin TK) (q : Fin TN) (r : Fin WK) (s : Fin WN)
    (hr : r.val = t.val % 4 * TK + kk.val) (hs : s.val = t.val / 4 % NJ * TN + q.val) :
    tileB V c t (ix2 kk q) = (V c refB : (WB).Idx → EReal) (ix2 r s) := by
  obtain ⟨-, -, h0, h1, -⟩ := idx_facts t
  unfold tileB iblk
  rw [View.read_apply]
  show (V c refB : (WB).Idx → EReal) _ = _
  congr 1
  funext a
  apply Fin.ext
  match a with
  | ⟨0, _⟩ => show win3_1.index t (0 : Fin 2) * TK + 1 * kk.val = r.val; rw [h0, hr]; omega
  | ⟨1, _⟩ => show win3_1.index t (1 : Fin 2) * TN + 1 * q.val = s.val; rw [h1, hs]; omega

theorem tileR_apply (c : Dev nD) (t : Fin cfg3.N) (q : Fin TN) (s : Fin WN)
    (hs : s.val = t.val / 4 % NJ * TN + q.val) :
    tileR V c t (ix2 (0 : Fin 1) q) = (V c refR : (WR).Idx → EReal) (ix2 (0 : Fin 1) s) := by
  obtain ⟨-, -, -, -, h0, h1, -⟩ := idx_facts t
  unfold tileR iblk
  rw [View.read_apply]
  show (V c refR : (WR).Idx → EReal) _ = _
  congr 1
  funext a
  apply Fin.ext
  match a with
  | ⟨0, _⟩ => show win3_2.index t (0 : Fin 2) * 1 + 1 * 0 = 0; rw [h0]
  | ⟨1, _⟩ => show win3_2.index t (1 : Fin 2) * TN + 1 * q.val = s.val; rw [h1, hs]; omega

end Blocks

section Accumulation

variable (V : (c : Dev nD) → (b : Ref sig .tc) → Buf (Elt Ideal) ((c : Thread nD τ).loc b))

def tileProd (c : Dev nD) (n : ℕ) (hn : n < cfg3.N) (p : Fin TM) (q : Fin TN) : EReal :=
  ∑ kk : Fin TK, tileA V c ⟨n, hn⟩ (ix2 p kk) * tileB V c ⟨n, hn⟩ (ix2 kk q)

theorem acc_first (c : Dev nD) (n : ℕ) (hn : n < cfg3.N) (h0 : n % 4 = 0) (p : Fin TM) (q : Fin TN) :
    (outsAt V c n hn).2 (ix2 p q) = 0 + tileProd V c n hn p q := by
  rw [show outsAt V c n hn = _ from outsAt_A V c ⟨n, hn⟩ h0]
  dsimp only
  unfold aA
  rw [accA_eq, pay2_apply, pay1_apply]
  rfl

theorem acc_next (c : Dev nD) (n : ℕ) (hn : n < cfg3.N) (h0 : ¬n % 4 = 0) (hn' : n - 1 < cfg3.N) (p : Fin TM) (q : Fin TN) :
    (outsAt V c n hn).2 (ix2 p q) = (outsAt V c (n - 1) hn').2 (ix2 p q) + tileProd V c n hn p q := by
  by_cases h1 : n % 4 = 3
  · rw [show outsAt V c n hn = _ from outsAt_C V c ⟨n, hn⟩ h0 h1]
    dsimp only
    unfold aC
    rw [accC_eq, pay2_apply]
    rfl
  · rw [show outsAt V c n hn = _ from outsAt_B V c ⟨n, hn⟩ h0 h1]
    dsimp only
    unfold aB
    rw [accB_eq, pay2_apply]
    rfl

theorem out_last (c : Dev nD) (n : ℕ) (hn : n < cfg3.N) (h0 : ¬n % 4 = 0) (h1 : n % 4 = 3) (hn' : n - 1 < cfg3.N)
    (p : Fin TM) (q : Fin TN) :
    (outsAt V c n hn).1 (ix2 p q)
      = (outsAt V c (n - 1) hn').2 (ix2 p q) + tileProd V c n hn p q
          + tileR V c ⟨n, hn⟩ (ix2 (0 : Fin 1) q) := by
  rw [show outsAt V c n hn = _ from outsAt_C V c ⟨n, hn⟩ h0 h1]
  dsimp only
  unfold oC
  rw [outC_eq, pay3_apply, pay2_apply]
  rfl

end Accumulation

section Result

variable (V : (c : Dev nD) → (b : Ref sig .tc) → Buf (Elt Ideal) ((c : Thread nD τ).loc b))

abbrev matA (c : Dev nD) : Fin WM → Fin WK → EReal := fun i k => (V c refA : (WA).Idx → EReal) (ix2 i k)
abbrev matB (c : Dev nD) : Fin WK → Fin WN → EReal := fun k j => (V c refB : (WB).Idx → EReal) (ix2 k j)
abbrev rowR (c : Dev nD) : Fin WN → EReal := fun j => (V c refR : (WR).Idx → EReal) (ix2 (0 : Fin 1) j)

theorem tileProd_eq (c : Dev nD) (n : ℕ) (hn : n < cfg3.N) (p : Fin TM) (q : Fin TN) (r : Fin WM) (s : Fin WN) (d : ℕ) (hd : d < 4)
    (hr : r.val = n / PR * TM + p.val) (hs : s.val = n / 4 % NJ * TN + q.val) (hdd : n % 4 = d) :
    tileProd V c n hn p q
      = ∑ kk : Fin TK, matA V c r ⟨d * TK + kk.val, by have := kk.isLt; omega⟩
          * matB V c ⟨d * TK + kk.val, by have := kk.isLt; omega⟩ s := by
  subst hdd
  unfold tileProd
  refine Finset.sum_congr rfl fun kk _ => ?_
  rw [tileA_apply V c ⟨n, hn⟩ p kk r ⟨n % 4 * TK + kk.val, by have := kk.isLt; omega⟩ hr rfl,
    tileB_apply V c ⟨n, hn⟩ kk q ⟨n % 4 * TK + kk.val, by have := kk.isLt; omega⟩ s rfl hs]

-- The four consecutive depth blocks of the defining sum add up to the whole sum.
theorem acc_depth3 (c : Dev nD) (n : ℕ) (hn : n < cfg3.N) (h3 : n % 4 = 3) (hn' : n - 1 < cfg3.N) (p : Fin TM) (q : Fin TN)
    (r : Fin WM) (s : Fin WN) (hr : r.val = n / PR * TM + p.val) (hs : s.val = n / 4 % NJ * TN + q.val) :
    (outsAt V c (n - 1) hn').2 (ix2 p q) + tileProd V c n hn p q = Cert.Spec.mm (matA V c) (matB V c) r s := by
  have hN : cfg3.N = NP := N_3
  rw [acc_next V c (n - 1) hn' (by omega) (by omega) p q,
    acc_next V c (n - 1 - 1) (by omega) (by omega) (by omega) p q,
    acc_first V c (n - 1 - 1 - 1) (by omega) (by omega) p q,
    tileProd_eq V c (n - 1 - 1 - 1) (by omega) p q r s 0 (by omega) (by omega) (by omega) (by omega),
    tileProd_eq V c (n - 1 - 1) (by omega) p q r s 1 (by omega) (by omega) (by omega) (by omega),
    tileProd_eq V c (n - 1) (by omega) p q r s 2 (by omega) (by omega) (by omega) (by omega),
    tileProd_eq V c n hn p q r s 3 (by omega) hr hs h3]
  exact Cert.Spec.sum_four_blocks (fun k => matA V c r k * matB V c k s)

theorem out_depth3 (c : Dev nD) (t : Fin cfg3.N) (h3 : t.val % 4 = 3) (p : Fin TM) (q : Fin TN)
    (r : Fin WM) (s : Fin WN) (hr : r.val = t.val / PR * TM + p.val) (hs : s.val = t.val / 4 % NJ * TN + q.val) :
    (outsAt V c t.val t.isLt).1 (ix2 p q) = Cert.Spec.mm (matA V c) (matB V c) r s + rowR V c s := by
  have hN : cfg3.N = NP := N_3
  have hn' : t.val - 1 < cfg3.N := by have := t.isLt; omega
  rw [out_last V c t.val t.isLt (by omega) h3 hn' p q, acc_depth3 V c t.val t.isLt h3 hn' p q r s hr hs,
    tileR_apply V c ⟨t.val, t.isLt⟩ q s hs]

end Result

section Final

variable (V : (c : Dev nD) → (b : Ref sig .tc) → Buf (Elt Ideal) ((c : Thread nD τ).loc b))

def G (c : Dev nD) : (WC).Idx → EReal :=
  fun i => Cert.Spec.mm (matA V c) (matB V c) (i 0) (i 1) + rowR V c (i 1)

theorem flushed_eq (c : Dev nD) (t : Fin cfg3.N) (hf : (cfg3.win 3).flush t = true) :
    (dat V c).flushed 3 t = ((cfg3.win 3).blk t).view.read (Elt Ideal) (G V c) := by
  have h3 : t.val % 4 = 3 := (flush3_3 t).mp hf
  have hN : cfg3.N = NP := N_3
  have ht := t.isLt
  obtain ⟨-, -, -, -, -, -, i0, i1⟩ := idx_facts t
  funext j
  obtain ⟨p, q, rfl⟩ : ∃ (p : Fin TM) (q : Fin TN), j = ix2 p q := ⟨j 0, j 1, eq_ix2 j⟩
  rw [View.read_apply]
  show (outsAt V c t.val t.isLt).1 (ix2 p q) = G V c _
  rw [out_depth3 V c t h3 p q ⟨t.val / PR * TM + p.val, by have := p.isLt; omega⟩
    ⟨t.val / 4 % NJ * TN + q.val, by have := q.isLt; omega⟩ rfl rfl]
  have e0 : ((cfg3.win 3).blk t).view.emb (ix2 p q) (0 : Fin 2)
      = (⟨t.val / PR * TM + p.val, by have := p.isLt; omega⟩ : Fin WM) :=
    Fin.ext (by show win3_3.index t (0 : Fin 2) * TM + 1 * p.val = t.val / PR * TM + p.val; rw [i0]; omega)
  have e1 : ((cfg3.win 3).blk t).view.emb (ix2 p q) (1 : Fin 2)
      = (⟨t.val / 4 % NJ * TN + q.val, by have := q.isLt; omega⟩ : Fin WN) :=
    Fin.ext (by show win3_3.index t (1 : Fin 2) * TN + 1 * q.val = t.val / 4 % NJ * TN + q.val; rw [i1]; omega)
  unfold G
  rw [e0, e1]

-- Every entry lies in the tile written at the last depth point of its row tile and column tile.
theorem cover (i : (WC).Idx) :
    ∃ t : Fin cfg3.N, (cfg3.win 3).flush t = true ∧ i ∈ ((cfg3.win 3).blk t).view.set := by
  have hN : cfg3.N = NP := N_3
  have h0 : (i 0).val < WM := (i 0).isLt
  have h1 : (i 1).val < WN := (i 1).isLt
  let t : Fin cfg3.N := ⟨(i 0).val / TM * PR + (i 1).val / TN * 4 + 3, by omega⟩
  have htv : t.val = (i 0).val / TM * PR + (i 1).val / TN * 4 + 3 := rfl
  obtain ⟨-, -, -, -, -, -, i0, i1⟩ := idx_facts t
  refine ⟨t, (flush3_3 t).mpr (by omega), ?_⟩
  show i ∈ ((View.whole refC).slice (win3_3.rect t)).set
  rw [View.set_slice_whole, Rect.mem_set_unit]
  intro a
  match a with
  | ⟨0, _⟩ =>
    show win3_3.index t (0 : Fin 2) * TM ≤ (i 0).val ∧ (i 0).val < win3_3.index t (0 : Fin 2) * TM + TM
    rw [i0]; omega
  | ⟨1, _⟩ =>
    show win3_3.index t (1 : Fin 2) * TN ≤ (i 1).val ∧ (i 1).val < win3_3.index t (1 : Fin 2) * TN + TN
    rw [i1]; omega

-- What the call leaves: the product of the two operands plus the bias on the columns, after the call's cut if it has one.
theorem final (c : Dev nD) (a : Fin WM) (b : Fin WN) :
    ((dat V c).arrAt 3 cfg3.N : (WC).Idx → EReal) (ix2 a b)
      = Cert.Spec.mm (fun i k => (V c refA : (WA).Idx → EReal) (ix2 i k))
          (fun k j => (V c refB : (WB).Idx → EReal) (ix2 k j)) a b
          + (V c refR : (WR).Idx → EReal) (ix2 (0 : Fin 1) b) := by
  rw [(dat V c).arrAt_eq_of_cover 3 (G V c) (flushed_eq V c) cover]
  rfl

end Final

end Cert.KernelIdeal.Rg3Val

end
-- ==== Proof.HostRest.lean ====
import proofs.«136604_j21827023798522_1_alg».proof.Proof.Gen.KernelIdeal.Launch
import proofs.«136604_j21827023798522_1_alg».proof.Proof.Spec
import proofs.«136604_j21827023798522_1_alg».proof.Proof.LibDot
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.KernelIdeal.HostRest

open Cert.KernelIdeal Cert.KernelIdeal.Gen Idealize.ShloMosaic Idealize.ShloMosaic.TcCoe Idealize.SL.Sem
open Idealize.ShloMosaic.StableHlo Idealize.ShloMosaic.ValueIdx

theorem dot_w256_apply (x : FVec Ideal S8192x256 .f32) (y : FVec Ideal S256x256 .f32) (a : Fin 8192) (b : Fin 256) :
    Host.dotGeneral (F := Ideal) dot_S8192x256_S256x256_S8192x256_1_0_0_1_n_n none x y (ix2 a b)
      = Cert.Spec.mm (fun i k => x (ix2 i k)) (fun k j => y (ix2 k j)) a b :=
  Cert.LibDot.dotGeneral_10_apply _ rfl rfl rfl rfl rfl rfl none x y a b

theorem dot_w40_apply (x : FVec Ideal S8192x256 .f32) (y : FVec Ideal S256x40 .f32) (a : Fin 8192) (b : Fin 40) :
    Host.dotGeneral (F := Ideal) dot_S8192x256_S256x40_S8192x40_1_0_0_1_n_n none x y (ix2 a b)
      = Cert.Spec.mm (fun i k => x (ix2 i k)) (fun k j => y (ix2 k j)) a b :=
  Cert.LibDot.dotGeneral_10_apply _ rfl rfl rfl rfl rfl rfl none x y a b

theorem v0_apply (W : Valuation τ sig (Elt Ideal)) (a b : Fin 8192) :
    (StableHlo.after (hostOps0 (F := Ideal)) W (Proc.devRef .tc main_v0) : S8192x8192.Idx → EReal) (ix2 a b)
      = (W (Proc.devRef .tc main_arg1) : S8192x8192.Idx → EReal) (ix2 a b) := by
  after_results <;> rfl

theorem v1_apply (W : Valuation τ sig (Elt Ideal)) (a b : Fin 8192) :
    (StableHlo.after (hostOps0 (F := Ideal)) W (Proc.devRef .tc main_v1) : S8192x8192.Idx → EReal) (ix2 a b)
      = (W (Proc.devRef .tc main_arg2) : S8192x8192.Idx → EReal) (ix2 a b) := by
  after_results <;> rfl

theorem v2_apply (W : Valuation τ sig (Elt Ideal)) (b : Fin 8192) :
    (StableHlo.after (hostOps0 (F := Ideal)) W (Proc.devRef .tc main_v2) : S1x8192.Idx → EReal) (ix2 (0 : Fin 1) b)
      = (W (Proc.devRef .tc main_arg3) : S8192.Idx → EReal) (ix1 b) := by
  after_results
  exact shapeCast_a_1a_apply _ _ _ _

theorem v38_apply (W : Valuation τ sig (Elt Ideal)) (a : Fin 8192) (b : Fin 256) :
    (StableHlo.after (hostOps2 (F := Ideal)) W (Proc.devRef .tc main_v38) : S8192x256.Idx → EReal) (ix2 a b)
      = Cert.Spec.mm (fun i k => (W (Proc.devRef .tc main_v36) : S8192x256.Idx → EReal) (ix2 i k))
          (fun k j => (W (Proc.devRef .tc main_arg6) : S256x256.Idx → EReal) (ix2 k j)) a b := by
  after_results
  exact dot_w256_apply _ _ a b

theorem v39_apply (W : Valuation τ sig (Elt Ideal)) (b : Fin 256) :
    (StableHlo.after (hostOps2 (F := Ideal)) W (Proc.devRef .tc main_v39) : S1x256.Idx → EReal) (ix2 (0 : Fin 1) b)
      = (W (Proc.devRef .tc main_arg7) : S256.Idx → EReal) (ix1 b) := by
  after_results
  exact shapeCast_a_1a_apply _ _ _ _

theorem v47_apply (W : Valuation τ sig (Elt Ideal)) (a : Fin 8192) (b : Fin 40) :
    (StableHlo.after (hostOps4 (F := Ideal)) W (Proc.devRef .tc main_v47) : S8192x40.Idx → EReal) (ix2 a b)
      = (W (Proc.devRef .tc main_v46) : S8192x128.Idx → EReal) (ix2 a (⟨b.val, by omega⟩ : Fin 128)) := by
  after_results
  exact slice2_axis1_apply 0 _ _ a b _ (Nat.zero_add _).symm

def LSKshift (x : S8192x40.Idx → EReal) : S8192x40.Idx → EReal :=
  subf (F := Ideal) (φ := .f32) x
    (broadcastInDim S8192x40 ![0, 1] bcast_S8192x1_S8192x40_0_1
      (broadcastInDim S8192x1 ![0] bcast_S8192_S8192x1_0
        (maximumf (F := Ideal) (φ := .f32)
          (broadcastInDim S8192 ![] bcast_S_S8192 (constant (F := Ideal) S_ .f32 0xFF800000#32))
          (Host.reduce (FloatOps.maximumf (F := Ideal) (φ := .f32)) x (constant (F := Ideal) S_ .f32 0xFF800000#32)
            reducesTo_S8192x40_S8192_d1 h_S_))))

def LSK (x : S8192x40.Idx → EReal) : S8192x40.Idx → EReal :=
  subf (F := Ideal) (φ := .f32) (LSKshift x)
    (broadcastInDim S8192x40 ![0, 1] bcast_S8192x1_S8192x40_0_1
      (Host.log (F := Ideal) (φ := .f32)
        (broadcastInDim S8192x1 ![0] bcast_S8192_S8192x1_0
          (Host.reduceAdd (F := Ideal) (φ := .f32) (Host.exp (F := Ideal) (φ := .f32) (LSKshift x))
            (constant (F := Ideal) S_ .f32 0x00000000#32) reducesTo_S8192x40_S8192_d1 h_S_))))

theorem v48_eq (W : Valuation τ sig (Elt Ideal)) :
    (StableHlo.after (hostOps4_1 (F := Ideal)) W (Proc.devRef .tc main_v48) : S8192x40.Idx → EReal)
      = LSK (W (Proc.devRef .tc main_v47)) := by
  after_results
  simp only [StableHlo.TRef.ofBuf, StableHlo.TRef.toBuf, cast_eq]
  rfl

abbrev after3 (W : Valuation τ sig (Elt Ideal)) : Valuation τ sig (Elt Ideal) :=
  StableHlo.after (hostOps3_4 (F := Ideal)) (StableHlo.after (hostOps3_3 (F := Ideal)) (StableHlo.after (hostOps3_2 (F := Ideal))
    (StableHlo.after (hostOps3_1 (F := Ideal)) (StableHlo.after (hostOps3 (F := Ideal)) W))))

theorem padVal_eq (i : S_.Idx) :
    (sitofp (F := Ideal) .f32 (constantI S_ 32 0#32) : S_.Idx → EReal) i = 0 := by
  show (((0#32 : BitVec 32).toInt : ℝ) : EReal) = 0
  simp

theorem pad_cols_apply (x : S8192x40.Idx → EReal) (v : S_.Idx → EReal) (a : Fin 8192) (j : Fin 128) :
    pad S8192x128 ![0, 0] ![0, 88] ![0, 0] x v pads_S8192x40_S8192x128_000_0880 h_S_ (ix2 a j)
      = if h : j.val < 40 then x (ix2 a ⟨j.val, h⟩) else v (Shape.Idx.first h_S_) := by
  by_cases h : j.val < 40
  · rw [dif_pos h]
    exact pad_apply_of_inside _ _ _ x v _ h_S_ (ix2 a j) (ix2 a ⟨j.val, h⟩) (fun ax => by
      match ax with
      | ⟨0, _⟩ => show a.val = 0 + a.val * (0 + 1); omega
      | ⟨1, _⟩ => show j.val = 0 + j.val * (0 + 1); omega)
  · rw [dif_neg h]
    exact pad_apply_of_not_inside _ _ _ x v _ h_S_ (ix2 a j) (1 : Fin 2) (by
      show ¬(0 ≤ j.val ∧ (j.val - 0) % (0 + 1) = 0 ∧ (j.val - 0) / (0 + 1) < 40)
      omega)

theorem pad_vec_apply (x : S40.Idx → EReal) (v : S_.Idx → EReal) (j : Fin 128) :
    pad S128 ![0] ![88] ![0] x v pads_S40_S128_0880 h_S_ (ix1 j)
      = if h : j.val < 40 then x (ix1 ⟨j.val, h⟩) else v (Shape.Idx.first h_S_) := by
  by_cases h : j.val < 40
  · rw [dif_pos h]
    exact pad_apply_of_inside _ _ _ x v _ h_S_ (ix1 j) (ix1 ⟨j.val, h⟩) (fun ax => by
      match ax with
      | ⟨0, _⟩ => show j.val = 0 + j.val * (0 + 1); omega)
  · rw [dif_neg h]
    exact pad_apply_of_not_inside _ _ _ x v _ h_S_ (ix1 j) (0 : Fin 1) (by
      show ¬(0 ≤ j.val ∧ (j.val - 0) % (0 + 1) = 0 ∧ (j.val - 0) / (0 + 1) < 40)
      omega)

theorem v45_apply (W : Valuation τ sig (Elt Ideal)) (a : Fin 8192) (j : Fin 128) :
    (after3 W (Proc.devRef .tc main_v45) : S8192x128.Idx → EReal) (ix2 a j)
      = if h : j.val < 40 then
          Cert.Spec.mm (fun i k => (W (Proc.devRef .tc main_v40) : S8192x256.Idx → EReal) (ix2 i k))
            (fun k l => (W (Proc.devRef .tc main_arg8) : S256x40.Idx → EReal) (ix2 k l)) a ⟨j.val, h⟩
        else 0 := by
  after_results
  simp only [StableHlo.TRef.ofBuf, StableHlo.TRef.toBuf, cast_eq]
  refine (pad_cols_apply _ _ a j).trans ?_
  by_cases h : j.val < 40
  · rw [dif_pos h, dif_pos h]; exact dot_w40_apply _ _ a ⟨j.val, h⟩
  · rw [dif_neg h, dif_neg h]; exact padVal_eq _

theorem v44_apply (W : Valuation τ sig (Elt Ideal)) (j : Fin 128) :
    (after3 W (Proc.devRef .tc main_v44) : S1x128.Idx → EReal) (ix2 (0 : Fin 1) j)
      = if h : j.val < 40 then (W (Proc.devRef .tc main_arg9) : S40.Idx → EReal) (ix1 ⟨j.val, h⟩) else (0 : EReal) := by
  after_results
  simp only [StableHlo.TRef.ofBuf, StableHlo.TRef.toBuf, cast_eq]
  refine (shapeCast_a_1a_apply _ _ _ _).trans ?_
  refine (pad_vec_apply _ _ j).trans ?_
  by_cases h : j.val < 40
  · rw [dif_pos h, dif_pos h]
  · rw [dif_neg h, dif_neg h]; exact padVal_eq _

end Cert.KernelIdeal.HostRest

end
-- ==== Proof.KVal.lean ====
import proofs.«136604_j21827023798522_1_alg».proof.Proof.Chain
import proofs.«136604_j21827023798522_1_alg».proof.Proof.Host1
import proofs.«136604_j21827023798522_1_alg».proof.Proof.Region0Val
import proofs.«136604_j21827023798522_1_alg».proof.Proof.Region1Val
import proofs.«136604_j21827023798522_1_alg».proof.Proof.Region2Val
import proofs.«136604_j21827023798522_1_alg».proof.Proof.Region3Val
import proofs.«136604_j21827023798522_1_alg».proof.Proof.HostRest
import proofs.«136604_j21827023798522_1_alg».proof.Proof.Spec
import proofs.«136604_j21827023798522_1_alg».proof.Proof.Algebra
import Idealize.ShloMosaic.Lib.StableHlo.Run
import Idealize.ShloMosaic.Lib.ValueIdx

set_option maxRecDepth 16384

noncomputable section

open scoped BigOperators

namespace Cert.KernelIdeal.KVal

open Cert.KernelIdeal Cert.KernelIdeal.Gen Idealize.ShloMosaic Idealize.ShloMosaic.TcCoe Idealize.SL.Sem
open Idealize.ShloMosaic.StableHlo Idealize.ShloMosaic.ValueIdx

theorem mm_congr {p q r : ℕ} {A A' : Fin p → Fin q → EReal} {B B' : Fin q → Fin r → EReal}
    (hA : ∀ i k, A i k = A' i k) (hB : ∀ k j, B k j = B' k j) (i : Fin p) (j : Fin r) :
    Cert.Spec.mm A B i j = Cert.Spec.mm A' B' i j := by
  unfold Cert.Spec.mm
  exact Finset.sum_congr rfl fun k _ => by rw [hA, hB]

theorem normK_congr {M M' : Fin 8192 → Fin 8192 → EReal} (h : ∀ i j, M i j = M' i j) (a b : Fin 8192) :
    Cert.Spec.normK M a b = Cert.Spec.normK M' a b := by
  rw [show M = M' from funext fun i => funext fun j => h i j]

variable (m : (ℓ : Loc nD τ sig) → Buf (Elt Ideal) ℓ) (c : Dev nD)

abbrev xA : Fin 8192 → Fin 512 → EReal := fun i k => (m ((c.tc : Thread nD τ).loc main_arg0) : S8192x512.Idx → EReal) (ix2 i k)
abbrev adjA : Fin 8192 → Fin 8192 → EReal := fun i k => (m ((c.tc : Thread nD τ).loc main_arg1) : S8192x8192.Idx → EReal) (ix2 i k)
abbrev swA : Fin 8192 → Fin 8192 → EReal := fun k j => (m ((c.tc : Thread nD τ).loc main_arg2) : S8192x8192.Idx → EReal) (ix2 k j)
abbrev biasA : Fin 8192 → EReal := fun j => (m ((c.tc : Thread nD τ).loc main_arg3) : S8192.Idx → EReal) (ix1 j)
abbrev W0A : Fin 512 → Fin 256 → EReal := fun k j => (m ((c.tc : Thread nD τ).loc main_arg4) : S512x256.Idx → EReal) (ix2 k j)
abbrev b0A : Fin 256 → EReal := fun j => (m ((c.tc : Thread nD τ).loc main_arg5) : S256.Idx → EReal) (ix1 j)
abbrev W1A : Fin 256 → Fin 256 → EReal := fun k j => (m ((c.tc : Thread nD τ).loc main_arg6) : S256x256.Idx → EReal) (ix2 k j)
abbrev b1A : Fin 256 → EReal := fun j => (m ((c.tc : Thread nD τ).loc main_arg7) : S256.Idx → EReal) (ix1 j)
abbrev W2A : Fin 256 → Fin 40 → EReal := fun k j => (m ((c.tc : Thread nD τ).loc main_arg8) : S256x40.Idx → EReal) (ix2 k j)
abbrev b2A : Fin 40 → EReal := fun j => (m ((c.tc : Thread nD τ).loc main_arg9) : S40.Idx → EReal) (ix1 j)

abbrev Mk : Fin 8192 → Fin 8192 → EReal := Cert.Spec.modAdj (adjA m c) (swA m c) (biasA m c)

abbrev Ak : Fin 8192 → Fin 8192 → EReal := Cert.Spec.normK (Mk m c)

abbrev h0k : Fin 8192 → Fin 256 → EReal := Cert.Spec.layerRelu (Ak m c) (xA m c) (W0A m c) (b0A m c)

abbrev h1k : Fin 8192 → Fin 256 → EReal := Cert.Spec.layerRelu (Ak m c) (h0k m c) (W1A m c) (b1A m c)

theorem V1_keep (r : Ref sig .tc) (h : r ∉ hostOps0_W) :
    Gen.V1 (F := Ideal) m c (Proc.devRef .tc r) = m ((c.tc : Thread nD τ).loc r) :=
  StableHlo.after_of_writes_sub hostOps0 _ hostOps0_writes h
theorem B2_keep (r : Ref sig .tc) (h : r ≠ main_v3) :
    Chain.B2 (F := Ideal) m c (Proc.devRef .tc r) = Gen.V1 m c (Proc.devRef .tc r) :=
  Function.update_of_ne (StableHlo.devRef_ne_of_ne h) _ _
theorem B3_keep (r : Ref sig .tc) (h : r ∉ hostOps1_W) :
    Chain.B3 (F := Ideal) m c (Proc.devRef .tc r) = Chain.B2 m c (Proc.devRef .tc r) :=
  StableHlo.after_of_writes_sub hostOps1 _ hostOps1_writes h
theorem B4_keep (r : Ref sig .tc) (h : r ≠ main_v36) :
    Chain.B4 (F := Ideal) m c (Proc.devRef .tc r) = Chain.B3 m c (Proc.devRef .tc r) :=
  Function.update_of_ne (StableHlo.devRef_ne_of_ne h) _ _
theorem B5_keep (r : Ref sig .tc) (h : r ∉ hostOps2_W) :
    Chain.B5 (F := Ideal) m c (Proc.devRef .tc r) = Chain.B4 m c (Proc.devRef .tc r) :=
  StableHlo.after_of_writes_sub hostOps2 _ hostOps2_writes h
theorem B6_keep (r : Ref sig .tc) (h : r ≠ main_v40) :
    Chain.B6 (F := Ideal) m c (Proc.devRef .tc r) = Chain.B5 m c (Proc.devRef .tc r) :=
  Function.update_of_ne (StableHlo.devRef_ne_of_ne h) _ _
theorem B11_keep (r : Ref sig .tc) (h0 : r ∉ hostOps3_W) (h1 : r ∉ hostOps3_1_W) (h2 : r ∉ hostOps3_2_W)
    (h3 : r ∉ hostOps3_3_W) (h4 : r ∉ hostOps3_4_W) :
    Chain.B11 (F := Ideal) m c (Proc.devRef .tc r) = Chain.B6 m c (Proc.devRef .tc r) :=
  (StableHlo.after_of_writes_sub hostOps3_4 _ hostOps3_4_writes h4).trans <|
    (StableHlo.after_of_writes_sub hostOps3_3 _ hostOps3_3_writes h3).trans <|
    (StableHlo.after_of_writes_sub hostOps3_2 _ hostOps3_2_writes h2).trans <|
    (StableHlo.after_of_writes_sub hostOps3_1 _ hostOps3_1_writes h1).trans <|
    StableHlo.after_of_writes_sub hostOps3 _ hostOps3_writes h0

theorem B2_arg (r : Ref sig .tc) (h3 : r ≠ main_v3) (h0 : r ∉ hostOps0_W) :
    Chain.B2 (F := Ideal) m c (Proc.devRef .tc r) = m ((c.tc : Thread nD τ).loc r) :=
  (B2_keep m c r h3).trans (V1_keep m c r h0)
theorem B4_arg (r : Ref sig .tc) (h36 : r ≠ main_v36) (h1 : r ∉ hostOps1_W) (h3 : r ≠ main_v3) (h0 : r ∉ hostOps0_W) :
    Chain.B4 (F := Ideal) m c (Proc.devRef .tc r) = m ((c.tc : Thread nD τ).loc r) :=
  (B4_keep m c r h36).trans ((B3_keep m c r h1).trans (B2_arg m c r h3 h0))
theorem B6_arg (r : Ref sig .tc) (h40 : r ≠ main_v40) (h2 : r ∉ hostOps2_W) (h36 : r ≠ main_v36) (h1 : r ∉ hostOps1_W)
    (h3 : r ≠ main_v3) (h0 : r ∉ hostOps0_W) :
    Chain.B6 (F := Ideal) m c (Proc.devRef .tc r) = m ((c.tc : Thread nD τ).loc r) :=
  (B6_keep m c r h40).trans ((B5_keep m c r h2).trans (B4_arg m c r h36 h1 h3 h0))

theorem v0_at (a b : Fin 8192) :
    (Gen.V1 (F := Ideal) m c (Proc.devRef .tc main_v0) : S8192x8192.Idx → EReal) (ix2 a b) = adjA m c a b :=
  HostRest.v0_apply (Gen.V0 m c) a b
theorem v1_at (a b : Fin 8192) :
    (Gen.V1 (F := Ideal) m c (Proc.devRef .tc main_v1) : S8192x8192.Idx → EReal) (ix2 a b) = swA m c a b :=
  HostRest.v1_apply (Gen.V0 m c) a b
theorem v2_at (b : Fin 8192) :
    (Gen.V1 (F := Ideal) m c (Proc.devRef .tc main_v2) : S1x8192.Idx → EReal) (ix2 (0 : Fin 1) b) = biasA m c b :=
  HostRest.v2_apply (Gen.V0 m c) b

theorem o0_at (a b : Fin 8192) :
    (Chain.o0 (F := Ideal) m c : S8192x8192.Idx → EReal) (ix2 a b) = Mk m c a b := by
  refine (Rg0Val.final (Chain.r1 m) c a b).trans ?_
  show _ = max (Cert.Spec.mm (adjA m c) (swA m c) a b + biasA m c b) 0
  exact congrArg₂ max (congrArg₂ (· + ·) (mm_congr (v0_at m c) (v1_at m c) a b) (v2_at m c b)) rfl

theorem B2_v3 : Chain.B2 (F := Ideal) m c (Proc.devRef .tc main_v3) = Chain.o0 m c :=
  Function.update_self (Proc.devRef .tc main_v3 : DevRef τ sig) _ _

theorem B2_v3_at (a b : Fin 8192) :
    (Chain.B2 (F := Ideal) m c (Proc.devRef .tc main_v3) : S8192x8192.Idx → EReal) (ix2 a b) = Mk m c a b := by
  rw [B2_v3]; exact o0_at m c a b

theorem v32_B3 (a b : Fin 8192) :
    (Chain.B3 (F := Ideal) m c (Proc.devRef .tc main_v32) : S8192x8192.Idx → EReal) (ix2 a b) = Ak m c a b :=
  (Host1.v32_apply (Chain.B2 m c) a b).trans (normK_congr (B2_v3_at m c) a b)

theorem v34_B3 (a : Fin 8192) (b : Fin 256) :
    (Chain.B3 (F := Ideal) m c (Proc.devRef .tc main_v34) : S8192x256.Idx → EReal) (ix2 a b)
      = Cert.Spec.mm (xA m c) (W0A m c) a b :=
  (Host1.v34_apply (Chain.B2 m c) a b).trans (mm_congr
    (fun i k => by rw [B2_arg m c main_arg0 (by decide) (by decide)])
    (fun k j => by rw [B2_arg m c main_arg4 (by decide) (by decide)]) a b)

theorem v35_B3 (b : Fin 256) :
    (Chain.B3 (F := Ideal) m c (Proc.devRef .tc main_v35) : S1x256.Idx → EReal) (ix2 (0 : Fin 1) b) = b0A m c b :=
  (Host1.v35_apply (Chain.B2 m c) b).trans (by rw [B2_arg m c main_arg5 (by decide) (by decide)])

theorem o1_at (a : Fin 8192) (b : Fin 256) :
    (Chain.o1 (F := Ideal) m c : S8192x256.Idx → EReal) (ix2 a b) = h0k m c a b := by
  refine (Rg1Val.final (Chain.r3 m) c a b).trans ?_
  show _ = max (Cert.Spec.mm (Ak m c) (Cert.Spec.mm (xA m c) (W0A m c)) a b + b0A m c b) 0
  exact congrArg₂ max (congrArg₂ (· + ·) (mm_congr (v32_B3 m c) (v34_B3 m c) a b) (v35_B3 m c b)) rfl

theorem B4_v36 : Chain.B4 (F := Ideal) m c (Proc.devRef .tc main_v36) = Chain.o1 m c :=
  Function.update_self (Proc.devRef .tc main_v36 : DevRef τ sig) _ _

theorem v38_B5 (a : Fin 8192) (b : Fin 256) :
    (Chain.B5 (F := Ideal) m c (Proc.devRef .tc main_v38) : S8192x256.Idx → EReal) (ix2 a b)
      = Cert.Spec.mm (h0k m c) (W1A m c) a b :=
  (HostRest.v38_apply (Chain.B4 m c) a b).trans (mm_congr
    (fun i k => by rw [B4_v36]; exact o1_at m c i k)
    (fun k j => by rw [B4_arg m c main_arg6 (by decide) (by decide) (by decide) (by decide)]) a b)

theorem v39_B5 (b : Fin 256) :
    (Chain.B5 (F := Ideal) m c (Proc.devRef .tc main_v39) : S1x256.Idx → EReal) (ix2 (0 : Fin 1) b) = b1A m c b :=
  (HostRest.v39_apply (Chain.B4 m c) b).trans
    (by rw [B4_arg m c main_arg7 (by decide) (by decide) (by decide) (by decide)])

theorem v32_B5 (a b : Fin 8192) :
    (Chain.B5 (F := Ideal) m c (Proc.devRef .tc main_v32) : S8192x8192.Idx → EReal) (ix2 a b) = Ak m c a b := by
  rw [B5_keep m c main_v32 (by decide), B4_keep m c main_v32 (by decide)]
  exact v32_B3 m c a b

theorem o2_at (a : Fin 8192) (b : Fin 256) :
    (Chain.o2 (F := Ideal) m c : S8192x256.Idx → EReal) (ix2 a b) = h1k m c a b := by
  refine (Rg2Val.final (Chain.r5 m) c a b).trans ?_
  show _ = max (Cert.Spec.mm (Ak m c) (Cert.Spec.mm (h0k m c) (W1A m c)) a b + b1A m c b) 0
  exact congrArg₂ max (congrArg₂ (· + ·)
    (mm_congr (v32_B5 m c) (v38_B5 m c) a b) (v39_B5 m c b)) rfl

theorem B6_v40 : Chain.B6 (F := Ideal) m c (Proc.devRef .tc main_v40) = Chain.o2 m c :=
  Function.update_self (Proc.devRef .tc main_v40 : DevRef τ sig) _ _

theorem v45_B11 (a : Fin 8192) (j : Fin 128) :
    (Chain.B11 (F := Ideal) m c (Proc.devRef .tc main_v45) : S8192x128.Idx → EReal) (ix2 a j)
      = if h : j.val < 40 then Cert.Spec.mm (h1k m c) (W2A m c) a ⟨j.val, h⟩ else 0 := by
  refine (HostRest.v45_apply (Chain.B6 m c) a j).trans ?_
  by_cases h : j.val < 40
  · rw [dif_pos h, dif_pos h]
    exact mm_congr
      (fun i k => by rw [B6_v40]; exact o2_at m c i k)
      (fun k l => by rw [B6_arg m c main_arg8 (by decide) (by decide) (by decide) (by decide) (by decide) (by decide)])
      a ⟨j.val, h⟩
  · rw [dif_neg h, dif_neg h]

theorem v44_B11 (j : Fin 128) :
    (Chain.B11 (F := Ideal) m c (Proc.devRef .tc main_v44) : S1x128.Idx → EReal) (ix2 (0 : Fin 1) j)
      = if h : j.val < 40 then b2A m c ⟨j.val, h⟩ else 0 := by
  refine (HostRest.v44_apply (Chain.B6 m c) j).trans ?_
  by_cases h : j.val < 40
  · rw [dif_pos h, dif_pos h, B6_arg m c main_arg9 (by decide) (by decide) (by decide) (by decide) (by decide) (by decide)]
  · rw [dif_neg h, dif_neg h]

theorem v32_B11 (a b : Fin 8192) :
    (Chain.B11 (F := Ideal) m c (Proc.devRef .tc main_v32) : S8192x8192.Idx → EReal) (ix2 a b) = Ak m c a b := by
  rw [B11_keep m c main_v32 (by decide) (by decide) (by decide) (by decide) (by decide),
    B6_keep m c main_v32 (by decide)]
  exact v32_B5 m c a b

theorem o3_at
    (a : Fin 8192) (b : Fin 40) :
    (Chain.o3 (F := Ideal) m c : S8192x128.Idx → EReal) (ix2 a (⟨b.val, by omega⟩ : Fin 128))
      = Cert.Spec.logits (Ak m c) (xA m c) (W0A m c) (b0A m c) (W1A m c) (b1A m c) (W2A m c) (b2A m c) a b := by
  refine (Rg3Val.final (Chain.r11 m) c a ⟨b.val, by omega⟩).trans ?_
  show _ = Cert.Spec.mm (Ak m c) (Cert.Spec.mm (h1k m c) (W2A m c)) a b + b2A m c b
  refine congrArg₂ (· + ·) ?_ ?_
  · unfold Cert.Spec.mm
    refine Finset.sum_congr rfl fun k _ => ?_
    exact congrArg₂ (· * ·) (v32_B11 m c a k)
      ((v45_B11 m c k ⟨b.val, by omega⟩).trans (dif_pos b.isLt))
  · exact (v44_B11 m c ⟨b.val, by omega⟩).trans (dif_pos b.isLt)

theorem B12_v46 : Chain.B12 (F := Ideal) m c (Proc.devRef .tc main_v46) = Chain.o3 m c :=
  Function.update_self (Proc.devRef .tc main_v46 : DevRef τ sig) _ _

theorem k_logits
    (a : Fin 8192) (b : Fin 40) :
    (Chain.B13 (F := Ideal) m c (Proc.devRef .tc main_v47) : S8192x40.Idx → EReal) (ix2 a b)
      = Cert.Spec.logits
          (Cert.Spec.normK (Cert.Spec.modAdj
            (fun i k => (m ((c.tc : Thread nD τ).loc main_arg1) : S8192x8192.Idx → EReal) (ix2 i k))
            (fun k j => (m ((c.tc : Thread nD τ).loc main_arg2) : S8192x8192.Idx → EReal) (ix2 k j))
            (fun j => (m ((c.tc : Thread nD τ).loc main_arg3) : S8192.Idx → EReal) (ix1 j))))
          (fun i k => (m ((c.tc : Thread nD τ).loc main_arg0) : S8192x512.Idx → EReal) (ix2 i k))
          (fun k j => (m ((c.tc : Thread nD τ).loc main_arg4) : S512x256.Idx → EReal) (ix2 k j))
          (fun j => (m ((c.tc : Thread nD τ).loc main_arg5) : S256.Idx → EReal) (ix1 j))
          (fun k j => (m ((c.tc : Thread nD τ).loc main_arg6) : S256x256.Idx → EReal) (ix2 k j))
          (fun j => (m ((c.tc : Thread nD τ).loc main_arg7) : S256.Idx → EReal) (ix1 j))
          (fun k j => (m ((c.tc : Thread nD τ).loc main_arg8) : S256x40.Idx → EReal) (ix2 k j))
          (fun j => (m ((c.tc : Thread nD τ).loc main_arg9) : S40.Idx → EReal) (ix1 j)) a b := by
  refine (HostRest.v47_apply (Chain.B12 m c) a b).trans ?_
  rw [B12_v46]
  exact o3_at m c a b

theorem k_result :
    (Chain.B14 (F := Ideal) m c (Proc.devRef .tc main_v48) : S8192x40.Idx → EReal)
      = HostRest.LSK (Chain.B13 m c (Proc.devRef .tc main_v47)) :=
  HostRest.v48_eq (Chain.B13 m c)

end Cert.KernelIdeal.KVal

end
-- ==== Proof.RefReadP.lean ====
import proofs.«136604_j21827023798522_1_alg».proof.Proof.RefRunP
import proofs.«136604_j21827023798522_1_alg».proof.Proof.LibDot
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 x2 : (⟨S8192x8192, .f32⟩ : BufTy).Contents (Elt F)) : (⟨S8192x8192, .f32⟩ : BufTy).Contents (Elt F) :=
  Host.dotGeneral dot_S8192x8192_S8192x8192_S8192x8192_1_0_0_1_n_n none (x1) (x2)
theorem val_main_v0_apply (x1 x2 : (⟨S8192x8192, .f32⟩ : BufTy).Contents (Elt Ideal)) (a : Fin 8192) (b : Fin 8192) :
    val_main_v0 (F := Ideal) x1 x2 (ValueIdx.ix2 a b) = ∑ k : Fin 8192, x1 (ValueIdx.ix2 a k) * x2 (ValueIdx.ix2 k b) :=
  Cert.LibDot.dotGeneral_10_apply dot_S8192x8192_S8192x8192_S8192x8192_1_0_0_1_n_n rfl rfl rfl rfl rfl rfl none _ _ a b

def val_main_v1 (x3 : (⟨S8192, .f32⟩ : BufTy).Contents (Elt F)) : (⟨S1x8192, .f32⟩ : BufTy).Contents (Elt F) :=
  broadcastInDim S1x8192 ![1] bcast_S8192_S1x8192_1 (x3)
abbrev idx_main_v1 (i : S1x8192.Idx) : S8192.Idx := fun a => match a with
  | ⟨0, _⟩ => ⟨(i 1).val, (i 1).isLt⟩
theorem val_main_v1_apply (x3 : (⟨S8192, .f32⟩ : BufTy).Contents (Elt F)) (i : S1x8192.Idx) :
    val_main_v1 (F := F) x3 i = x3 (idx_main_v1 i) := by
  unfold val_main_v1
  exact broadcastInDim_apply _ bcast_S8192_S1x8192_1 x3 i (idx_main_v1 i) (fun a => match a with
    | ⟨0, _⟩ => by show (i 1).val = if (8192 : Nat) = 1 then 0 else (i 1).val; rw [if_neg (by decide)])

def val_main_v2 (x3 : (⟨S8192, .f32⟩ : BufTy).Contents (Elt F)) : (⟨S8192x8192, .f32⟩ : BufTy).Contents (Elt F) :=
  broadcastInDim S8192x8192 ![0, 1] bcast_S1x8192_S8192x8192_0_1 (val_main_v1 (F := F) x3)
abbrev idx_main_v2 (i : S8192x8192.Idx) : S1x8192.Idx := fun a => match a with
  | ⟨0, _⟩ => ⟨0, Nat.one_pos⟩
  | ⟨1, _⟩ => ⟨(i 1).val, (i 1).isLt⟩
theorem val_main_v2_apply (x3 : (⟨S8192, .f32⟩ : BufTy).Contents (Elt F)) (i : S8192x8192.Idx) :
    val_main_v2 (F := F) x3 i = val_main_v1 (F := F) x3 (idx_main_v2 i) := by
  unfold val_main_v2
  generalize val_main_v1 (F := F) x3 = y
  exact broadcastInDim_apply _ bcast_S1x8192_S8192x8192_0_1 y i (idx_main_v2 i) (fun a => match a with
    | ⟨0, _⟩ => by show 0 = if (1 : Nat) = 1 then 0 else (i 0).val; rw [if_pos rfl]
    | ⟨1, _⟩ => by show (i 1).val = if (8192 : Nat) = 1 then 0 else (i 1).val; rw [if_neg (by decide)])

def val_main_v3 (x1 x2 : (⟨S8192x8192, .f32⟩ : BufTy).Contents (Elt F)) (x3 : (⟨S8192, .f32⟩ : BufTy).Contents (Elt F)) : (⟨S8192x8192, .f32⟩ : BufTy).Contents (Elt F) :=
  addf (val_main_v0 (F := F) x1 x2) (val_main_v2 (F := F) x3)
theorem val_main_v3_apply (x1 x2 : (⟨S8192x8192, .f32⟩ : BufTy).Contents (Elt F)) (x3 : (⟨S8192, .f32⟩ : BufTy).Contents (Elt F)) (i : S8192x8192.Idx) :
    val_main_v3 (F := F) x1 x2 x3 i = FloatOps.addf (val_main_v0 (F := F) x1 x2 i) (val_main_v2 (F := F) x3 i) := rfl

def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl

def val_main_call0_v0 : (⟨S8192x8192, .f32⟩ : BufTy).Contents (Elt F) :=
  broadcastInDim S8192x8192 ![] bcast_S_S8192x8192 (val_main_call0_cst (F := F))
abbrev idx_main_call0_v0 (i : S8192x8192.Idx) : S_.Idx := fun a => a.elim0
theorem val_main_call0_v0_apply (i : S8192x8192.Idx) :
    val_main_call0_v0 (F := F) i = val_main_call0_cst (F := F) (idx_main_call0_v0 i) := by
  unfold val_main_call0_v0
  generalize val_main_call0_cst (F := F) = y
  exact broadcastInDim_apply _ bcast_S_S8192x8192 y i (idx_main_call0_v0 i) (fun a => a.elim0)

def val_main_v4 (x1 x2 : (⟨S8192x8192, .f32⟩ : BufTy).Contents (Elt F)) (x3 : (⟨S8192, .f32⟩ : BufTy).Contents (Elt F)) : (⟨S8192x8192, .f32⟩ : BufTy).Contents (Elt F) :=
  maximumf (val_main_v3 (F := F) x1 x2 x3) (val_main_call0_v0 (F := F))
theorem val_main_v4_apply (x1 x2 : (⟨S8192x8192, .f32⟩ : BufTy).Contents (Elt F)) (x3 : (⟨S8192, .f32⟩ : BufTy).Contents (Elt F)) (i : S8192x8192.Idx) :
    val_main_v4 (F := F) x1 x2 x3 i = FloatOps.maximumf (val_main_v3 (F := F) x1 x2 x3 i) (val_main_call0_v0 (F := F) i) := rfl

def val_main_v5 : (⟨S8192x8192, .i32⟩ : BufTy).Contents (Elt F) :=
  iotaInDim S8192x8192 32 0
theorem val_main_v5_apply (i : S8192x8192.Idx) :
    val_main_v5 (F := F) i = BitVec.ofNat 32 (i 0).val := rfl

def val_main_v6 : (⟨S8192x8192, .i32⟩ : BufTy).Contents (Elt F) :=
  iotaInDim S8192x8192 32 1
theorem val_main_v6_apply (i : S8192x8192.Idx) :
    val_main_v6 (F := F) i = BitVec.ofNat 32 (i 1).val := rfl

def val_main_c : (⟨S_, .i32⟩ : BufTy).Contents (Elt F) :=
  constantI S_ 32 0#32
theorem val_main_c_apply (i : S_.Idx) :
    val_main_c (F := F) i = 0#32 := rfl

def val_main_v7 : (⟨S8192x8192, .i32⟩ : BufTy).Contents (Elt F) :=
  broadcastInDim S8192x8192 ![] bcast_S_S8192x8192 (val_main_c (F := F))
abbrev idx_main_v7 (i : S8192x8192.Idx) : S_.Idx := fun a => a.elim0
theorem val_main_v7_apply (i : S8192x8192.Idx) :
    val_main_v7 (F := F) i = val_main_c (F := F) (idx_main_v7 i) := by
  unfold val_main_v7
  generalize val_main_c (F := F) = y
  exact broadcastInDim_apply _ bcast_S_S8192x8192 y i (idx_main_v7 i) (fun a => a.elim0)

def val_main_v8 : (⟨S8192x8192, .i32⟩ : BufTy).Contents (Elt F) :=
  addi (val_main_v5 (F := F)) (val_main_v7 (F := F))
theorem val_main_v8_apply (i : S8192x8192.Idx) :
    val_main_v8 (F := F) i = IntOp.addi (val_main_v5 (F := F) i) (val_main_v7 (F := F) i) := rfl

def val_main_v9 : (⟨S8192x8192, .i1⟩ : BufTy).Contents (Elt F) :=
  cmpi .eq (val_main_v8 (F := F)) (val_main_v6 (F := F))
theorem val_main_v9_apply (i : S8192x8192.Idx) :
    val_main_v9 (F := F) i = IntOp.cmpi .eq (val_main_v8 (F := F) i) (val_main_v6 (F := F) i) := rfl

def val_main_v10 : (⟨S8192x8192, .f32⟩ : BufTy).Contents (Elt F) :=
  uitofp .f32 (val_main_v9 (F := F))
theorem val_main_v10_apply (i : S8192x8192.Idx) :
    val_main_v10 (F := F) i = FloatOps.uitofp .f32 (val_main_v9 (F := F) i) := rfl

def val_main_v11 (x1 x2 : (⟨S8192x8192, .f32⟩ : BufTy).Contents (Elt F)) (x3 : (⟨S8192, .f32⟩ : BufTy).Contents (Elt F)) : (⟨S8192x8192, .f32⟩ : BufTy).Contents (Elt F) :=
  addf (val_main_v4 (F := F) x1 x2 x3) (val_main_v10 (F := F))
theorem val_main_v11_apply (x1 x2 : (⟨S8192x8192, .f32⟩ : BufTy).Contents (Elt F)) (x3 : (⟨S8192, .f32⟩ : BufTy).Contents (Elt F)) (i : S8192x8192.Idx) :
    val_main_v11 (F := F) x1 x2 x3 i = FloatOps.addf (val_main_v4 (F := F) x1 x2 x3 i) (val_main_v10 (F := F) i) := rfl

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v12 (x1 x2 : (⟨S8192x8192, .f32⟩ : BufTy).Contents (Elt F)) (x3 : (⟨S8192, .f32⟩ : BufTy).Contents (Elt F)) : (⟨S8192, .f32⟩ : BufTy).Contents (Elt F) :=
  Host.reduceAdd (val_main_v11 (F := F) x1 x2 x3) (val_main_cst (F := F)) reducesTo_S8192x8192_S8192_d1 h_S_
abbrev idx_main_v12 (i : S8192.Idx) (k : Fin 8192) : S8192x8192.Idx := fun a => match a with
  | ⟨0, _⟩ => ⟨(i 0).val, (i 0).isLt⟩
  | ⟨1, _⟩ => ⟨k.val, k.isLt⟩

theorem val_main_v12_apply (x1 x2 : (⟨S8192x8192, .f32⟩ : BufTy).Contents (Elt Ideal)) (x3 : (⟨S8192, .f32⟩ : BufTy).Contents (Elt Ideal)) (i : S8192.Idx) :
    val_main_v12 (F := Ideal) x1 x2 x3 i = (val_main_cst (F := Ideal)) (Shape.Idx.first h_S_) + ∑ k : Fin 8192, (val_main_v11 (F := Ideal) x1 x2 x3) (idx_main_v12 i k) := by
  unfold val_main_v12
  generalize val_main_v11 (F := Ideal) x1 x2 x3 = y0
  simp only [Host.reduceAdd, Ideal.hostReduceAdd_def]
  rw [Ideal.hostReduceAdd_single reducesTo_S8192x8192_S8192_d1 (by decide)]
  refine congrArg (_ + ·) (Finset.sum_congr rfl fun k _ => ?_)
  exact congrArg y0 (funext fun a => Fin.ext (by match a with | ⟨0, _⟩ => rfl | ⟨1, _⟩ => rfl))

def val_main_v13 (x1 x2 : (⟨S8192x8192, .f32⟩ : BufTy).Contents (Elt F)) (x3 : (⟨S8192, .f32⟩ : BufTy).Contents (Elt F)) : (⟨S8192, .f32⟩ : BufTy).Contents (Elt F) :=
  Host.sqrt (val_main_v12 (F := F) x1 x2 x3)
theorem val_main_v13_apply (x1 x2 : (⟨S8192x8192, .f32⟩ : BufTy).Contents (Elt F)) (x3 : (⟨S8192, .f32⟩ : BufTy).Contents (Elt F)) (i : S8192.Idx) :
    val_main_v13 (F := F) x1 x2 x3 i = FloatOps.hostUnary .sqrt (val_main_v12 (F := F) x1 x2 x3 i) := rfl

def val_main_cst_0 : (⟨S_, .f32⟩ : BufTy).Contents (Elt F) :=
  constant S_ .f32 0x3F800000#32
theorem val_main_cst_0_apply (i : S_.Idx) :
    val_main_cst_0 (F := F) i = FloatOps.ofBits .f32 0x3F800000#32 := rfl

def val_main_v14 : (⟨S8192, .f32⟩ : BufTy).Contents (Elt F) :=
  broadcastInDim S8192 ![] bcast_S_S8192 (val_main_cst_0 (F := F))
abbrev idx_main_v14 (i : S8192.Idx) : S_.Idx := fun a => a.elim0
theorem val_main_v14_apply (i : S8192.Idx) :
    val_main_v14 (F := F) i = val_main_cst_0 (F := F) (idx_main_v14 i) := by
  unfold val_main_v14
  generalize val_main_cst_0 (F := F) = y
  exact broadcastInDim_apply _ bcast_S_S8192 y i (idx_main_v14 i) (fun a => a.elim0)

def val_main_v15 (x1 x2 : (⟨S8192x8192, .f32⟩ : BufTy).Contents (Elt F)) (x3 : (⟨S8192, .f32⟩ : BufTy).Contents (Elt F)) : (⟨S8192, .f32⟩ : BufTy).Contents (Elt F) :=
  Host.divf (val_main_v14 (F := F)) (val_main_v13 (F := F) x1 x2 x3)
theorem val_main_v15_apply (x1 x2 : (⟨S8192x8192, .f32⟩ : BufTy).Contents (Elt F)) (x3 : (⟨S8192, .f32⟩ : BufTy).Contents (Elt F)) (i : S8192.Idx) :
    val_main_v15 (F := F) x1 x2 x3 i = FloatOps.hostDivf (val_main_v14 (F := F) i) (val_main_v13 (F := F) x1 x2 x3 i) := rfl

def val_main_v16 (x1 x2 : (⟨S8192x8192, .f32⟩ : BufTy).Contents (Elt F)) (x3 : (⟨S8192, .f32⟩ : BufTy).Contents (Elt F)) : (⟨S8192x1, .f32⟩ : BufTy).Contents (Elt F) :=
  broadcastInDim S8192x1 ![0] bcast_S8192_S8192x1_0 (val_main_v15 (F := F) x1 x2 x3)
abbrev idx_main_v16 (i : S8192x1.Idx) : S8192.Idx := fun a => match a with
  | ⟨0, _⟩ => ⟨(i 0).val, (i 0).isLt⟩
theorem val_main_v16_apply (x1 x2 : (⟨S8192x8192, .f32⟩ : BufTy).Contents (Elt F)) (x3 : (⟨S8192, .f32⟩ : BufTy).Contents (Elt F)) (i : S8192x1.Idx) :
    val_main_v16 (F := F) x1 x2 x3 i = val_main_v15 (F := F) x1 x2 x3 (idx_main_v16 i) := by
  unfold val_main_v16
  generalize val_main_v15 (F := F) x1 x2 x3 = y
  exact broadcastInDim_apply _ bcast_S8192_S8192x1_0 y i (idx_main_v16 i) (fun a => match a with
    | ⟨0, _⟩ => by show (i 0).val = if (8192 : Nat) = 1 then 0 else (i 0).val; rw [if_neg (by decide)])

def val_main_v17 (x1 x2 : (⟨S8192x8192, .f32⟩ : BufTy).Contents (Elt F)) (x3 : (⟨S8192, .f32⟩ : BufTy).Contents (Elt F)) : (⟨S8192x8192, .f32⟩ : BufTy).Contents (Elt F) :=
  broadcastInDim S8192x8192 ![0, 1] bcast_S8192x1_S8192x8192_0_1 (val_main_v16 (F := F) x1 x2 x3)
abbrev idx_main_v17 (i : S8192x8192.Idx) : S8192x1.Idx := fun a => match a with
  | ⟨0, _⟩ => ⟨(i 0).val, (i 0).isLt⟩
  | ⟨1, _⟩ => ⟨0, Nat.one_pos⟩
theorem val_main_v17_apply (x1 x2 : (⟨S8192x8192, .f32⟩ : BufTy).Contents (Elt F)) (x3 : (⟨S8192, .f32⟩ : BufTy).Contents (Elt F)) (i : S8192x8192.Idx) :
    val_main_v17 (F := F) x1 x2 x3 i = val_main_v16 (F := F) x1 x2 x3 (idx_main_v17 i) := by
  unfold val_main_v17
  generalize val_main_v16 (F := F) x1 x2 x3 = y
  exact broadcastInDim_apply _ bcast_S8192x1_S8192x8192_0_1 y i (idx_main_v17 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

def val_main_v18 (x1 x2 : (⟨S8192x8192, .f32⟩ : BufTy).Contents (Elt F)) (x3 : (⟨S8192, .f32⟩ : BufTy).Contents (Elt F)) : (⟨S8192x8192, .f32⟩ : BufTy).Contents (Elt F) :=
  mulf (val_main_v17 (F := F) x1 x2 x3) (val_main_v11 (F := F) x1 x2 x3)
theorem val_main_v18_apply (x1 x2 : (⟨S8192x8192, .f32⟩ : BufTy).Contents (Elt F)) (x3 : (⟨S8192, .f32⟩ : BufTy).Contents (Elt F)) (i : S8192x8192.Idx) :
    val_main_v18 (F := F) x1 x2 x3 i = FloatOps.mulf (val_main_v17 (F := F) x1 x2 x3 i) (val_main_v11 (F := F) x1 x2 x3 i) := rfl

def val_main_v19 (x1 x2 : (⟨S8192x8192, .f32⟩ : BufTy).Contents (Elt F)) (x3 : (⟨S8192, .f32⟩ : BufTy).Contents (Elt F)) : (⟨S1x8192, .f32⟩ : BufTy).Contents (Elt F) :=
  broadcastInDim S1x8192 ![1] bcast_S8192_S1x8192_1 (val_main_v15 (F := F) x1 x2 x3)
abbrev idx_main_v19 (i : S1x8192.Idx) : S8192.Idx := fun a => match a with
  | ⟨0, _⟩ => ⟨(i 1).val, (i 1).isLt⟩
theorem val_main_v19_apply (x1 x2 : (⟨S8192x8192, .f32⟩ : BufTy).Contents (Elt F)) (x3 : (⟨S8192, .f32⟩ : BufTy).Contents (Elt F)) (i : S1x8192.Idx) :
    val_main_v19 (F := F) x1 x2 x3 i = val_main_v15 (F := F) x1 x2 x3 (idx_main_v19 i) := by
  unfold val_main_v19
  generalize val_main_v15 (F := F) x1 x2 x3 = y
  exact broadcastInDim_apply _ bcast_S8192_S1x8192_1 y i (idx_main_v19 i) (fun a => match a with
    | ⟨0, _⟩ => by show (i 1).val = if (8192 : Nat) = 1 then 0 else (i 1).val; rw [if_neg (by decide)])

def val_main_v20 (x1 x2 : (⟨S8192x8192, .f32⟩ : BufTy).Contents (Elt F)) (x3 : (⟨S8192, .f32⟩ : BufTy).Contents (Elt F)) : (⟨S8192x8192, .f32⟩ : BufTy).Contents (Elt F) :=
  broadcastInDim S8192x8192 ![0, 1] bcast_S1x8192_S8192x8192_0_1 (val_main_v19 (F := F) x1 x2 x3)
abbrev idx_main_v20 (i : S8192x8192.Idx) : S1x8192.Idx := fun a => match a with
  | ⟨0, _⟩ => ⟨0, Nat.one_pos⟩
  | ⟨1, _⟩ => ⟨(i 1).val, (i 1).isLt⟩
theorem val_main_v20_apply (x1 x2 : (⟨S8192x8192, .f32⟩ : BufTy).Contents (Elt F)) (x3 : (⟨S8192, .f32⟩ : BufTy).Contents (Elt F)) (i : S8192x8192.Idx) :
    val_main_v20 (F := F) x1 x2 x3 i = val_main_v19 (F := F) x1 x2 x3 (idx_main_v20 i) := by
  unfold val_main_v20
  generalize val_main_v19 (F := F) x1 x2 x3 = y
  exact broadcastInDim_apply _ bcast_S1x8192_S8192x8192_0_1 y i (idx_main_v20 i) (fun a => match a with
    | ⟨0, _⟩ => by show 0 = if (1 : Nat) = 1 then 0 else (i 0).val; rw [if_pos rfl]
    | ⟨1, _⟩ => by show (i 1).val = if (8192 : Nat) = 1 then 0 else (i 1).val; rw [if_neg (by decide)])

def val_main_v21 (x1 x2 : (⟨S8192x8192, .f32⟩ : BufTy).Contents (Elt F)) (x3 : (⟨S8192, .f32⟩ : BufTy).Contents (Elt F)) : (⟨S8192x8192, .f32⟩ : BufTy).Contents (Elt F) :=
  mulf (val_main_v18 (F := F) x1 x2 x3) (val_main_v20 (F := F) x1 x2 x3)
theorem val_main_v21_apply (x1 x2 : (⟨S8192x8192, .f32⟩ : BufTy).Contents (Elt F)) (x3 : (⟨S8192, .f32⟩ : BufTy).Contents (Elt F)) (i : S8192x8192.Idx) :
    val_main_v21 (F := F) x1 x2 x3 i = FloatOps.mulf (val_main_v18 (F := F) x1 x2 x3 i) (val_main_v20 (F := F) x1 x2 x3 i) := rfl

def val_main_v22 (x0 : (⟨S8192x512, .f32⟩ : BufTy).Contents (Elt F)) (x4 : (⟨S512x256, .f32⟩ : BufTy).Contents (Elt F)) : (⟨S8192x256, .f32⟩ : BufTy).Contents (Elt F) :=
  Host.dotGeneral dot_S8192x512_S512x256_S8192x256_1_0_0_1_n_n none (x0) (x4)
theorem val_main_v22_apply (x0 : (⟨S8192x512, .f32⟩ : BufTy).Contents (Elt Ideal)) (x4 : (⟨S512x256, .f32⟩ : BufTy).Contents (Elt Ideal)) (a : Fin 8192) (b : Fin 256) :
    val_main_v22 (F := Ideal) x0 x4 (ValueIdx.ix2 a b) = ∑ k : Fin 512, x0 (ValueIdx.ix2 a k) * x4 (ValueIdx.ix2 k b) :=
  Cert.LibDot.dotGeneral_10_apply dot_S8192x512_S512x256_S8192x256_1_0_0_1_n_n rfl rfl rfl rfl rfl rfl none _ _ a b

def val_main_v23 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) : (⟨S8192x256, .f32⟩ : BufTy).Contents (Elt F) :=
  Host.dotGeneral dot_S8192x8192_S8192x256_S8192x256_1_0_0_1_n_n none (val_main_v21 (F := F) x1 x2 x3) (val_main_v22 (F := F) x0 x4)
theorem val_main_v23_apply (x0 : (⟨S8192x512, .f32⟩ : BufTy).Contents (Elt Ideal)) (x1 x2 : (⟨S8192x8192, .f32⟩ : BufTy).Contents (Elt Ideal)) (x3 : (⟨S8192, .f32⟩ : BufTy).Contents (Elt Ideal)) (x4 : (⟨S512x256, .f32⟩ : BufTy).Contents (Elt Ideal)) (a : Fin 8192) (b : Fin 256) :
    val_main_v23 (F := Ideal) x0 x1 x2 x3 x4 (ValueIdx.ix2 a b) = ∑ k : Fin 8192, (val_main_v21 (F := Ideal) x1 x2 x3) (ValueIdx.ix2 a k) * (val_main_v22 (F := Ideal) x0 x4) (ValueIdx.ix2 k b) :=
  Cert.LibDot.dotGeneral_10_apply dot_S8192x8192_S8192x256_S8192x256_1_0_0_1_n_n rfl rfl rfl rfl rfl rfl none _ _ a b

def val_main_v24 (x5 : (⟨S256, .f32⟩ : BufTy).Contents (Elt F)) : (⟨S1x256, .f32⟩ : BufTy).Contents (Elt F) :=
  broadcastInDim S1x256 ![1] bcast_S256_S1x256_1 (x5)
abbrev idx_main_v24 (i : S1x256.Idx) : S256.Idx := fun a => match a with
  | ⟨0, _⟩ => ⟨(i 1).val, (i 1).isLt⟩
theorem val_main_v24_apply (x5 : (⟨S256, .f32⟩ : BufTy).Contents (Elt F)) (i : S1x256.Idx) :
    val_main_v24 (F := F) x5 i = x5 (idx_main_v24 i) := by
  unfold val_main_v24
  exact broadcastInDim_apply _ bcast_S256_S1x256_1 x5 i (idx_main_v24 i) (fun a => match a with
    | ⟨0, _⟩ => by show (i 1).val = if (256 : Nat) = 1 then 0 else (i 1).val; rw [if_neg (by decide)])

def val_main_v25 (x5 : (⟨S256, .f32⟩ : BufTy).Contents (Elt F)) : (⟨S8192x256, .f32⟩ : BufTy).Contents (Elt F) :=
  broadcastInDim S8192x256 ![0, 1] bcast_S1x256_S8192x256_0_1 (val_main_v24 (F := F) x5)
abbrev idx_main_v25 (i : S8192x256.Idx) : S1x256.Idx := fun a => match a with
  | ⟨0, _⟩ => ⟨0, Nat.one_pos⟩
  | ⟨1, _⟩ => ⟨(i 1).val, (i 1).isLt⟩
theorem val_main_v25_apply (x5 : (⟨S256, .f32⟩ : BufTy).Contents (Elt F)) (i : S8192x256.Idx) :
    val_main_v25 (F := F) x5 i = val_main_v24 (F := F) x5 (idx_main_v25 i) := by
  unfold val_main_v25
  generalize val_main_v24 (F := F) x5 = y
  exact broadcastInDim_apply _ bcast_S1x256_S8192x256_0_1 y i (idx_main_v25 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v26 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) : (⟨S8192x256, .f32⟩ : BufTy).Contents (Elt F) :=
  addf (val_main_v23 (F := F) x0 x1 x2 x3 x4) (val_main_v25 (F := F) x5)
theorem val_main_v26_apply (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (i : S8192x256.Idx) :
    val_main_v26 (F := F) x0 x1 x2 x3 x4 x5 i = FloatOps.addf (val_main_v23 (F := F) x0 x1 x2 x3 x4 i) (val_main_v25 (F := F) x5 i) := rfl

def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

def val_main_call1_v0 : (⟨S8192x256, .f32⟩ : BufTy).Contents (Elt F) :=
  broadcastInDim S8192x256 ![] bcast_S_S8192x256 (val_main_call1_cst (F := F))
abbrev idx_main_call1_v0 (i : S8192x256.Idx) : S_.Idx := fun a => a.elim0
theorem val_main_call1_v0_apply (i : S8192x256.Idx) :
    val_main_call1_v0 (F := F) i = val_main_call1_cst (F := F) (idx_main_call1_v0 i) := by
  unfold val_main_call1_v0
  generalize val_main_call1_cst (F := F) = y
  exact broadcastInDim_apply _ bcast_S_S8192x256 y i (idx_main_call1_v0 i) (fun a => a.elim0)

def val_main_v27 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) : (⟨S8192x256, .f32⟩ : BufTy).Contents (Elt F) :=
  maximumf (val_main_v26 (F := F) x0 x1 x2 x3 x4 x5) (val_main_call1_v0 (F := F))
theorem val_main_v27_apply (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (i : S8192x256.Idx) :
    val_main_v27 (F := F) x0 x1 x2 x3 x4 x5 i = FloatOps.maximumf (val_main_v26 (F := F) x0 x1 x2 x3 x4 x5 i) (val_main_call1_v0 (F := F) i) := rfl

def val_main_v28 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) : (⟨S8192x256, .f32⟩ : BufTy).Contents (Elt F) :=
  Host.dotGeneral dot_S8192x256_S256x256_S8192x256_1_0_0_1_n_n none (val_main_v27 (F := F) x0 x1 x2 x3 x4 x5) (x6)
theorem val_main_v28_apply (x0 : (⟨S8192x512, .f32⟩ : BufTy).Contents (Elt Ideal)) (x1 x2 : (⟨S8192x8192, .f32⟩ : BufTy).Contents (Elt Ideal)) (x3 : (⟨S8192, .f32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (a : Fin 8192) (b : Fin 256) :
    val_main_v28 (F := Ideal) x0 x1 x2 x3 x4 x5 x6 (ValueIdx.ix2 a b) = ∑ k : Fin 256, (val_main_v27 (F := Ideal) x0 x1 x2 x3 x4 x5) (ValueIdx.ix2 a k) * x6 (ValueIdx.ix2 k b) :=
  Cert.LibDot.dotGeneral_10_apply dot_S8192x256_S256x256_S8192x256_1_0_0_1_n_n rfl rfl rfl rfl rfl rfl none _ _ a b

def val_main_v29 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) : (⟨S8192x256, .f32⟩ : BufTy).Contents (Elt F) :=
  Host.dotGeneral dot_S8192x8192_S8192x256_S8192x256_1_0_0_1_n_n none (val_main_v21 (F := F) x1 x2 x3) (val_main_v28 (F := F) x0 x1 x2 x3 x4 x5 x6)
theorem val_main_v29_apply (x0 : (⟨S8192x512, .f32⟩ : BufTy).Contents (Elt Ideal)) (x1 x2 : (⟨S8192x8192, .f32⟩ : BufTy).Contents (Elt Ideal)) (x3 : (⟨S8192, .f32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (a : Fin 8192) (b : Fin 256) :
    val_main_v29 (F := Ideal) x0 x1 x2 x3 x4 x5 x6 (ValueIdx.ix2 a b) = ∑ k : Fin 8192, (val_main_v21 (F := Ideal) x1 x2 x3) (ValueIdx.ix2 a k) * (val_main_v28 (F := Ideal) x0 x1 x2 x3 x4 x5 x6) (ValueIdx.ix2 k b) :=
  Cert.LibDot.dotGeneral_10_apply dot_S8192x8192_S8192x256_S8192x256_1_0_0_1_n_n rfl rfl rfl rfl rfl rfl none _ _ a b

def val_main_v30 (x7 : (⟨S256, .f32⟩ : BufTy).Contents (Elt F)) : (⟨S1x256, .f32⟩ : BufTy).Contents (Elt F) :=
  broadcastInDim S1x256 ![1] bcast_S256_S1x256_1 (x7)
abbrev idx_main_v30 (i : S1x256.Idx) : S256.Idx := fun a => match a with
  | ⟨0, _⟩ => ⟨(i 1).val, (i 1).isLt⟩
theorem val_main_v30_apply (x7 : (⟨S256, .f32⟩ : BufTy).Contents (Elt F)) (i : S1x256.Idx) :
    val_main_v30 (F := F) x7 i = x7 (idx_main_v30 i) := by
  unfold val_main_v30
  exact broadcastInDim_apply _ bcast_S256_S1x256_1 x7 i (idx_main_v30 i) (fun a => match a with
    | ⟨0, _⟩ => by show (i 1).val = if (256 : Nat) = 1 then 0 else (i 1).val; rw [if_neg (by decide)])

def val_main_v31 (x7 : (⟨S256, .f32⟩ : BufTy).Contents (Elt F)) : (⟨S8192x256, .f32⟩ : BufTy).Contents (Elt F) :=
  broadcastInDim S8192x256 ![0, 1] bcast_S1x256_S8192x256_0_1 (val_main_v30 (F := F) x7)
abbrev idx_main_v31 (i : S8192x256.Idx) : S1x256.Idx := fun a => match a with
  | ⟨0, _⟩ => ⟨0, Nat.one_pos⟩
  | ⟨1, _⟩ => ⟨(i 1).val, (i 1).isLt⟩
theorem val_main_v31_apply (x7 : (⟨S256, .f32⟩ : BufTy).Contents (Elt F)) (i : S8192x256.Idx) :
    val_main_v31 (F := F) x7 i = val_main_v30 (F := F) x7 (idx_main_v31 i) := by
  unfold val_main_v31
  generalize val_main_v30 (F := F) x7 = y
  exact broadcastInDim_apply _ bcast_S1x256_S8192x256_0_1 y i (idx_main_v31 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v32 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) : (⟨S8192x256, .f32⟩ : BufTy).Contents (Elt F) :=
  addf (val_main_v29 (F := F) x0 x1 x2 x3 x4 x5 x6) (val_main_v31 (F := F) x7)
theorem val_main_v32_apply (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (i : S8192x256.Idx) :
    val_main_v32 (F := F) x0 x1 x2 x3 x4 x5 x6 x7 i = FloatOps.addf (val_main_v29 (F := F) x0 x1 x2 x3 x4 x5 x6 i) (val_main_v31 (F := F) x7 i) := rfl

def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl

def val_main_call2_v0 : (⟨S8192x256, .f32⟩ : BufTy).Contents (Elt F) :=
  broadcastInDim S8192x256 ![] bcast_S_S8192x256 (val_main_call2_cst (F := F))
abbrev idx_main_call2_v0 (i : S8192x256.Idx) : S_.Idx := fun a => a.elim0
theorem val_main_call2_v0_apply (i : S8192x256.Idx) :
    val_main_call2_v0 (F := F) i = val_main_call2_cst (F := F) (idx_main_call2_v0 i) := by
  unfold val_main_call2_v0
  generalize val_main_call2_cst (F := F) = y
  exact broadcastInDim_apply _ bcast_S_S8192x256 y i (idx_main_call2_v0 i) (fun a => a.elim0)

def val_main_v33 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) : (⟨S8192x256, .f32⟩ : BufTy).Contents (Elt F) :=
  maximumf (val_main_v32 (F := F) x0 x1 x2 x3 x4 x5 x6 x7) (val_main_call2_v0 (F := F))
theorem val_main_v33_apply (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (i : S8192x256.Idx) :
    val_main_v33 (F := F) x0 x1 x2 x3 x4 x5 x6 x7 i = FloatOps.maximumf (val_main_v32 (F := F) x0 x1 x2 x3 x4 x5 x6 x7 i) (val_main_call2_v0 (F := F) i) := rfl

def val_main_v34 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x40, .f32⟩ : BufTy).Contents (Elt F)) : (⟨S8192x40, .f32⟩ : BufTy).Contents (Elt F) :=
  Host.dotGeneral dot_S8192x256_S256x40_S8192x40_1_0_0_1_n_n none (val_main_v33 (F := F) x0 x1 x2 x3 x4 x5 x6 x7) (x8)
theorem val_main_v34_apply (x0 : (⟨S8192x512, .f32⟩ : BufTy).Contents (Elt Ideal)) (x1 x2 : (⟨S8192x8192, .f32⟩ : BufTy).Contents (Elt Ideal)) (x3 : (⟨S8192, .f32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x40, .f32⟩ : BufTy).Contents (Elt Ideal)) (a : Fin 8192) (b : Fin 40) :
    val_main_v34 (F := Ideal) x0 x1 x2 x3 x4 x5 x6 x7 x8 (ValueIdx.ix2 a b) = ∑ k : Fin 256, (val_main_v33 (F := Ideal) x0 x1 x2 x3 x4 x5 x6 x7) (ValueIdx.ix2 a k) * x8 (ValueIdx.ix2 k b) :=
  Cert.LibDot.dotGeneral_10_apply dot_S8192x256_S256x40_S8192x40_1_0_0_1_n_n rfl rfl rfl rfl rfl rfl none _ _ a b

def val_main_v35 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x40, .f32⟩ : BufTy).Contents (Elt F)) : (⟨S8192x40, .f32⟩ : BufTy).Contents (Elt F) :=
  Host.dotGeneral dot_S8192x8192_S8192x40_S8192x40_1_0_0_1_n_n none (val_main_v21 (F := F) x1 x2 x3) (val_main_v34 (F := F) x0 x1 x2 x3 x4 x5 x6 x7 x8)
theorem val_main_v35_apply (x0 : (⟨S8192x512, .f32⟩ : BufTy).Contents (Elt Ideal)) (x1 x2 : (⟨S8192x8192, .f32⟩ : BufTy).Contents (Elt Ideal)) (x3 : (⟨S8192, .f32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x40, .f32⟩ : BufTy).Contents (Elt Ideal)) (a : Fin 8192) (b : Fin 40) :
    val_main_v35 (F := Ideal) x0 x1 x2 x3 x4 x5 x6 x7 x8 (ValueIdx.ix2 a b) = ∑ k : Fin 8192, (val_main_v21 (F := Ideal) x1 x2 x3) (ValueIdx.ix2 a k) * (val_main_v34 (F := Ideal) x0 x1 x2 x3 x4 x5 x6 x7 x8) (ValueIdx.ix2 k b) :=
  Cert.LibDot.dotGeneral_10_apply dot_S8192x8192_S8192x40_S8192x40_1_0_0_1_n_n rfl rfl rfl rfl rfl rfl none _ _ a b

def val_main_v36 (x9 : (⟨S40, .f32⟩ : BufTy).Contents (Elt F)) : (⟨S1x40, .f32⟩ : BufTy).Contents (Elt F) :=
  broadcastInDim S1x40 ![1] bcast_S40_S1x40_1 (x9)
abbrev idx_main_v36 (i : S1x40.Idx) : S40.Idx := fun a => match a with
  | ⟨0, _⟩ => ⟨(i 1).val, (i 1).isLt⟩
theorem val_main_v36_apply (x9 : (⟨S40, .f32⟩ : BufTy).Contents (Elt F)) (i : S1x40.Idx) :
    val_main_v36 (F := F) x9 i = x9 (idx_main_v36 i) := by
  unfold val_main_v36
  exact broadcastInDim_apply _ bcast_S40_S1x40_1 x9 i (idx_main_v36 i) (fun a => match a with
    | ⟨0, _⟩ => by show (i 1).val = if (40 : Nat) = 1 then 0 else (i 1).val; rw [if_neg (by decide)])

def val_main_v37 (x9 : (⟨S40, .f32⟩ : BufTy).Contents (Elt F)) : (⟨S8192x40, .f32⟩ : BufTy).Contents (Elt F) :=
  broadcastInDim S8192x40 ![0, 1] bcast_S1x40_S8192x40_0_1 (val_main_v36 (F := F) x9)
abbrev idx_main_v37 (i : S8192x40.Idx) : S1x40.Idx := fun a => match a with
  | ⟨0, _⟩ => ⟨0, Nat.one_pos⟩
  | ⟨1, _⟩ => ⟨(i 1).val, (i 1).isLt⟩
theorem val_main_v37_apply (x9 : (⟨S40, .f32⟩ : BufTy).Contents (Elt F)) (i : S8192x40.Idx) :
    val_main_v37 (F := F) x9 i = val_main_v36 (F := F) x9 (idx_main_v37 i) := by
  unfold val_main_v37
  generalize val_main_v36 (F := F) x9 = y
  exact broadcastInDim_apply _ bcast_S1x40_S8192x40_0_1 y i (idx_main_v37 i) (fun a => match a with
    | ⟨0, _⟩ => by show 0 = if (1 : Nat) = 1 then 0 else (i 0).val; rw [if_pos rfl]
    | ⟨1, _⟩ => by show (i 1).val = if (40 : Nat) = 1 then 0 else (i 1).val; rw [if_neg (by decide)])

def val_main_v38 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x40, .f32⟩ : BufTy).Contents (Elt F)) (x9 : (⟨S40, .f32⟩ : BufTy).Contents (Elt F)) : (⟨S8192x40, .f32⟩ : BufTy).Contents (Elt F) :=
  addf (val_main_v35 (F := F) x0 x1 x2 x3 x4 x5 x6 x7 x8) (val_main_v37 (F := F) x9)
theorem val_main_v38_apply (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x40, .f32⟩ : BufTy).Contents (Elt F)) (x9 : (⟨S40, .f32⟩ : BufTy).Contents (Elt F)) (i : S8192x40.Idx) :
    val_main_v38 (F := F) x0 x1 x2 x3 x4 x5 x6 x7 x8 x9 i = FloatOps.addf (val_main_v35 (F := F) x0 x1 x2 x3 x4 x5 x6 x7 x8 i) (val_main_v37 (F := F) x9 i) := rfl

def val_main_call3_cst : (⟨S_, .f32⟩ : BufTy).Contents (Elt F) :=
  constant S_ .f32 0xFF800000#32
def val_main_call3_v0 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x40, .f32⟩ : BufTy).Contents (Elt F)) (x9 : (⟨S40, .f32⟩ : BufTy).Contents (Elt F)) : (⟨S8192, .f32⟩ : BufTy).Contents (Elt F) :=
  Host.reduce FloatOps.maximumf (val_main_v38 (F := F) x0 x1 x2 x3 x4 x5 x6 x7 x8 x9) (val_main_call3_cst (F := F)) reducesTo_S8192x40_S8192_d1 h_S_

def val_main_call3_cst_0 : (⟨S_, .f32⟩ : BufTy).Contents (Elt F) :=
  constant S_ .f32 0xFF800000#32
def val_main_call3_v1 : (⟨S8192, .f32⟩ : BufTy).Contents (Elt F) :=
  broadcastInDim S8192 ![] bcast_S_S8192 (val_main_call3_cst_0 (F := F))
def val_main_call3_v2 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x40, .f32⟩ : BufTy).Contents (Elt F)) (x9 : (⟨S40, .f32⟩ : BufTy).Contents (Elt F)) : (⟨S8192, .f32⟩ : BufTy).Contents (Elt F) :=
  maximumf (val_main_call3_v1 (F := F)) (val_main_call3_v0 (F := F) x0 x1 x2 x3 x4 x5 x6 x7 x8 x9)
def val_main_call3_v3 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x40, .f32⟩ : BufTy).Contents (Elt F)) (x9 : (⟨S40, .f32⟩ : BufTy).Contents (Elt F)) : (⟨S8192x1, .f32⟩ : BufTy).Contents (Elt F) :=
  broadcastInDim S8192x1 ![0] bcast_S8192_S8192x1_0 (val_main_call3_v2 (F := F) x0 x1 x2 x3 x4 x5 x6 x7 x8 x9)
def val_main_call3_v4 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x40, .f32⟩ : BufTy).Contents (Elt F)) (x9 : (⟨S40, .f32⟩ : BufTy).Contents (Elt F)) : (⟨S8192x40, .f32⟩ : BufTy).Contents (Elt F) :=
  broadcastInDim S8192x40 ![0, 1] bcast_S8192x1_S8192x40_0_1 (val_main_call3_v3 (F := F) x0 x1 x2 x3 x4 x5 x6 x7 x8 x9)
def val_main_call3_v5 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x40, .f32⟩ : BufTy).Contents (Elt F)) (x9 : (⟨S40, .f32⟩ : BufTy).Contents (Elt F)) : (⟨S8192x40, .f32⟩ : BufTy).Contents (Elt F) :=
  subf (val_main_v38 (F := F) x0 x1 x2 x3 x4 x5 x6 x7 x8 x9) (val_main_call3_v4 (F := F) x0 x1 x2 x3 x4 x5 x6 x7 x8 x9)
def val_main_call3_v6 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x40, .f32⟩ : BufTy).Contents (Elt F)) (x9 : (⟨S40, .f32⟩ : BufTy).Contents (Elt F)) : (⟨S8192x40, .f32⟩ : BufTy).Contents (Elt F) :=
  Host.exp (val_main_call3_v5 (F := F) x0 x1 x2 x3 x4 x5 x6 x7 x8 x9)
def val_main_call3_cst_1 : (⟨S_, .f32⟩ : BufTy).Contents (Elt F) :=
  constant S_ .f32 0x00000000#32
def val_main_call3_v7 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x40, .f32⟩ : BufTy).Contents (Elt F)) (x9 : (⟨S40, .f32⟩ : BufTy).Contents (Elt F)) : (⟨S8192, .f32⟩ : BufTy).Contents (Elt F) :=
  Host.reduceAdd (val_main_call3_v6 (F := F) x0 x1 x2 x3 x4 x5 x6 x7 x8 x9) (val_main_call3_cst_1 (F := F)) reducesTo_S8192x40_S8192_d1 h_S_
def val_main_call3_v8 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x40, .f32⟩ : BufTy).Contents (Elt F)) (x9 : (⟨S40, .f32⟩ : BufTy).Contents (Elt F)) : (⟨S8192x1, .f32⟩ : BufTy).Contents (Elt F) :=
  broadcastInDim S8192x1 ![0] bcast_S8192_S8192x1_0 (val_main_call3_v7 (F := F) x0 x1 x2 x3 x4 x5 x6 x7 x8 x9)
def val_main_call3_v9 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x40, .f32⟩ : BufTy).Contents (Elt F)) (x9 : (⟨S40, .f32⟩ : BufTy).Contents (Elt F)) : (⟨S8192x1, .f32⟩ : BufTy).Contents (Elt F) :=
  Host.log (val_main_call3_v8 (F := F) x0 x1 x2 x3 x4 x5 x6 x7 x8 x9)
def val_main_call3_v10 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x40, .f32⟩ : BufTy).Contents (Elt F)) (x9 : (⟨S40, .f32⟩ : BufTy).Contents (Elt F)) : (⟨S8192x40, .f32⟩ : BufTy).Contents (Elt F) :=
  broadcastInDim S8192x40 ![0, 1] bcast_S8192x1_S8192x40_0_1 (val_main_call3_v9 (F := F) x0 x1 x2 x3 x4 x5 x6 x7 x8 x9)
def val_main_v39 (x0 : (⟨S8192x512, .f32⟩ : BufTy).Contents (Elt F)) (x1 x2 : (⟨S8192x8192, .f32⟩ : BufTy).Contents (Elt F)) (x3 : (⟨S8192, .f32⟩ : BufTy).Contents (Elt F)) (x4 : (⟨S512x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x40, .f32⟩ : BufTy).Contents (Elt F)) (x9 : (⟨S40, .f32⟩ : BufTy).Contents (Elt F)) : (⟨S8192x40, .f32⟩ : BufTy).Contents (Elt F) :=
  subf (val_main_call3_v5 (F := F) x0 x1 x2 x3 x4 x5 x6 x7 x8 x9) (val_main_call3_v10 (F := F) x0 x1 x2 x3 x4 x5 x6 x7 x8 x9)
theorem val_main_v39_eq (m : (ℓ : Loc nD τ sig) → Buf (Elt F) ℓ) (c : Dev nD) :
    Cert.ReferenceIdeal.ValueP.res_main_v39 m c = val_main_v39 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.ValueP.res_main_v39; rfl

end Cert.ReferenceIdeal.ReadP

end
-- ==== Proof.RefVal.lean ====
import proofs.«136604_j21827023798522_1_alg».proof.Proof.RefReadP
import proofs.«136604_j21827023798522_1_alg».proof.Proof.Spec
import Idealize.ShloMosaic.Lib.IdealHost
import Idealize.ShloMosaic.Lib.StableHlo.Predicate

noncomputable section

open scoped BigOperators

namespace Cert.RefVal

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

theorem ofNat32_inj (a b : Fin 8192) : BitVec.ofNat 32 a.val = BitVec.ofNat 32 b.val ↔ a = b := by
  constructor
  · intro h
    have h2 := congrArg BitVec.toNat h
    rw [BitVec.toNat_ofNat, BitVec.toNat_ofNat, Nat.mod_eq_of_lt (by have := a.isLt; omega),
      Nat.mod_eq_of_lt (by have := b.isLt; omega)] at h2
    exact Fin.ext h2
  · intro h; rw [h]

theorem eye_apply (a b : Fin 8192) :
    val_main_v10 (F := Ideal) (ix2 a b) = Cert.Spec.eye a b := by
  rw [val_main_v10_apply, val_main_v9_apply, val_main_v8_apply, val_main_v5_apply, val_main_v6_apply,
    val_main_v7_apply, val_main_c_apply]
  show FloatOps.uitofp (F := Ideal) .f32
    (IntOp.cmpi .eq (BitVec.ofNat 32 a.val + 0#32) (BitVec.ofNat 32 b.val)) = _
  rw [BitVec.add_zero]
  unfold Cert.Spec.eye
  by_cases h : a = b
  · rw [if_pos h, StableHlo.Predicate.cmpi_eq_iff.mpr ((ofNat32_inj a b).mpr h)]
    show (((1#1 : BitVec 1).toNat : ℝ) : EReal) = 1
    norm_num
  · rw [if_neg h, eq_zero_of_ne_one (fun hc => h ((ofNat32_inj a b).mp (StableHlo.Predicate.cmpi_eq_iff.mp hc)))]
    show (((0#1 : BitVec 1).toNat : ℝ) : EReal) = 0
    norm_num

variable (x0 : (⟨S8192x512, .f32⟩ : BufTy).Contents (Elt Ideal))
  (x1 x2 : (⟨S8192x8192, .f32⟩ : BufTy).Contents (Elt Ideal))
  (x3 : (⟨S8192, .f32⟩ : BufTy).Contents (Elt Ideal))
  (x4 : (⟨S512x256, .f32⟩ : BufTy).Contents (Elt Ideal))
  (x5 : (⟨S256, .f32⟩ : BufTy).Contents (Elt Ideal))
  (x6 : (⟨S256x256, .f32⟩ : BufTy).Contents (Elt Ideal))
  (x7 : (⟨S256, .f32⟩ : BufTy).Contents (Elt Ideal))
  (x8 : (⟨S256x40, .f32⟩ : BufTy).Contents (Elt Ideal))
  (x9 : (⟨S40, .f32⟩ : BufTy).Contents (Elt Ideal))

theorem idx1_2 (a b : Fin 8192) : idx_main_v1 (idx_main_v2 (ix2 a b)) = ix1 b :=
  funext fun d => Fin.ext (by match d with | ⟨0, _⟩ => rfl)

theorem idx12 (a k : Fin 8192) : idx_main_v12 (ix1 a) k = ix2 a k :=
  funext fun d => Fin.ext (by match d with | ⟨0, _⟩ => rfl | ⟨1, _⟩ => rfl)

theorem idx16_17 (a b : Fin 8192) : idx_main_v16 (idx_main_v17 (ix2 a b)) = ix1 a :=
  funext fun d => Fin.ext (by match d with | ⟨0, _⟩ => rfl)

theorem idx19_20 (a b : Fin 8192) : idx_main_v19 (idx_main_v20 (ix2 a b)) = ix1 b :=
  funext fun d => Fin.ext (by match d with | ⟨0, _⟩ => rfl)

local notation "𝕄" => Cert.Spec.modAdj (fun i k => x1 (ix2 i k)) (fun k j => x2 (ix2 k j)) (fun j => x3 (ix1 j))

theorem modAdj_apply (a b : Fin 8192) : val_main_v4 (F := Ideal) x1 x2 x3 (ix2 a b) = 𝕄 a b := by
  rw [val_main_v4_apply, val_main_v3_apply, val_main_v0_apply, val_main_v2_apply, val_main_v1_apply,
    val_main_call0_v0_apply, val_main_call0_cst_apply, idx1_2, Ideal.ofBits_def, Ideal.ofBits_zero_f32]
  rfl

theorem addEye_apply (a b : Fin 8192) :
    val_main_v11 (F := Ideal) x1 x2 x3 (ix2 a b) = 𝕄 a b + Cert.Spec.eye a b := by
  rw [val_main_v11_apply, modAdj_apply, eye_apply]
  rfl

theorem degree_apply (a : Fin 8192) :
    val_main_v12 (F := Ideal) x1 x2 x3 (ix1 a) = ∑ j : Fin 8192, (𝕄 a j + Cert.Spec.eye a j) := by
  rw [val_main_v12_apply, val_main_cst_apply, Ideal.ofBits_def, Ideal.ofBits_zero_f32, zero_add]
  refine Finset.sum_congr rfl fun k _ => ?_
  rw [idx12, addEye_apply]

theorem dinv_apply (a : Fin 8192) :
    val_main_v15 (F := Ideal) x1 x2 x3 (ix1 a) = Cert.Spec.dinvR 𝕄 a := by
  rw [val_main_v15_apply, val_main_v14_apply, val_main_cst_0_apply, val_main_v13_apply, degree_apply,
    Ideal.ofBits_def, Ideal.ofBits_one_f32]
  rfl

theorem adj_apply (a b : Fin 8192) :
    val_main_v21 (F := Ideal) x1 x2 x3 (ix2 a b) = Cert.Spec.normR 𝕄 a b := by
  rw [val_main_v21_apply, val_main_v18_apply, val_main_v17_apply, val_main_v16_apply, val_main_v20_apply,
    val_main_v19_apply, idx16_17, idx19_20, dinv_apply, dinv_apply, addEye_apply]
  rfl

local notation "𝔸" => Cert.Spec.normR 𝕄
local notation "𝕏" => (fun (i : Fin 8192) (k : Fin 512) => x0 (ix2 i k))
local notation "𝕎₀" => (fun (k : Fin 512) (j : Fin 256) => x4 (ix2 k j))
local notation "𝕓₀" => (fun (j : Fin 256) => x5 (ix1 j))
local notation "𝕎₁" => (fun (k : Fin 256) (j : Fin 256) => x6 (ix2 k j))
local notation "𝕓₁" => (fun (j : Fin 256) => x7 (ix1 j))
local notation "𝕎₂" => (fun (k : Fin 256) (j : Fin 40) => x8 (ix2 k j))
local notation "𝕓₂" => (fun (j : Fin 40) => x9 (ix1 j))

theorem idx24_25 (a : Fin 8192) (c : Fin 256) : idx_main_v24 (idx_main_v25 (ix2 a c)) = ix1 c :=
  funext fun d => Fin.ext (by match d with | ⟨0, _⟩ => rfl)

theorem idx30_31 (a : Fin 8192) (c : Fin 256) : idx_main_v30 (idx_main_v31 (ix2 a c)) = ix1 c :=
  funext fun d => Fin.ext (by match d with | ⟨0, _⟩ => rfl)

theorem idx36_37 (a : Fin 8192) (c : Fin 40) : idx_main_v36 (idx_main_v37 (ix2 a c)) = ix1 c :=
  funext fun d => Fin.ext (by match d with | ⟨0, _⟩ => rfl)

theorem xw0_apply (a : Fin 8192) (c : Fin 256) :
    val_main_v22 (F := Ideal) x0 x4 (ix2 a c) = Cert.Spec.mm 𝕏 𝕎₀ a c := by
  rw [val_main_v22_apply]
  rfl

theorem axw0_apply (a : Fin 8192) (c : Fin 256) :
    val_main_v23 (F := Ideal) x0 x1 x2 x3 x4 (ix2 a c) = Cert.Spec.mm 𝔸 (Cert.Spec.mm 𝕏 𝕎₀) a c := by
  rw [val_main_v23_apply]
  refine Finset.sum_congr rfl fun k _ => ?_
  rw [adj_apply, xw0_apply]

theorem h1_apply (a : Fin 8192) (c : Fin 256) :
    val_main_v27 (F := Ideal) x0 x1 x2 x3 x4 x5 (ix2 a c) = Cert.Spec.layerRelu 𝔸 𝕏 𝕎₀ 𝕓₀ a c := by
  rw [val_main_v27_apply, val_main_v26_apply, axw0_apply, val_main_v25_apply, val_main_v24_apply, idx24_25,
    val_main_call1_v0_apply, val_main_call1_cst_apply, Ideal.ofBits_def, Ideal.ofBits_zero_f32]
  rfl

local notation "ℍ₁" => Cert.Spec.layerRelu 𝔸 𝕏 𝕎₀ 𝕓₀

theorem hw1_apply (a : Fin 8192) (c : Fin 256) :
    val_main_v28 (F := Ideal) x0 x1 x2 x3 x4 x5 x6 (ix2 a c) = Cert.Spec.mm ℍ₁ 𝕎₁ a c := by
  rw [val_main_v28_apply]
  refine Finset.sum_congr rfl fun k _ => ?_
  rw [h1_apply]

theorem ahw1_apply (a : Fin 8192) (c : Fin 256) :
    val_main_v29 (F := Ideal) x0 x1 x2 x3 x4 x5 x6 (ix2 a c) = Cert.Spec.mm 𝔸 (Cert.Spec.mm ℍ₁ 𝕎₁) a c := by
  rw [val_main_v29_apply]
  refine Finset.sum_congr rfl fun k _ => ?_
  rw [adj_apply, hw1_apply]

theorem h2_apply (a : Fin 8192) (c : Fin 256) :
    val_main_v33 (F := Ideal) x0 x1 x2 x3 x4 x5 x6 x7 (ix2 a c) = Cert.Spec.layerRelu 𝔸 ℍ₁ 𝕎₁ 𝕓₁ a c := by
  rw [val_main_v33_apply, val_main_v32_apply, ahw1_apply, val_main_v31_apply, val_main_v30_apply, idx30_31,
    val_main_call2_v0_apply, val_main_call2_cst_apply, Ideal.ofBits_def, Ideal.ofBits_zero_f32]
  rfl

local notation "ℍ₂" => Cert.Spec.layerRelu 𝔸 ℍ₁ 𝕎₁ 𝕓₁

theorem hw2_apply (a : Fin 8192) (c : Fin 40) :
    val_main_v34 (F := Ideal) x0 x1 x2 x3 x4 x5 x6 x7 x8 (ix2 a c) = Cert.Spec.mm ℍ₂ 𝕎₂ a c := by
  rw [val_main_v34_apply]
  refine Finset.sum_congr rfl fun k _ => ?_
  rw [h2_apply]

theorem ahw2_apply (a : Fin 8192) (c : Fin 40) :
    val_main_v35 (F := Ideal) x0 x1 x2 x3 x4 x5 x6 x7 x8 (ix2 a c) = Cert.Spec.mm 𝔸 (Cert.Spec.mm ℍ₂ 𝕎₂) a c := by
  rw [val_main_v35_apply]
  refine Finset.sum_congr rfl fun k _ => ?_
  rw [adj_apply, hw2_apply]

theorem ref_logits (a : Fin 8192) (b : Fin 40) :
    val_main_v38 (F := Ideal) x0 x1 x2 x3 x4 x5 x6 x7 x8 x9 (ix2 a b)
      = Cert.Spec.logits
          (Cert.Spec.normR (Cert.Spec.modAdj (fun i k => x1 (ix2 i k)) (fun k j => x2 (ix2 k j)) (fun j => x3 (ix1 j))))
          (fun i k => x0 (ix2 i k)) (fun k j => x4 (ix2 k j)) (fun j => x5 (ix1 j))
          (fun k j => x6 (ix2 k j)) (fun j => x7 (ix1 j)) (fun k j => x8 (ix2 k j)) (fun j => x9 (ix1 j)) a b := by
  rw [val_main_v38_apply, ahw2_apply, val_main_v37_apply, val_main_v36_apply, idx36_37]
  rfl

def LSR (x : (⟨S8192x40, .f32⟩ : BufTy).Contents (Elt Ideal)) : (⟨S8192x40, .f32⟩ : BufTy).Contents (Elt Ideal) :=
  subf (F := Ideal)
    (subf (F := Ideal) x
      (broadcastInDim S8192x40 ![0, 1] bcast_S8192x1_S8192x40_0_1
        (broadcastInDim S8192x1 ![0] bcast_S8192_S8192x1_0
          (maximumf (F := Ideal)
            (broadcastInDim S8192 ![] bcast_S_S8192 (constant (F := Ideal) S_ .f32 0xFF800000#32))
            (Host.reduce (FloatOps.maximumf (F := Ideal)) x (constant (F := Ideal) S_ .f32 0xFF800000#32)
              reducesTo_S8192x40_S8192_d1 h_S_)))))
    (broadcastInDim S8192x40 ![0, 1] bcast_S8192x1_S8192x40_0_1
      (Host.log (F := Ideal)
        (broadcastInDim S8192x1 ![0] bcast_S8192_S8192x1_0
          (Host.reduceAdd (F := Ideal)
            (Host.exp (F := Ideal)
              (subf (F := Ideal) x
                (broadcastInDim S8192x40 ![0, 1] bcast_S8192x1_S8192x40_0_1
                  (broadcastInDim S8192x1 ![0] bcast_S8192_S8192x1_0
                    (maximumf (F := Ideal)
                      (broadcastInDim S8192 ![] bcast_S_S8192 (constant (F := Ideal) S_ .f32 0xFF800000#32))
                      (Host.reduce (FloatOps.maximumf (F := Ideal)) x (constant (F := Ideal) S_ .f32 0xFF800000#32)
                        reducesTo_S8192x40_S8192_d1 h_S_))))))
            (constant (F := Ideal) S_ .f32 0x00000000#32) reducesTo_S8192x40_S8192_d1 h_S_))))

theorem ref_result :
    val_main_v39 (F := Ideal) x0 x1 x2 x3 x4 x5 x6 x7 x8 x9
      = LSR (val_main_v38 (F := Ideal) x0 x1 x2 x3 x4 x5 x6 x7 x8 x9) := rfl

end Cert.RefVal
end
-- ==== Proof.Tails.lean ====
import proofs.«136604_j21827023798522_1_alg».proof.Proof.HostRest
import proofs.«136604_j21827023798522_1_alg».proof.Proof.RefVal

noncomputable section

namespace Cert.Tails

open Idealize.ShloMosaic Idealize.ShloMosaic.ValueIdx

theorem LSR_eq_LSK (x : Cert.KernelIdeal.S8192x40.Idx → EReal) :
    Cert.RefVal.LSR x = Cert.KernelIdeal.HostRest.LSK x := rfl

theorem LSR_congr {x y : Cert.KernelIdeal.S8192x40.Idx → EReal}
    (h : ∀ (a : Fin 8192) (b : Fin 40), x (ix2 a b) = y (ix2 a b)) : Cert.RefVal.LSR x = Cert.RefVal.LSR y := by
  have e : x = y := funext fun j => by rw [eq_ix2 j]; exact h _ _
  rw [e]

end Cert.Tails

end
-- ==== Proof.lean ====
import proofs.«136604_j21827023798522_1_alg».proof.Defs
import proofs.«136604_j21827023798522_1_alg».proof.Proof.Gen.Kernel
import proofs.«136604_j21827023798522_1_alg».proof.Proof.Gen.KernelIdeal
import proofs.«136604_j21827023798522_1_alg».proof.Proof.Gen.ReferenceIdeal
import proofs.«136604_j21827023798522_1_alg».proof.Proof.Gen.Pre_finite_inputs
import proofs.«136604_j21827023798522_1_alg».proof.Proof.KChain
import proofs.«136604_j21827023798522_1_alg».proof.Proof.ChainRun
import proofs.«136604_j21827023798522_1_alg».proof.Proof.KVal
import proofs.«136604_j21827023798522_1_alg».proof.Proof.RefVal
import proofs.«136604_j21827023798522_1_alg».proof.Proof.Tails
import Idealize.ShloMosaic.Adequacy
import Idealize.ShloMosaic.Init

noncomputable section

namespace Cert.Proof

open Idealize.ShloMosaic Idealize.SL.Sem Idealize.ShloMosaic.ValueIdx Idealize.ShloMosaic.TcCoe

-- The two normalised adjacencies agree where the modified adjacency has no negative entry, so both sides are the same network's logits.
theorem logits_agree (m : (ℓ : Loc Cert.KernelIdeal.nD Cert.KernelIdeal.τ Cert.KernelIdeal.sig) → Buf (Elt Ideal) ℓ) (c : Dev Cert.KernelIdeal.nD) :
    Cert.ReferenceIdeal.ReadP.val_main_v38 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = (Cert.KernelIdeal.Chain.B13 (F := Ideal) m c (Proc.devRef .tc Cert.KernelIdeal.main_v47) : Cert.KernelIdeal.S8192x40.Idx → EReal) := by
  funext idx
  obtain ⟨a, b, rfl⟩ : ∃ (a : Fin 8192) (b : Fin 40), idx = ix2 a b := ⟨idx 0, idx 1, eq_ix2 idx⟩
  rw [Cert.RefVal.ref_logits, Cert.KernelIdeal.KVal.k_logits m c a b, Cert.Spec.normK_eq_normR _ (Cert.Spec.modAdj_nonneg _ _ _)]

theorem claim : Cert.Claim := ⟨Cert.Kernel.Gen.facts, Cert.KernelIdeal.Gen.facts, Cert.ReferenceIdeal.Gen.facts, Cert.Pre_finite_inputs.Gen.facts,
  fun m ρ _ => Cert.Kernel.Chain.frame m ρ,
  fun m ρ _ => (θ_run Cert.KernelIdeal.defs _ _).mono (fun _ h c => (h c).2) (Cert.KernelIdeal.Chain.run_result m ρ),
  fun m ρ _ => (θ_run Cert.ReferenceIdeal.defs _ _).mono (fun _ h c => (h c).2) (Cert.ReferenceIdeal.ValueP.run (F := Ideal) m ρ),
  trivial,
  fun m ρ m' ρ' _ hagree =>
    ⟨fun c => Cert.KernelIdeal.HostRest.LSK (Cert.KernelIdeal.Chain.B13 (F := Ideal) m c (Proc.devRef .tc Cert.KernelIdeal.main_v47)),
      (θ_run Cert.KernelIdeal.defs _ _).mono (fun _ h c => ⟨(h c).1.trans (Cert.KernelIdeal.KVal.k_result m c), (h c).2⟩)
        (Cert.KernelIdeal.Chain.run_result m ρ),
      (θ_run Cert.ReferenceIdeal.defs _ _).mono (fun _ h c => ⟨(h c).1.trans (by
          obtain ⟨h0, h1, h2, h3, h4, h5, h6, h7, h8, h9⟩ := hagree c
          rw [Cert.ReferenceIdeal.ReadP.val_main_v39_eq, Cert.RefVal.ref_result, Cert.Tails.LSR_eq_LSK]
          rw [h0, h1, h2, h3, h4, h5, h6, h7, h8, h9]
          exact congrArg Cert.KernelIdeal.HostRest.LSK (logits_agree m c)), (h c).2⟩)
        (Cert.ReferenceIdeal.ValueP.run (F := Ideal) m' ρ')⟩⟩

end Cert.Proof

end
